-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v205) = v0 c
          ∧ r.2.mem ((c.tc : Thread Cert.ReferenceIdeal.nD Cert.ReferenceIdeal.τ).loc Cert.ReferenceIdeal.main_v210) = v1 c
          ∧ r.2.mem ((c.tc : Thread Cert.ReferenceIdeal.nD Cert.ReferenceIdeal.τ).loc Cert.ReferenceIdeal.main_v215) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S4x1x2048 : Shape := ⟨3, ![4, 1, 2048]⟩
abbrev S50257x1024 : Shape := ⟨2, ![50257, 1024]⟩
abbrev S2x8192x1024 : Shape := ⟨3, ![2, 8192, 1024]⟩
abbrev S2x8192x2048 : Shape := ⟨3, ![2, 8192, 2048]⟩
abbrev S2x8192 : Shape := ⟨2, ![2, 8192]⟩
abbrev S2x8192x4096 : Shape := ⟨3, ![2, 8192, 4096]⟩
abbrev S_ : Shape := ⟨0, ![]⟩

class Facts : Prop where
  bcast_S_S4x1x2048 : S_.BroadcastsInDim S4x1x2048 (![] : Fin 0 → Fin S4x1x2048.rank)
  reducesTo_S4x1x2048_S_d0_1_2 : S4x1x2048.ReducesTo [0, 1, 2] S_
  h_S_ : 0 < S_.numel
  bcast_S_S50257x1024 : S_.BroadcastsInDim S50257x1024 (![] : Fin 0 → Fin S50257x1024.rank)
  reducesTo_S50257x1024_S_d0_1 : S50257x1024.ReducesTo [0, 1] S_
  bcast_S_S2x8192x1024 : S_.BroadcastsInDim S2x8192x1024 (![] : Fin 0 → Fin S2x8192x1024.rank)
  reducesTo_S2x8192x1024_S_d0_1_2 : S2x8192x1024.ReducesTo [0, 1, 2] S_
  bcast_S_S2x8192x2048 : S_.BroadcastsInDim S2x8192x2048 (![] : Fin 0 → Fin S2x8192x2048.rank)
  reducesTo_S2x8192x2048_S_d0_1_2 : S2x8192x2048.ReducesTo [0, 1, 2] S_
  bcast_S_S2x8192 : S_.BroadcastsInDim S2x8192 (![] : Fin 0 → Fin S2x8192.rank)
  reducesTo_S2x8192_S_d0_1 : S2x8192.ReducesTo [0, 1] S_
  bcast_S_S2x8192x4096 : S_.BroadcastsInDim S2x8192x4096 (![] : Fin 0 → Fin S2x8192x4096.rank)
  reducesTo_S2x8192x4096_S_d0_1_2 : S2x8192x4096.ReducesTo [0, 1, 2] S_
  bcast_S_S1 : S_.BroadcastsInDim S1 (![] : Fin 0 → Fin S1.rank)
  reducesTo_S1_S_d0 : S1.ReducesTo [0] S_

variable [Facts]

def fn_part3 {F : FTy → Type} [FloatOps F] (main_arg0 : IVec S1 32) (main_v48 : IVec S_ 1) (main_v49 : FVec F S2x8192 .f32) (main_v50 : FVec F S2x8192 .f32) : IVec S_ 1 :=
  let main_v51 : IVec S2x8192 1 := cmpf .olt main_v49 main_v50
  let main_c_19 : IVec S_ 1 := constantI S_ 1 1#1
  let main_v52 : IVec S_ 1 := (fun x v => Host.reduce IntOp.andi x v reducesTo_S2x8192_S_d0_1 h_S_) main_v51 main_c_19
  let main_v53 : IVec S_ 1 := andi main_v48 main_v52
  let main_c_20 : IVec S_ 32 := constantI S_ 32 0#32
  let main_v54 : IVec S1 32 := broadcastInDim S1 ![] bcast_S_S1 main_c_20
  let main_v55 : IVec S1 1 := cmpi .sge main_arg0 main_v54
  let main_c_21 : IVec S_ 1 := constantI S_ 1 1#1
  let main_v56 : IVec S_ 1 := (fun x v => Host.reduce IntOp.andi x v reducesTo_S1_S_d0 h_S_) main_v55 main_c_21
  let main_v57 : IVec S_ 1 := andi main_v53 main_v56
  main_v57

def fn_part2 {F : FTy → Type} [FloatOps F] (main_arg0 : IVec S1 32) (main_arg8 : FVec F S2x8192x4096 .f32) (main_arg9 : FVec F S2x8192x2048 .f32) (main_arg10 : FVec F S2x8192 .f32) (main_arg11 : FVec F S2x8192 .f32) (main_v33 : IVec S_ 1) : IVec S_ 1 :=
  let main_v34 : FVec F S2x8192x4096 .f32 := Host.absf main_arg8
  let main_cst_12 : FVec F S_ .f32 := constant S_ .f32 0x7F800000#32
  let main_v35 : FVec F S2x8192x4096 .f32 := broadcastInDim S2x8192x4096 ![] bcast_S_S2x8192x4096 main_cst_12
  let main_v36 : IVec S2x8192x4096 1 := cmpf .olt main_v34 main_v35
  let main_c_13 : IVec S_ 1 := constantI S_ 1 1#1
  let main_v37 : IVec S_ 1 := (fun x v => Host.reduce IntOp.andi x v reducesTo_S2x8192x4096_S_d0_1_2 h_S_) main_v36 main_c_13
  let main_v38 : IVec S_ 1 := andi main_v33 main_v37
  let main_v39 : FVec F S2x8192x2048 .f32 := Host.absf main_arg9
  let main_cst_14 : FVec F S_ .f32 := constant S_ .f32 0x7F800000#32
  let main_v40 : FVec F S2x8192x2048 .f32 := broadcastInDim S2x8192x2048 ![] bcast_S_S2x8192x2048 main_cst_14
  let main_v41 : IVec S2x8192x2048 1 := cmpf .olt main_v39 main_v40
  let main_c_15 : IVec S_ 1 := constantI S_ 1 1#1
  let main_v42 : IVec S_ 1 := (fun x v => Host.reduce IntOp.andi x v reducesTo_S2x8192x2048_S_d0_1_2 h_S_) main_v41 main_c_15
  let main_v43 : IVec S_ 1 := andi main_v38 main_v42
  let main_v44 : FVec F S2x8192 .f32 := Host.absf main_arg10
  let main_cst_16 : FVec F S_ .f32 := constant S_ .f32 0x7F800000#32
  let main_v45 : FVec F S2x8192 .f32 := broadcastInDim S2x8192 ![] bcast_S_S2x8192 main_cst_16
  let main_v46 : IVec S2x8192 1 := cmpf .olt main_v44 main_v45
  let main_c_17 : IVec S_ 1 := constantI S_ 1 1#1
  let main_v47 : IVec S_ 1 := (fun x v => Host.reduce IntOp.andi x v reducesTo_S2x8192_S_d0_1 h_S_) main_v46 main_c_17
  let main_v48 : IVec S_ 1 := andi main_v43 main_v47
  let main_v49 : FVec F S2x8192 .f32 := Host.absf main_arg11
  let main_cst_18 : FVec F S_ .f32 := constant S_ .f32 0x7F800000#32
  let main_v50 : FVec F S2x8192 .f32 := broadcastInDim S2x8192 ![] bcast_S_S2x8192 main_cst_18
  fn_part3 (F := F) main_arg0 main_v48 main_v49 main_v50

def fn_part1 {F : FTy → Type} [FloatOps F] (main_arg0 : IVec S1 32) (main_arg5 : FVec F S2x8192x2048 .f32) (main_arg6 : FVec F S2x8192 .f32) (main_arg7 : FVec F S2x8192 .f32) (main_arg8 : FVec F S2x8192x4096 .f32) (main_arg9 : FVec F S2x8192x2048 .f32) (main_arg10 : FVec F S2x8192 .f32) (main_arg11 : FVec F S2x8192 .f32) (main_v13 : IVec S_ 1) (main_v16 : IVec S2x8192x1024 1) : IVec S_ 1 :=
  let main_c_5 : IVec S_ 1 := constantI S_ 1 1#1
  let main_v17 : IVec S_ 1 := (fun x v => Host.reduce IntOp.andi x v reducesTo_S2x8192x1024_S_d0_1_2 h_S_) main_v16 main_c_5
  let main_v18 : IVec S_ 1 := andi main_v13 main_v17
  let main_v19 : FVec F S2x8192x2048 .f32 := Host.absf main_arg5
  let main_cst_6 : FVec F S_ .f32 := constant S_ .f32 0x7F800000#32
  let main_v20 : FVec F S2x8192x2048 .f32 := broadcastInDim S2x8192x2048 ![] bcast_S_S2x8192x2048 main_cst_6
  let main_v21 : IVec S2x8192x2048 1 := cmpf .olt main_v19 main_v20
  let main_c_7 : IVec S_ 1 := constantI S_ 1 1#1
  let main_v22 : IVec S_ 1 := (fun x v => Host.reduce IntOp.andi x v reducesTo_S2x8192x2048_S_d0_1_2 h_S_) main_v21 main_c_7
  let main_v23 : IVec S_ 1 := andi main_v18 main_v22
  let main_v24 : FVec F S2x8192 .f32 := Host.absf main_arg6
  let main_cst_8 : FVec F S_ .f32 := constant S_ .f32 0x7F800000#32
  let main_v25 : FVec F S2x8192 .f32 := broadcastInDim S2x8192 ![] bcast_S_S2x8192 main_cst_8
  let main_v26 : IVec S2x8192 1 := cmpf .olt main_v24 main_v25
  let main_c_9 : IVec S_ 1 := constantI S_ 1 1#1
  let main_v27 : IVec S_ 1 := (fun x v => Host.reduce IntOp.andi x v reducesTo_S2x8192_S_d0_1 h_S_) main_v26 main_c_9
  let main_v28 : IVec S_ 1 := andi main_v23 main_v27
  let main_v29 : FVec F S2x8192 .f32 := Host.absf main_arg7
  let main_cst_10 : FVec F S_ .f32 := constant S_ .f32 0x7F800000#32
  let main_v30 : FVec F S2x8192 .f32 := broadcastInDim S2x8192 ![] bcast_S_S2x8192 main_cst_10
  let main_v31 : IVec S2x8192 1 := cmpf .olt main_v29 main_v30
  let main_c_11 : IVec S_ 1 := constantI S_ 1 1#1
  let main_v32 : IVec S_ 1 := (fun x v => Host.reduce IntOp.andi x v reducesTo_S2x8192_S_d0_1 h_S_) main_v31 main_c_11
  let main_v33 : IVec S_ 1 := andi main_v28 main_v32
  fn_part2 (F := F) main_arg0 main_arg8 main_arg9 main_arg10 main_arg11 main_v33

def fn {F : FTy → Type} [FloatOps F] (main_arg0 : IVec S1 32) (main_arg1 : FVec F S4x1x2048 .f32) (main_arg2 : FVec F S4x1x2048 .f32) (main_arg3 : FVec F S50257x1024 .f32) (main_arg4 : FVec F S2x8192x1024 .f32) (main_arg5 : FVec F S2x8192x2048 .f32) (main_arg6 : FVec F S2x8192 .f32) (main_arg7 : FVec F S2x8192 .f32) (main_arg8 : FVec F S2x8192x4096 .f32) (main_arg9 : FVec F S2x8192x2048 .f32) (main_arg10 : FVec F S2x8192 .f32) (main_arg11 : FVec F S2x8192 .f32) : IVec S_ 1 :=
  let main_v0 : FVec F S4x1x2048 .f32 := Host.absf main_arg1
  let main_cst : FVec F S_ .f32 := constant S_ .f32 0x7F800000#32
  let main_v1 : FVec F S4x1x2048 .f32 := broadcastInDim S4x1x2048 ![] bcast_S_S4x1x2048 main_cst
  let main_v2 : IVec S4x1x2048 1 := cmpf .olt main_v0 main_v1
  let main_c : IVec S_ 1 := constantI S_ 1 1#1
  let main_v3 : IVec S_ 1 := (fun x v => Host.reduce IntOp.andi x v reducesTo_S4x1x2048_S_d0_1_2 h_S_) main_v2 main_c
  let main_v4 : FVec F S4x1x2048 .f32 := Host.absf main_arg2
  let main_cst_0 : FVec F S_ .f32 := constant S_ .f32 0x7F800000#32
  let main_v5 : FVec F S4x1x2048 .f32 := broadcastInDim S4x1x2048 ![] bcast_S_S4x1x2048 main_cst_0
  let main_v6 : IVec S4x1x2048 1 := cmpf .olt main_v4 main_v5
  let main_c_1 : IVec S_ 1 := constantI S_ 1 1#1
  let main_v7 : IVec S_ 1 := (fun x v => Host.reduce IntOp.andi x v reducesTo_S4x1x2048_S_d0_1_2 h_S_) main_v6 main_c_1
  let main_v8 : IVec S_ 1 := andi main_v3 main_v7
  let main_v9 : FVec F S50257x1024 .f32 := Host.absf main_arg3
  let main_cst_2 : FVec F S_ .f32 := constant S_ .f32 0x7F800000#32
  let main_v10 : FVec F S50257x1024 .f32 := broadcastInDim S50257x1024 ![] bcast_S_S50257x1024 main_cst_2
  let main_v11 : IVec S50257x1024 1 := cmpf .olt main_v9 main_v10
  let main_c_3 : IVec S_ 1 := constantI S_ 1 1#1
  let main_v12 : IVec S_ 1 := (fun x v => Host.reduce IntOp.andi x v reducesTo_S50257x1024_S_d0_1 h_S_) main_v11 main_c_3
  let main_v13 : IVec S_ 1 := andi main_v8 main_v12
  let main_v14 : FVec F S2x8192x1024 .f32 := Host.absf main_arg4
  let main_cst_4 : FVec F S_ .f32 := constant S_ .f32 0x7F800000#32
  let main_v15 : FVec F S2x8192x1024 .f32 := broadcastInDim S2x8192x1024 ![] bcast_S_S2x8192x1024 main_cst_4
  let main_v16 : IVec S2x8192x1024 1 := cmpf .olt main_v14 main_v15
  fn_part1 (F := F) main_arg0 main_arg5 main_arg6 main_arg7 main_arg8 main_arg9 main_arg10 main_arg11 main_v13 main_v16
-- ==== Kernel.lean ====
abbrev S1 : Shape := ⟨1, ![1]⟩
abbrev S4x1x2048 : Shape := ⟨3, ![4, 1, 2048]⟩
abbrev S50257x1024 : Shape := ⟨2, ![50257, 1024]⟩
abbrev S2x8192x1024 : Shape := ⟨3, ![2, 8192, 1024]⟩
abbrev S2x8192x2048 : Shape := ⟨3, ![2, 8192, 2048]⟩
abbrev S2x8192 : Shape := ⟨2, ![2, 8192]⟩
abbrev S2x8192x4096 : Shape := ⟨3, ![2, 8192, 4096]⟩
abbrev S_ : Shape := ⟨0, ![]⟩
abbrev S2x1x2048 : Shape := ⟨3, ![2, 1, 2048]⟩
abbrev S2x1x8192 : Shape := ⟨3, ![2, 1, 8192]⟩
abbrev S1x1x2048 : Shape := ⟨3, ![1, 1, 2048]⟩
abbrev S1x2048x1024 : Shape := ⟨3, ![1, 2048, 1024]⟩
abbrev S1x2048x2048 : Shape := ⟨3, ![1, 2048, 2048]⟩
abbrev S1x1x8192 : Shape := ⟨3, ![1, 1, 8192]⟩
abbrev S1x1024 : Shape := ⟨2, ![1, 1024]⟩
abbrev S1x2048 : Shape := ⟨2, ![1, 2048]⟩
abbrev S2048x1024 : Shape := ⟨2, ![2048, 1024]⟩
abbrev S2048x2048 : Shape := ⟨2, ![2048, 2048]⟩
abbrev S1x8192 : Shape := ⟨2, ![1, 8192]⟩
abbrev S1x1024x4096 : Shape := ⟨3, ![1, 1024, 4096]⟩
abbrev S1x1024x2048 : Shape := ⟨3, ![1, 1024, 2048]⟩
abbrev S1x4096 : Shape := ⟨2, ![1, 4096]⟩
abbrev S1x1x1024 : Shape := ⟨3, ![1, 1, 1024]⟩
abbrev S1024x4096 : Shape := ⟨2, ![1024, 4096]⟩
abbrev S1024x2048 : Shape := ⟨2, ![1024, 2048]⟩
abbrev S1x1x4096 : Shape := ⟨3, ![1, 1, 4096]⟩

abbrev nBuf : Space → Nat
  | .hbm => 39
  | .vmem => 32
  | .smem => 1
  | _ => 0

abbrev bufTy : (tb : Table) → Fin (tcTables nBuf tb) → BufTy
  | .hbm, ⟨0, _⟩ => ⟨S1, .i32⟩
  | .hbm, ⟨1, _⟩ => ⟨S4x1x2048, .f32⟩
  | .hbm, ⟨2, _⟩ => ⟨S4x1x2048, .f32⟩
  | .hbm, ⟨3, _⟩ => ⟨S50257x1024, .f32⟩
  | .hbm, ⟨4, _⟩ => ⟨S2x8192x1024, .f32⟩
  | .hbm, ⟨5, _⟩ => ⟨S2x8192x2048, .f32⟩
  | .hbm, ⟨6, _⟩ => ⟨S2x8192, .f32⟩
  | .hbm, ⟨7, _⟩ => ⟨S2x8192, .f32⟩
  | .hbm, ⟨8, _⟩ => ⟨S2x8192x4096, .f32⟩
  | .hbm, ⟨9, _⟩ => ⟨S2x8192x2048, .f32⟩
  | .hbm, ⟨10, _⟩ => ⟨S2x8192, .f32⟩
  | .hbm, ⟨11, _⟩ => ⟨S2x8192, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S1, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2x8192, .f32⟩
  | .hbm, ⟨20, _⟩ => ⟨S2x8192, .f32⟩
  | .hbm, ⟨21, _⟩ => ⟨S2x1x2048, .f32⟩
  | .hbm, ⟨22, _⟩ => ⟨S2x1x2048, .f32⟩
  | .hbm, ⟨23, _⟩ => ⟨S2x1x8192, .f32⟩
  | .hbm, ⟨24, _⟩ => ⟨S2x1x2048, .f32⟩
  | .hbm, ⟨25, _⟩ => ⟨S2x1x2048, .f32⟩
  | .hbm, ⟨26, _⟩ => ⟨S2x1x2048, .f32⟩
  | .hbm, ⟨27, _⟩ => ⟨S2x1x2048, .f32⟩
  | .hbm, ⟨28, _⟩ => ⟨S2x1x8192, .f32⟩
  | .hbm, ⟨29, _⟩ => ⟨S2x1x2048, .f32⟩
  | .hbm, ⟨30, _⟩ => ⟨S2x1x2048, .f32⟩
  | .hbm, ⟨31, _⟩ => ⟨S1x1x2048, .f32⟩
  | .hbm, ⟨32, _⟩ => ⟨S1x2048, .f32⟩
  | .hbm, ⟨33, _⟩ => ⟨S1x1x2048, .f32⟩
  | .hbm, ⟨34, _⟩ => ⟨S1x2048, .f32⟩
  | .hbm, ⟨35, _⟩ => ⟨S1x4096, .f32⟩
  | .hbm, ⟨36, _⟩ => ⟨S1x1x4096, .f32⟩
  | .hbm, ⟨37, _⟩ => ⟨S4x1x2048, .f32⟩
  | .hbm, ⟨38, _⟩ => ⟨S4x1x2048, .f32⟩
  | .local _ .vmem, ⟨0, _⟩ => ⟨S1x1x2048, .f32⟩
  | .local _ .vmem, ⟨1, _⟩ => ⟨S1x1x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x2048x1024, .f32⟩
  | .local _ .vmem, ⟨5, _⟩ => ⟨S1x2048x1024, .f32⟩
  | .local _ .vmem, ⟨6, _⟩ => ⟨S1x2048x2048, .f32⟩
  | .local _ .vmem, ⟨7, _⟩ => ⟨S1x2048x2048, .f32⟩
  | .local _ .vmem, ⟨8, _⟩ => ⟨S1x1x8192, .f32⟩
  | .local _ .vmem, ⟨9, _⟩ => ⟨S1x1x8192, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S2x1x8192, .f32⟩
  | .local _ .vmem, ⟨15, _⟩ => ⟨S1x1024, .f32⟩
  | .local _ .vmem, ⟨16, _⟩ => ⟨S2x1x2048, .f32⟩
  | .local _ .vmem, ⟨17, _⟩ => ⟨S1x1x2048, .f32⟩
  | .local _ .vmem, ⟨18, _⟩ => ⟨S1x1x2048, .f32⟩
  | .local _ .vmem, ⟨19, _⟩ => ⟨S1x1x2048, .f32⟩
  | .local _ .vmem, ⟨20, _⟩ => ⟨S1x1x2048, .f32⟩
  | .local _ .vmem, ⟨21, _⟩ => ⟨S1x1024x4096, .f32⟩
  | .local _ .vmem, ⟨22, _⟩ => ⟨S1x1024x4096, .f32⟩
  | .local _ .vmem, ⟨23, _⟩ => ⟨S1x1024x2048, .f32⟩
  | .local _ .vmem, ⟨24, _⟩ => ⟨S1x1024x2048, .f32⟩
  | .local _ .vmem, ⟨25, _⟩ => ⟨S1x1x8192, .f32⟩
  | .local _ .vmem, ⟨26, _⟩ => ⟨S1x1x8192, .f32⟩
  | .local _ .vmem, ⟨27, _⟩ => ⟨S1x1x2048, .f32⟩
  | .local _ .vmem, ⟨28, _⟩ => ⟨S1x1x2048, .f32⟩
  | .local _ .vmem, ⟨29, _⟩ => ⟨S1x1x2048, .f32⟩
  | .local _ .vmem, ⟨30, _⟩ => ⟨S1x1x2048, .f32⟩
  | .local _ .vmem, ⟨31, _⟩ => ⟨S2x1x8192, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6_0 : Ref sig .tc := ⟨.hbm, 24, rfl⟩
abbrev main_v6_1 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10_0 : Ref sig .tc := ⟨.hbm, 29, rfl⟩
abbrev main_v10_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg6_1 : Ref sig .tc := ⟨.vmem, 28, rfl⟩
abbrev cc1_stg7_0 : Ref sig .tc := ⟨.vmem, 29, rfl⟩
abbrev cc1_stg7_1 : Ref sig .tc := ⟨.vmem, 30, rfl⟩
abbrev cc1_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (v28 : BitVec 32) : Fin 2 → Nat :=
  let c0_i32_19 : BitVec 32 := 0#32
  ![v28.toNat, 0]

def k0_chk1 (i : grid0.Coords) (v28 : BitVec 32) : Prop :=
  (∀ (k0_h1 : k0_cond1 i = 1#1), ∀ a, (k0_off1 v28) a + S1x1024.size a ≤ S50257x1024.size a)
instance k0_chk1.dec : ∀ (i : grid0.Coords) (v28 : BitVec 32), Decidable (k0_chk1 i v28) := fun i v28 => decidable_of_iff' _ (Iff.of_eq (k0_chk1.eq_1 i v28))
theorem k0_off1_inb : ∀ (i : grid0.Coords) (v28 : BitVec 32) (k0_hw1 : k0_chk1 i v28), ∀ (k0_h1 : k0_cond1 i = 1#1), ∀ a, (k0_off1 v28) a + S1x1024.size a ≤ S50257x1024.size a := fun i v28 k0_hw1 k0_h1 => k0_hw1 k0_h1

def k0_mult1 (i : grid0.Coords) : BitVec 32 :=
  let arg1 : BitVec 32 := BitVec.ofNat 32 (i 1).val
  let c2048_i32 : BitVec 32 := 2048#32
  let v3 : BitVec 32 := Scalar.muli arg1 c2048_i32
  v3
def k0_off2 (i : grid0.Coords) : Fin 3 → Nat :=
  let c0 : Index := 0#32
  let c0_1 : Index := 0#32
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  ![0, 0, v5.toNat]
def k0_off3 (i : grid0.Coords) : Fin 3 → Nat :=
  let arg0 : BitVec 32 := BitVec.ofNat 32 (i 0).val
  let c0_i32_14 : BitVec 32 := 0#32
  let c0_i32_15 : BitVec 32 := 0#32
  ![arg0.toNat, 0, 0]
def k0_off4 (i : grid0.Coords) : Fin 2 → Nat :=
  let c0_16 : Index := 0#32
  let arg1 : BitVec 32 := BitVec.ofNat 32 (i 1).val
  let c2048_i32 : BitVec 32 := 2048#32
  let v3 : BitVec 32 := Scalar.muli arg1 c2048_i32
  let v4 : BitVec 32 := v3
  let v21 : Index := Scalar.indexCast v4
  ![0, v21.toNat]
def k0_cond2 (i : grid0.Coords) : BitVec 1 :=
  let arg1 : BitVec 32 := BitVec.ofNat 32 (i 1).val
  let c3_i32 : BitVec 32 := 3#32
  let v25 : BitVec 1 := Scalar.cmpi .eq arg1 c3_i32
  let v26 : BitVec 32 := Scalar.extui v25
  let c0_i32_17 : BitVec 32 := 0#32
  let v27 : BitVec 1 := Scalar.cmpi .ne v26 c0_i32_17
  v27

def k0_off5 (i : grid0.Coords) : Fin 3 → Nat :=
  let arg0 : BitVec 32 := BitVec.ofNat 32 (i 0).val
  let v28 : Index := Scalar.indexCast arg0
  let c0_18 : Index := 0#32
  let c0_19 : Index := 0#32
  ![v28.toNat, 0, 0]
def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![2, 8], ![false, false]⟩

def k1_mult1 (i : grid1.Coords) : BitVec 32 :=
  let arg1 : BitVec 32 := BitVec.ofNat 32 (i 1).val
  let c1024_i32 : BitVec 32 := 1024#32
  let v7 : BitVec 32 := Scalar.muli arg1 c1024_i32
  v7
def k1_off1 (i : grid1.Coords) : Fin 3 → Nat :=
  let c0_2 : Index := 0#32
  let c0_3 : Index := 0#32
  let arg1 : BitVec 32 := BitVec.ofNat 32 (i 1).val
  let c1024_i32 : BitVec 32 := 1024#32
  let v7 : BitVec 32 := Scalar.muli arg1 c1024_i32
  let v8 : BitVec 32 := v7
  let v9 : Index := Scalar.indexCast v8
  ![0, 0, v9.toNat]
def k1_off2 (i : grid1.Coords) : Fin 3 → Nat :=
  let arg0 : BitVec 32 := BitVec.ofNat 32 (i 0).val
  let c0_i32 : BitVec 32 := 0#32
  let c0_i32_14 : BitVec 32 := 0#32
  ![arg0.toNat, 0, 0]
def k1_off3 (i : grid1.Coords) : Fin 2 → Nat :=
  let c0_15 : Index := 0#32
  let arg1 : BitVec 32 := BitVec.ofNat 32 (i 1).val
  let c1024_i32 : BitVec 32 := 1024#32
  let v7 : BitVec 32 := Scalar.muli arg1 c1024_i32
  let v8 : BitVec 32 := v7
  let v24 : Index := Scalar.indexCast v8
  ![0, v24.toNat]
def k1_cond1 (i : grid1.Coords) : BitVec 1 :=
  let arg1 : BitVec 32 := BitVec.ofNat 32 (i 1).val
  let c7_i32 : BitVec 32 := 7#32
  let v28 : BitVec 1 := Scalar.cmpi .eq arg1 c7_i32
  let v29 : BitVec 32 := Scalar.extui v28
  let c0_i32_16 : BitVec 32 := 0#32
  let v30 : BitVec 1 := Scalar.cmpi .ne v29 c0_i32_16
  v30

def k1_off4 (i : grid1.Coords) : Fin 3 → Nat :=
  let arg0 : BitVec 32 := BitVec.ofNat 32 (i 0).val
  let v31 : Index := Scalar.indexCast arg0
  let c0_17 : Index := 0#32
  let c0_18 : Index := 0#32
  ![v31.toNat, 0, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S2x1x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x1x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1024x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x8192 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x1x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x1x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  bcast_S_S1 : S_.BroadcastsInDim S1 (![] : Fin 0 → Fin S1.rank)
  slices_S4x1x2048_S2x1x2048_0_0_0 : S4x1x2048.Slices ![0, 0, 0] S2x1x2048
  shapeCasts_S2x8192_S2x1x8192 : S2x8192.ShapeCasts S2x1x8192
  inb_S1_S1_0 : ∀ a, (![0] : Fin 1 → Nat) a + S1.size a ≤ S1.size a
  numel1_S1 : S1.numel = 1
  h_S1x1x2048 : 0 < S1x1x2048.numel
  shapeCasts_S1x1x2048_S1x2048 : S1x1x2048.ShapeCasts S1x2048
  inb_S1x1024_S1x1024_0_0 : ∀ a, (![0, 0] : Fin 2 → Nat) a + S1x1024.size a ≤ S1x1024.size a
  h_S1x1024 : 0 < S1x1024.numel
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1x2048_S1x1x2048_0_0_0 : ∀ a, (![0, 0, 0] : Fin 3 → Nat) a + S1x1x2048.size a ≤ S1x1x2048.size a
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  squeezes_S1x1x8192_S1x8192 : S1x1x8192.Squeezes S1x8192
  h_S1x2048 : 0 < S1x2048.numel
  shapeCasts_S1x2048_S1x2048 : S1x2048.ShapeCasts S1x2048
  h_S1x1x8192 : 0 < S1x1x8192.numel
  shapeCasts_S1x1x8192_S1x8192 : S1x1x8192.ShapeCasts S1x8192
  slices_S1x8192_o0_0_S1x2048 : S1x8192.Slices ![0, 0] S1x2048
  slices_S1x8192_o0_2048_S1x2048 : S1x8192.Slices ![0, 2048] S1x2048
  slices_S1x8192_o0_4096_S1x2048 : S1x8192.Slices ![0, 4096] S1x2048
  slices_S1x8192_o0_6144_S1x2048 : S1x8192.Slices ![0, 6144] S1x2048
  shapeCasts_S1x2048_S1x1x2048 : S1x2048.ShapeCasts S1x1x2048
  slices_S4x1x2048_S2x1x2048_2_0_0 : S4x1x2048.Slices ![2, 0, 0] S2x1x2048
  inb_S2x1x2048_S2x1x2048_0_0_0 : ∀ a, (![0, 0, 0] : Fin 3 → Nat) a + S2x1x2048.size a ≤ S2x1x2048.size a
  h_S2x1x2048 : 0 < S2x1x2048.numel
  shapeCasts_S2x1x2048_S2x1x2048 : S2x1x2048.ShapeCasts S2x1x2048
  slices_S2x1x2048_o0_0_0_S1x1x2048 : S2x1x2048.Slices ![0, 0, 0] S1x1x2048
  slices_S2x1x2048_o1_0_0_S1x1x2048 : S2x1x2048.Slices ![1, 0, 0] S1x1x2048
  concatenates_S1x2048_S1x2048_S1x4096_d1 : Shape.Concatenates [S1x2048, S1x2048] S1x4096 1
  h_S1x1x1024 : 0 < S1x1x1024.numel
  shapeCasts_S1x1x1024_S1x1024 : S1x1x1024.ShapeCasts S1x1024
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1x1024_S1x1024 : S1x1024.ShapeCasts S1x1024
  slices_S2x1x2048_S1x1x2048_0_0_0 : S2x1x2048.Slices ![0, 0, 0] S1x1x2048
  slices_S2x1x2048_S1x1x2048_1_0_0 : S2x1x2048.Slices ![1, 0, 0] S1x1x2048
  bcast_S1x4096_S1x1x4096_1_2 : S1x4096.BroadcastsInDim S1x1x4096 (![1, 2] : Fin 2 → Fin S1x1x4096.rank)
  concatenates_S2x1x2048_S2x1x2048_S4x1x2048_d0 : Shape.Concatenates [S2x1x2048, S2x1x2048] S4x1x2048 0
  dot_S1x1024_S2048x1024_S1x2048_1_1_0_0_n_n_wf : DotDims.WF S1x1024 S2048x1024 S1x2048 [1] [1] [0] [0] [] []
  dot_S1x2048_S2048x2048_S1x2048_1_1_0_0_n_n_wf : DotDims.WF S1x2048 S2048x2048 S1x2048 [1] [1] [0] [0] [] []
  dot_S1x4096_S1024x4096_S1x1024_1_1_0_0_n_n_wf : DotDims.WF S1x4096 S1024x4096 S1x1024 [1] [1] [0] [0] [] []
  dot_S1x2048_S1024x2048_S1x1024_1_1_0_0_n_n_wf : DotDims.WF S1x2048 S1024x2048 S1x1024 [1] [1] [0] [0] [] []
  hcc0_scratch2 : 14 + S_.numel ≤ 30
  hrank0 : 0 < grid0.rank
  k0_mult1_dvd : ∀ i : grid0.Coords, 2048 ∣ (k0_mult1 i).toNat
  k0_off2_inb : ∀ i : grid0.Coords, ∀ a, (k0_off2 i) a + S1x1x2048.size a ≤ S1x1x8192.size a
  k0_off3_inb : ∀ i : grid0.Coords, ∀ a, (k0_off3 i) a + S1x1x8192.size a ≤ S2x1x8192.size a
  k0_off4_inb : ∀ i : grid0.Coords, ∀ a, (k0_off4 i) a + S1x2048.size a ≤ S1x8192.size a
  k0_off5_inb : ∀ i : grid0.Coords, ∀ (k0_h2 : k0_cond2 i = 1#1), ∀ a, (k0_off5 i) a + S1x1x8192.size a ≤ S2x1x8192.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S1x1x2048.size a ≤ S2x1x2048.size a
  hwx0_0 : ∀ i : grid0.Coords, EltTy.bits .f32 = 32 ∨ (Rect.block (s := S2x1x2048) S1x1x2048.size (cc0_transform_1 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_2 i = cc0_transform_2 i'
  hinb0_1 : ∀ (i : grid0.Coords) a, (cc0_transform_2 i a + 1) * S1x1x2048.size a ≤ S2x1x2048.size a
  hwx0_1 : ∀ i : grid0.Coords, EltTy.bits .f32 = 32 ∨ (Rect.block (s := S2x1x2048) S1x1x2048.size (cc0_transform_2 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_3 i = cc0_transform_3 i'
  hinb0_2 : ∀ (i : grid0.Coords) a, (cc0_transform_3 i a + 1) * S1x2048x1024.size a ≤ S2x8192x1024.size a
  hwx0_2 : ∀ i : grid0.Coords, EltTy.bits .f32 = 32 ∨ (Rect.block (s := S2x8192x1024) S1x2048x1024.size (cc0_transform_3 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_4 i = cc0_transform_4 i'
  hinb0_3 : ∀ (i : grid0.Coords) a, (cc0_transform_4 i a + 1) * S1x2048x2048.size a ≤ S2x8192x2048.size a
  hwx0_3 : ∀ i : grid0.Coords, EltTy.bits .f32 = 32 ∨ (Rect.block (s := S2x8192x2048) S1x2048x2048.size (cc0_transform_4 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_5 i = cc0_transform_5 i'
  hinb0_4 : ∀ (i : grid0.Coords) a, (cc0_transform_5 i a + 1) * S1x1x8192.size a ≤ S2x1x8192.size a
  hwx0_4 : ∀ i : grid0.Coords, EltTy.bits .f32 = 32 ∨ (Rect.block (s := S2x1x8192) S1x1x8192.size (cc0_transform_5 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_6 i = cc0_transform_6 i'
  hinb0_5 : ∀ (i : grid0.Coords) a, (cc0_transform_6 i a + 1) * S1x1x2048.size a ≤ S2x1x2048.size a
  hwx0_5 : ∀ i : grid0.Coords, EltTy.bits .f32 = 32 ∨ (Rect.block (s := S2x1x2048) S1x1x2048.size (cc0_transform_6 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_7 i = cc0_transform_7 i'
  hinb0_6 : ∀ (i : grid0.Coords) a, (cc0_transform_7 i a + 1) * S1x1x2048.size a ≤ S2x1x2048.size a
  hwx0_6 : ∀ i : grid0.Coords, EltTy.bits .f32 = 32 ∨ (Rect.block (s := S2x1x2048) S1x1x2048.size (cc0_transform_7 i) (hinb0_6 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1x1x1024.size a ≤ S1x1x8192.size a
  k1_off2_inb : ∀ i : grid1.Coords, ∀ a, (k1_off2 i) a + S1x1x8192.size a ≤ S2x1x8192.size a
  k1_off3_inb : ∀ i : grid1.Coords, ∀ a, (k1_off3 i) a + S1x1024.size a ≤ S1x8192.size a
  k1_off4_inb : ∀ i : grid1.Coords, ∀ (k1_h1 : k1_cond1 i = 1#1), ∀ a, (k1_off4 i) a + S1x1x8192.size a ≤ S2x1x8192.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2x1x2048.size a ≤ S2x1x2048.size a
  hwx1_0 : ∀ i : grid1.Coords, EltTy.bits .f32 = 32 ∨ (Rect.block (s := S2x1x2048) S2x1x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048.size a ≤ S2x1x2048.size a
  hwx1_1 : ∀ i : grid1.Coords, EltTy.bits .f32 = 32 ∨ (Rect.block (s := S2x1x2048) S1x1x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048.size a ≤ S2x1x2048.size a
  hwx1_2 : ∀ i : grid1.Coords, EltTy.bits .f32 = 32 ∨ (Rect.block (s := S2x1x2048) S1x1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x4096.size a ≤ S2x8192x4096.size a
  hwx1_3 : ∀ i : grid1.Coords, EltTy.bits .f32 = 32 ∨ (Rect.block (s := S2x8192x4096) S1x1024x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x2048.size a ≤ S2x8192x2048.size a
  hwx1_4 : ∀ i : grid1.Coords, EltTy.bits .f32 = 32 ∨ (Rect.block (s := S2x8192x2048) S1x1024x2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x8192.size a ≤ S2x1x8192.size a
  hwx1_5 : ∀ i : grid1.Coords, EltTy.bits .f32 = 32 ∨ (Rect.block (s := S2x1x8192) S1x1x8192.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x2048.size a ≤ S2x1x2048.size a
  hwx1_6 : ∀ i : grid1.Coords, EltTy.bits .f32 = 32 ∨ (Rect.block (s := S2x1x2048) S1x1x2048.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1x2048.size a ≤ S2x1x2048.size a
  hwx1_7 : ∀ i : grid1.Coords, EltTy.bits .f32 = 32 ∨ (Rect.block (s := S2x1x2048) S1x1x2048.size (cc1_transform_7 i) (hinb1_7 i)).WholeWords (EltTy.packing .f32)

variable [Facts₀]

abbrev cc0_scratch2 : DmaSems sig S_ := SemArray.consecutive 14 S_ hcc0_scratch2
def dot_S1x1024_S2048x1024_S1x2048_1_1_0_0_n_n : DotDims S1x1024 S2048x1024 S1x2048 where
  lhsContracting := [1]
  rhsContracting := [1]
  lhsNonContracting := [0]
  rhsNonContracting := [0]
  lhsBatch := []
  rhsBatch := []
  wf := dot_S1x1024_S2048x1024_S1x2048_1_1_0_0_n_n_wf
def dot_S1x2048_S2048x2048_S1x2048_1_1_0_0_n_n : DotDims S1x2048 S2048x2048 S1x2048 where
  lhsContracting := [1]
  rhsContracting := [1]
  lhsNonContracting := [0]
  rhsNonContracting := [0]
  lhsBatch := []
  rhsBatch := []
  wf := dot_S1x2048_S2048x2048_S1x2048_1_1_0_0_n_n_wf
def dot_S1x4096_S1024x4096_S1x1024_1_1_0_0_n_n : DotDims S1x4096 S1024x4096 S1x1024 where
  lhsContracting := [1]
  rhsContracting := [1]
  lhsNonContracting := [0]
  rhsNonContracting := [0]
  lhsBatch := []
  rhsBatch := []
  wf := dot_S1x4096_S1024x4096_S1x1024_1_1_0_0_n_n_wf
def dot_S1x2048_S1024x2048_S1x1024_1_1_0_0_n_n : DotDims S1x2048 S1024x2048 S1x1024 where
  lhsContracting := [1]
  rhsContracting := [1]
  lhsNonContracting := [0]
  rhsNonContracting := [0]
  lhsBatch := []
  rhsBatch := []
  wf := dot_S1x2048_S1024x2048_S1x1024_1_1_0_0_n_n_wf

abbrev spec0_0 : Pipeline.WinSpec sig grid0.rank :=
  Pipeline.WinSpec.ofSpec (Memref.whole main_v3) S1x1x2048.size reads0_0 false false 2 stage0_0 sem0_0 nbuf0_0 hstage0_0

abbrev spec0_1 : Pipeline.WinSpec sig grid0.rank :=
  Pipeline.WinSpec.ofSpec (Memref.whole main_v4) S1x1x2048.size reads0_1 false false 2 stage0_1 sem0_1 nbuf0_1 hstage0_1

abbrev spec0_2 : Pipeline.WinSpec sig grid0.rank :=
  Pipeline.WinSpec.ofSpec (Memref.whole main_arg4) S1x2048x1024.size reads0_2 false false 2 stage0_2 sem0_2 nbuf0_2 hstage0_2

abbrev spec0_3 : Pipeline.WinSpec sig grid0.rank :=
  Pipeline.WinSpec.ofSpec (Memref.whole main_arg5) S1x2048x2048.size reads0_3 false false 2 stage0_3 sem0_3 nbuf0_3 hstage0_3

abbrev spec0_4 : Pipeline.WinSpec sig grid0.rank :=
  Pipeline.WinSpec.ofSpec (Memref.whole main_v5) S1x1x8192.size reads0_4 false false 2 stage0_4 sem0_4 nbuf0_4 hstage0_4

abbrev spec0_5 : Pipeline.WinSpec sig grid0.rank :=
  Pipeline.WinSpec.ofSpec (Memref.whole main_v6_0) S1x1x2048.size reads0_5 true false 2 stage0_5 sem0_5 nbuf0_5 hstage0_5

abbrev spec0_6 : Pipeline.WinSpec sig grid0.rank :=
  Pipeline.WinSpec.ofSpec (Memref.whole main_v6_1) S1x1x2048.size reads0_6 true false 2 stage0_6 sem0_6 nbuf0_6 hstage0_6

abbrev spec0 : Fin 7 → Pipeline.WinSpec sig grid0.rank := fun | 0 => spec0_0 | 1 => spec0_1 | 2 => spec0_2 | 3 => spec0_3 | 4 => spec0_4 | 5 => spec0_5 | 6 => spec0_6 | ⟨_ + 7, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | ⟨_ + 7, h⟩ => absurd h (Nat.not_lt.2 (Nat.le_add_left _ _))
abbrev ix0 (pf : pre0.Contents (Elt F)) : (w : Fin 7) → grid0.Coords → Fin (spec0 w).shape.rank → Nat := fun | 0 => cc0_transform_1 | 1 => cc0_transform_2 | 2 => cc0_transform_3 | 3 => cc0_transform_4 | 4 => cc0_transform_5 | 5 => cc0_transform_6 | 6 => cc0_transform_7 | ⟨_ + 7, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | ⟨_ + 7, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | ⟨_ + 7, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | ⟨_ + 7, h⟩ => absurd h (Nat.not_lt.2 (Nat.le_add_left _ _))
abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v6_0) S2x1x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x1x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S1x1024x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S1x1024x2048.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1x1x8192.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v10_0) S1x1x2048.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v10_1) S1x1x2048.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun i => !(k1_cond1 i == 1#1) | 7 => fun i => !(k1_cond1 i == 1#1) | ⟨_ + 8, h⟩ => absurd h (Nat.not_lt.2 (Nat.le_add_left _ _))

class Facts : Prop extends Facts₀ where
  harr0 : ∀ w, (spec0 w).arr.IsWhole

variable [Facts]
-- ==== ReferenceIdeal.lean ====
abbrev S1 : Shape := ⟨1, ![1]⟩
abbrev S4x1x2048 : Shape := ⟨3, ![4, 1, 2048]⟩
abbrev S50257x1024 : Shape := ⟨2, ![50257, 1024]⟩
abbrev S2x8192x1024 : Shape := ⟨3, ![2, 8192, 1024]⟩
abbrev S2x8192x2048 : Shape := ⟨3, ![2, 8192, 2048]⟩
abbrev S2x8192 : Shape := ⟨2, ![2, 8192]⟩
abbrev S2x8192x4096 : Shape := ⟨3, ![2, 8192, 4096]⟩
abbrev S_ : Shape := ⟨0, ![]⟩
abbrev S1x1 : Shape := ⟨2, ![1, 1]⟩
abbrev S1x1024 : Shape := ⟨2, ![1, 1024]⟩
abbrev S1x1x2048 : Shape := ⟨3, ![1, 1, 2048]⟩
abbrev S1x2048 : Shape := ⟨2, ![1, 2048]⟩
abbrev S1x8192x1024 : Shape := ⟨3, ![1, 8192, 1024]⟩
abbrev S8192x1024 : Shape := ⟨2, ![8192, 1024]⟩
abbrev S1x8192x2048 : Shape := ⟨3, ![1, 8192, 2048]⟩
abbrev S8192x2048 : Shape := ⟨2, ![8192, 2048]⟩
abbrev S1x8192 : Shape := ⟨2, ![1, 8192]⟩
abbrev S8192 : Shape := ⟨1, ![8192]⟩
abbrev S1024x8192 : Shape := ⟨2, ![1024, 8192]⟩
abbrev S2048x8192 : Shape := ⟨2, ![2048, 8192]⟩
abbrev S1x4096 : Shape := ⟨2, ![1, 4096]⟩
abbrev S1x8192x4096 : Shape := ⟨3, ![1, 8192, 4096]⟩
abbrev S8192x4096 : Shape := ⟨2, ![8192, 4096]⟩
abbrev S4096x8192 : Shape := ⟨2, ![4096, 8192]⟩
abbrev S1x1x4096 : Shape := ⟨3, ![1, 1, 4096]⟩

abbrev nBuf : Space → Nat
  | .hbm => 254
  | .vmem => 0
  | .smem => 0
  | _ => 0

abbrev hbmTy0_0 (i : Nat) : BufTy := match i % 128 with
  | 0 => ⟨S1, .i32⟩
  | 1 => ⟨S4x1x2048, .f32⟩
  | 2 => ⟨S4x1x2048, .f32⟩
  | 3 => ⟨S50257x1024, .f32⟩
  | 4 => ⟨S2x8192x1024, .f32⟩
  | 5 => ⟨S2x8192x2048, .f32⟩
  | 6 => ⟨S2x8192, .f32⟩
  | 7 => ⟨S2x8192, .f32⟩
  | 8 => ⟨S2x8192x4096, .f32⟩
  | 9 => ⟨S2x8192x2048, .f32⟩
  | 10 => ⟨S2x8192, .f32⟩
  | 11 => ⟨S2x8192, .f32⟩
  | 12 => ⟨S_, .i32⟩
  | 13 => ⟨S1, .i32⟩
  | 14 => ⟨S1, .i1⟩
  | 15 => ⟨S_, .i32⟩
  | 16 => ⟨S1, .i32⟩
  | 17 => ⟨S1, .i32⟩
  | 18 => ⟨S1, .i32⟩
  | 19 => ⟨S1x1, .i32⟩
  | 20 => ⟨S1x1024, .f32⟩
  | 21 => ⟨S1x1x2048, .f32⟩
  | 22 => ⟨S1x2048, .f32⟩
  | 23 => ⟨S1x1x2048, .f32⟩
  | 24 => ⟨S1x2048, .f32⟩
  | 25 => ⟨S1x8192x1024, .f32⟩
  | 26 => ⟨S8192x1024, .f32⟩
  | 27 => ⟨S1x8192x2048, .f32⟩
  | 28 => ⟨S8192x2048, .f32⟩
  | 29 => ⟨S1x8192, .f32⟩
  | 30 => ⟨S8192, .f32⟩
  | 31 => ⟨S1x8192, .f32⟩
  | 32 => ⟨S8192, .f32⟩
  | 33 => ⟨S1024x8192, .f32⟩
  | 34 => ⟨S1x8192, .f32⟩
  | 35 => ⟨S1x8192, .f32⟩
  | 36 => ⟨S1x8192, .f32⟩
  | 37 => ⟨S2048x8192, .f32⟩
  | 38 => ⟨S1x8192, .f32⟩
  | 39 => ⟨S1x8192, .f32⟩
  | 40 => ⟨S1x8192, .f32⟩
  | 41 => ⟨S1x8192, .f32⟩
  | 42 => ⟨S1x2048, .f32⟩
  | 43 => ⟨S1x2048, .f32⟩
  | 44 => ⟨S1x2048, .f32⟩
  | 45 => ⟨S1x2048, .f32⟩
  | 46 => ⟨S1x2048, .f32⟩
  | 47 => ⟨S1x2048, .f32⟩
  | 48 => ⟨S_, .f32⟩
  | 49 => ⟨S1x2048, .f32⟩
  | 50 => ⟨S1x2048, .f32⟩
  | 51 => ⟨S_, .f32⟩
  | 52 => ⟨S1x2048, .f32⟩
  | 53 => ⟨S1x2048, .f32⟩
  | 54 => ⟨S1x2048, .f32⟩
  | 55 => ⟨S1x2048, .f32⟩
  | 56 => ⟨S1x2048, .f32⟩
  | 57 => ⟨S_, .f32⟩
  | 58 => ⟨S1x2048, .f32⟩
  | 59 => ⟨S1x2048, .f32⟩
  | 60 => ⟨S_, .f32⟩
  | 61 => ⟨S1x2048, .f32⟩
  | 62 => ⟨S1x2048, .f32⟩
  | 63 => ⟨S1x2048, .f32⟩
  | 64 => ⟨S1x2048, .f32⟩
  | 65 => ⟨S1x2048, .f32⟩
  | 66 => ⟨S1x2048, .f32⟩
  | 67 => ⟨S1x2048, .f32⟩
  | 68 => ⟨S_, .f32⟩
  | 69 => ⟨S1x2048, .f32⟩
  | 70 => ⟨S1x2048, .f32⟩
  | 71 => ⟨S_, .f32⟩
  | 72 => ⟨S1x2048, .f32⟩
  | 73 => ⟨S1x2048, .f32⟩
  | 74 => ⟨S1x2048, .f32⟩
  | 75 => ⟨S1x2048, .f32⟩
  | 76 => ⟨S1x1x2048, .f32⟩
  | 77 => ⟨S1x2048, .f32⟩
  | 78 => ⟨S1x1x2048, .f32⟩
  | 79 => ⟨S1x2048, .f32⟩
  | 80 => ⟨S1x8192x1024, .f32⟩
  | 81 => ⟨S8192x1024, .f32⟩
  | 82 => ⟨S1x8192x2048, .f32⟩
  | 83 => ⟨S8192x2048, .f32⟩
  | 84 => ⟨S1x8192, .f32⟩
  | 85 => ⟨S8192, .f32⟩
  | 86 => ⟨S1x8192, .f32⟩
  | 87 => ⟨S8192, .f32⟩
  | 88 => ⟨S1024x8192, .f32⟩
  | 89 => ⟨S1x8192, .f32⟩
  | 90 => ⟨S1x8192, .f32⟩
  | 91 => ⟨S1x8192, .f32⟩
  | 92 => ⟨S2048x8192, .f32⟩
  | 93 => ⟨S1x8192, .f32⟩
  | 94 => ⟨S1x8192, .f32⟩
  | 95 => ⟨S1x8192, .f32⟩
  | 96 => ⟨S1x8192, .f32⟩
  | 97 => ⟨S1x2048, .f32⟩
  | 98 => ⟨S1x2048, .f32⟩
  | 99 => ⟨S1x2048, .f32⟩
  | 100 => ⟨S1x2048, .f32⟩
  | 101 => ⟨S1x2048, .f32⟩
  | 102 => ⟨S1x2048, .f32⟩
  | 103 => ⟨S_, .f32⟩
  | 104 => ⟨S1x2048, .f32⟩
  | 105 => ⟨S1x2048, .f32⟩
  | 106 => ⟨S_, .f32⟩
  | 107 => ⟨S1x2048, .f32⟩
  | 108 => ⟨S1x2048, .f32⟩
  | 109 => ⟨S1x2048, .f32⟩
  | 110 => ⟨S1x2048, .f32⟩
  | 111 => ⟨S1x2048, .f32⟩
  | 112 => ⟨S_, .f32⟩
  | 113 => ⟨S1x2048, .f32⟩
  | 114 => ⟨S1x2048, .f32⟩
  | 115 => ⟨S_, .f32⟩
  | 116 => ⟨S1x2048, .f32⟩
  | 117 => ⟨S1x2048, .f32⟩
  | 118 => ⟨S1x2048, .f32⟩
  | 119 => ⟨S1x2048, .f32⟩
  | 120 => ⟨S1x2048, .f32⟩
  | 121 => ⟨S1x2048, .f32⟩
  | 122 => ⟨S1x2048, .f32⟩
  | 123 => ⟨S_, .f32⟩
  | 124 => ⟨S1x2048, .f32⟩
  | 125 => ⟨S1x2048, .f32⟩
  | 126 => ⟨S_, .f32⟩
  | 127 => ⟨S1x2048, .f32⟩
  | _ => ⟨S1, .i32⟩

abbrev hbmTy0_1 (i : Nat) : BufTy := match i % 128 with
  | 0 => ⟨S1x2048, .f32⟩
  | 1 => ⟨S1x2048, .f32⟩
  | 2 => ⟨S1x2048, .f32⟩
  | 3 => ⟨S1x4096, .f32⟩
  | 4 => ⟨S1x1x2048, .f32⟩
  | 5 => ⟨S1x2048, .f32⟩
  | 6 => ⟨S1x1x2048, .f32⟩
  | 7 => ⟨S1x2048, .f32⟩
  | 8 => ⟨S1x8192x4096, .f32⟩
  | 9 => ⟨S8192x4096, .f32⟩
  | 10 => ⟨S1x8192x2048, .f32⟩
  | 11 => ⟨S8192x2048, .f32⟩
  | 12 => ⟨S1x8192, .f32⟩
  | 13 => ⟨S8192, .f32⟩
  | 14 => ⟨S1x8192, .f32⟩
  | 15 => ⟨S8192, .f32⟩
  | 16 => ⟨S4096x8192, .f32⟩
  | 17 => ⟨S1x8192, .f32⟩
  | 18 => ⟨S1x8192, .f32⟩
  | 19 => ⟨S1x8192, .f32⟩
  | 20 => ⟨S2048x8192, .f32⟩
  | 21 => ⟨S1x8192, .f32⟩
  | 22 => ⟨S1x8192, .f32⟩
  | 23 => ⟨S1x8192, .f32⟩
  | 24 => ⟨S1x8192, .f32⟩
  | 25 => ⟨S1x2048, .f32⟩
  | 26 => ⟨S1x2048, .f32⟩
  | 27 => ⟨S1x2048, .f32⟩
  | 28 => ⟨S1x2048, .f32⟩
  | 29 => ⟨S1x2048, .f32⟩
  | 30 => ⟨S1x2048, .f32⟩
  | 31 => ⟨S_, .f32⟩
  | 32 => ⟨S1x2048, .f32⟩
  | 33 => ⟨S1x2048, .f32⟩
  | 34 => ⟨S_, .f32⟩
  | 35 => ⟨S1x2048, .f32⟩
  | 36 => ⟨S1x2048, .f32⟩
  | 37 => ⟨S1x2048, .f32⟩
  | 38 => ⟨S1x2048, .f32⟩
  | 39 => ⟨S1x2048, .f32⟩
  | 40 => ⟨S_, .f32⟩
  | 41 => ⟨S1x2048, .f32⟩
  | 42 => ⟨S1x2048, .f32⟩
  | 43 => ⟨S_, .f32⟩
  | 44 => ⟨S1x2048, .f32⟩
  | 45 => ⟨S1x2048, .f32⟩
  | 46 => ⟨S1x2048, .f32⟩
  | 47 => ⟨S1x2048, .f32⟩
  | 48 => ⟨S1x2048, .f32⟩
  | 49 => ⟨S1x2048, .f32⟩
  | 50 => ⟨S1x2048, .f32⟩
  | 51 => ⟨S_, .f32⟩
  | 52 => ⟨S1x2048, .f32⟩
  | 53 => ⟨S1x2048, .f32⟩
  | 54 => ⟨S_, .f32⟩
  | 55 => ⟨S1x2048, .f32⟩
  | 56 => ⟨S1x2048, .f32⟩
  | 57 => ⟨S1x2048, .f32⟩
  | 58 => ⟨S1x2048, .f32⟩
  | 59 => ⟨S1x1x2048, .f32⟩
  | 60 => ⟨S1x2048, .f32⟩
  | 61 => ⟨S1x1x2048, .f32⟩
  | 62 => ⟨S1x2048, .f32⟩
  | 63 => ⟨S1x8192x4096, .f32⟩
  | 64 => ⟨S8192x4096, .f32⟩
  | 65 => ⟨S1x8192x2048, .f32⟩
  | 66 => ⟨S8192x2048, .f32⟩
  | 67 => ⟨S1x8192, .f32⟩
  | 68 => ⟨S8192, .f32⟩
  | 69 => ⟨S1x8192, .f32⟩
  | 70 => ⟨S8192, .f32⟩
  | 71 => ⟨S4096x8192, .f32⟩
  | 72 => ⟨S1x8192, .f32⟩
  | 73 => ⟨S1x8192, .f32⟩
  | 74 => ⟨S1x8192, .f32⟩
  | 75 => ⟨S2048x8192, .f32⟩
  | 76 => ⟨S1x8192, .f32⟩
  | 77 => ⟨S1x8192, .f32⟩
  | 78 => ⟨S1x8192, .f32⟩
  | 79 => ⟨S1x8192, .f32⟩
  | 80 => ⟨S1x2048, .f32⟩
  | 81 => ⟨S1x2048, .f32⟩
  | 82 => ⟨S1x2048, .f32⟩
  | 83 => ⟨S1x2048, .f32⟩
  | 84 => ⟨S1x2048, .f32⟩
  | 85 => ⟨S1x2048, .f32⟩
  | 86 => ⟨S_, .f32⟩
  | 87 => ⟨S1x2048, .f32⟩
  | 88 => ⟨S1x2048, .f32⟩
  | 89 => ⟨S_, .f32⟩
  | 90 => ⟨S1x2048, .f32⟩
  | 91 => ⟨S1x2048, .f32⟩
  | 92 => ⟨S1x2048, .f32⟩
  | 93 => ⟨S1x2048, .f32⟩
  | 94 => ⟨S1x2048, .f32⟩
  | 95 => ⟨S_, .f32⟩
  | 96 => ⟨S1x2048, .f32⟩
  | 97 => ⟨S1x2048, .f32⟩
  | 98 => ⟨S_, .f32⟩
  | 99 => ⟨S1x2048, .f32⟩
  | 100 => ⟨S1x2048, .f32⟩
  | 101 => ⟨S1x2048, .f32⟩
  | 102 => ⟨S1x2048, .f32⟩
  | 103 => ⟨S1x2048, .f32⟩
  | 104 => ⟨S1x2048, .f32⟩
  | 105 => ⟨S1x2048, .f32⟩
  | 106 => ⟨S_, .f32⟩
  | 107 => ⟨S1x2048, .f32⟩
  | 108 => ⟨S1x2048, .f32⟩
  | 109 => ⟨S_, .f32⟩
  | 110 => ⟨S1x2048, .f32⟩
  | 111 => ⟨S1x2048, .f32⟩
  | 112 => ⟨S1x2048, .f32⟩
  | 113 => ⟨S1x2048, .f32⟩
  | 114 => ⟨S1x4096, .f32⟩
  | 115 => ⟨S1x1x4096, .f32⟩
  | 116 => ⟨S1x1x2048, .f32⟩
  | 117 => ⟨S1x1x2048, .f32⟩
  | 118 => ⟨S1x1x2048, .f32⟩
  | 119 => ⟨S1x1x2048, .f32⟩
  | 120 => ⟨S4x1x2048, .f32⟩
  | 121 => ⟨S1x1x2048, .f32⟩
  | 122 => ⟨S1x1x2048, .f32⟩
  | 123 => ⟨S1x1x2048, .f32⟩
  | 124 => ⟨S1x1x2048, .f32⟩
  | 125 => ⟨S4x1x2048, .f32⟩
  | _ => ⟨S1, .i32⟩

abbrev hbmTy (i : Nat) : BufTy := match i / 128 with
  | 0 => hbmTy0_0 i
  | 1 => hbmTy0_1 i
  | _ => ⟨S1, .i32⟩

abbrev bufTy : (tb : Table) → Fin (tcTables nBuf tb) → BufTy
  | .hbm, ⟨i, _⟩ => hbmTy i
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst : Ref sig .tc := ⟨.hbm, 48, rfl⟩
abbrev main_v34 : Ref sig .tc := ⟨.hbm, 49, rfl⟩
abbrev main_v35 : Ref sig .tc := ⟨.hbm, 50, rfl⟩
abbrev main_cst_1 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_2 : Ref sig .tc := ⟨.hbm, 57, rfl⟩
abbrev main_v41 : Ref sig .tc := ⟨.hbm, 58, rfl⟩
abbrev main_v42 : Ref sig .tc := ⟨.hbm, 59, rfl⟩
abbrev main_cst_3 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_4 : Ref sig .tc := ⟨.hbm, 68, rfl⟩
abbrev main_v50 : Ref sig .tc := ⟨.hbm, 69, rfl⟩
abbrev main_v51 : Ref sig .tc := ⟨.hbm, 70, rfl⟩
abbrev main_cst_5 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_cst_6 : Ref sig .tc := ⟨.hbm, 103, rfl⟩
abbrev main_v83 : Ref sig .tc := ⟨.hbm, 104, rfl⟩
abbrev main_v84 : Ref sig .tc := ⟨.hbm, 105, rfl⟩
abbrev main_cst_7 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_cst_8 : Ref sig .tc := ⟨.hbm, 112, rfl⟩
abbrev main_v90 : Ref sig .tc := ⟨.hbm, 113, rfl⟩
abbrev main_v91 : Ref sig .tc := ⟨.hbm, 114, rfl⟩
abbrev main_cst_9 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_cst_10 : Ref sig .tc := ⟨.hbm, 123, rfl⟩
abbrev main_v99 : Ref sig .tc := ⟨.hbm, 124, rfl⟩
abbrev main_v100 : Ref sig .tc := ⟨.hbm, 125, rfl⟩
abbrev main_cst_11 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_cst_12 : Ref sig .tc := ⟨.hbm, 159, rfl⟩
abbrev main_v133 : Ref sig .tc := ⟨.hbm, 160, rfl⟩
abbrev main_v134 : Ref sig .tc := ⟨.hbm, 161, rfl⟩
abbrev main_cst_13 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_cst_14 : Ref sig .tc := ⟨.hbm, 168, rfl⟩
abbrev main_v140 : Ref sig .tc := ⟨.hbm, 169, rfl⟩
abbrev main_v141 : Ref sig .tc := ⟨.hbm, 170, rfl⟩
abbrev main_cst_15 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_cst_16 : Ref sig .tc := ⟨.hbm, 179, rfl⟩
abbrev main_v149 : Ref sig .tc := ⟨.hbm, 180, rfl⟩
abbrev main_v150 : Ref sig .tc := ⟨.hbm, 181, rfl⟩
abbrev main_cst_17 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_cst_18 : Ref sig .tc := ⟨.hbm, 214, rfl⟩
abbrev main_v182 : Ref sig .tc := ⟨.hbm, 215, rfl⟩
abbrev main_v183 : Ref sig .tc := ⟨.hbm, 216, rfl⟩
abbrev main_cst_19 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_cst_20 : Ref sig .tc := ⟨.hbm, 223, rfl⟩
abbrev main_v189 : Ref sig .tc := ⟨.hbm, 224, rfl⟩
abbrev main_v190 : Ref sig .tc := ⟨.hbm, 225, rfl⟩
abbrev main_cst_21 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_cst_22 : Ref sig .tc := ⟨.hbm, 234, rfl⟩
abbrev main_v198 : Ref sig .tc := ⟨.hbm, 235, rfl⟩
abbrev main_v199 : Ref sig .tc := ⟨.hbm, 236, rfl⟩
abbrev main_cst_23 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_v209 : Ref sig .tc := ⟨.hbm, 247, rfl⟩
abbrev main_v210 : Ref sig .tc := ⟨.hbm, 248, rfl⟩
abbrev main_v211 : Ref sig .tc := ⟨.hbm, 249, rfl⟩
abbrev main_v212 : Ref sig .tc := ⟨.hbm, 250, rfl⟩
abbrev main_v213 : Ref sig .tc := ⟨.hbm, 251, rfl⟩
abbrev main_v214 : Ref sig .tc := ⟨.hbm, 252, rfl⟩
abbrev main_v215 : Ref sig .tc := ⟨.hbm, 253, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  slices_S4x1x2048_S1x1x2048_0_0_0 : S4x1x2048.Slices ![0, 0, 0] S1x1x2048
  shapeCasts_S1x1x2048_S1x2048 : S1x1x2048.ShapeCasts S1x2048
  slices_S2x8192x1024_S1x8192x1024_0_0_0 : S2x8192x1024.Slices ![0, 0, 0] S1x8192x1024
  shapeCasts_S1x8192x1024_S8192x1024 : S1x8192x1024.ShapeCasts S8192x1024
  slices_S2x8192x2048_S1x8192x2048_0_0_0 : S2x8192x2048.Slices ![0, 0, 0] S1x8192x2048
  shapeCasts_S1x8192x2048_S8192x2048 : S1x8192x2048.ShapeCasts S8192x2048
  slices_S2x8192_S1x8192_0_0 : S2x8192.Slices ![0, 0] S1x8192
  shapeCasts_S1x8192_S8192 : S1x8192.ShapeCasts S8192
  transposes_S8192x1024_S1024x8192_1_0 : S8192x1024.Transposes [1, 0] S1024x8192
  bcast_S8192_S1x8192_1 : S8192.BroadcastsInDim S1x8192 (![1] : Fin 1 → Fin S1x8192.rank)
  transposes_S8192x2048_S2048x8192_1_0 : S8192x2048.Transposes [1, 0] S2048x8192
  slices_S1x8192_S1x2048_0_0 : S1x8192.Slices ![0, 0] S1x2048
  slices_S1x8192_S1x2048_0_2048 : S1x8192.Slices ![0, 2048] S1x2048
  slices_S1x8192_S1x2048_0_4096 : S1x8192.Slices ![0, 4096] S1x2048
  slices_S1x8192_S1x2048_0_6144 : S1x8192.Slices ![0, 6144] S1x2048
  bcast_S_S1x2048 : S_.BroadcastsInDim S1x2048 (![] : Fin 0 → Fin S1x2048.rank)
  slices_S4x1x2048_S1x1x2048_1_0_0 : S4x1x2048.Slices ![1, 0, 0] S1x1x2048
  slices_S2x8192x1024_S1x8192x1024_1_0_0 : S2x8192x1024.Slices ![1, 0, 0] S1x8192x1024
  slices_S2x8192x2048_S1x8192x2048_1_0_0 : S2x8192x2048.Slices ![1, 0, 0] S1x8192x2048
  slices_S2x8192_S1x8192_1_0 : S2x8192.Slices ![1, 0] S1x8192
  concatenates_S1x2048_S1x2048_S1x4096_d1 : Shape.Concatenates [S1x2048, S1x2048] S1x4096 1
  slices_S4x1x2048_S1x1x2048_2_0_0 : S4x1x2048.Slices ![2, 0, 0] S1x1x2048
  slices_S2x8192x4096_S1x8192x4096_0_0_0 : S2x8192x4096.Slices ![0, 0, 0] S1x8192x4096
  shapeCasts_S1x8192x4096_S8192x4096 : S1x8192x4096.ShapeCasts S8192x4096
  transposes_S8192x4096_S4096x8192_1_0 : S8192x4096.Transposes [1, 0] S4096x8192
  slices_S4x1x2048_S1x1x2048_3_0_0 : S4x1x2048.Slices ![3, 0, 0] S1x1x2048
  slices_S2x8192x4096_S1x8192x4096_1_0_0 : S2x8192x4096.Slices ![1, 0, 0] S1x8192x4096
  bcast_S1x4096_S1x1x4096_1_2 : S1x4096.BroadcastsInDim S1x1x4096 (![1, 2] : Fin 2 → Fin S1x1x4096.rank)
  bcast_S1x2048_S1x1x2048_1_2 : S1x2048.BroadcastsInDim S1x1x2048 (![1, 2] : Fin 2 → Fin S1x1x2048.rank)
  concatenates_S1x1x2048_S1x1x2048_S1x1x2048_S1x1x2048_S4x1x2048_d0 : Shape.Concatenates [S1x1x2048, S1x1x2048, S1x1x2048, S1x1x2048] S4x1x2048 0
  gather_S50257x1024_S1x1_S1x1024_1_0_n_n_0_1_11024_wf : GatherDims.WF S50257x1024 S1x1 S1x1024 [1] [0] [] [0] [] 1 ![1, 1024]
  dot_S1x1024_S1024x8192_S1x8192_1_0_0_1_n_n_wf : DotDims.WF S1x1024 S1024x8192 S1x8192 [1] [0] [0] [1] [] []
  dot_S1x2048_S2048x8192_S1x8192_1_0_0_1_n_n_wf : DotDims.WF S1x2048 S2048x8192 S1x8192 [1] [0] [0] [1] [] []
  dot_S1x4096_S4096x8192_S1x8192_1_0_0_1_n_n_wf : DotDims.WF S1x4096 S4096x8192 S1x8192 [1] [0] [0] [1] [] []

variable [Facts₀]

def gather_S50257x1024_S1x1_S1x1024_1_0_n_n_0_1_11024 : GatherDims S50257x1024 S1x1 S1x1024 where
  offsetDims := [1]
  collapsedSliceDims := [0]
  operandBatchingDims := []
  startIndicesBatchingDims := []
  startIndexMap := [0]
  indexVectorDim := 1
  sliceSizes := ![1, 1024]
  wf := gather_S50257x1024_S1x1_S1x1024_1_0_n_n_0_1_11024_wf
def dot_S1x1024_S1024x8192_S1x8192_1_0_0_1_n_n : DotDims S1x1024 S1024x8192 S1x8192 where
  lhsContracting := [1]
  rhsContracting := [0]
  lhsNonContracting := [0]
  rhsNonContracting := [1]
  lhsBatch := []
  rhsBatch := []
  wf := dot_S1x1024_S1024x8192_S1x8192_1_0_0_1_n_n_wf
def dot_S1x2048_S2048x8192_S1x8192_1_0_0_1_n_n : DotDims S1x2048 S2048x8192 S1x8192 where
  lhsContracting := [1]
  rhsContracting := [0]
  lhsNonContracting := [0]
  rhsNonContracting := [1]
  lhsBatch := []
  rhsBatch := []
  wf := dot_S1x2048_S2048x8192_S1x8192_1_0_0_1_n_n_wf
def dot_S1x4096_S4096x8192_S1x8192_1_0_0_1_n_n : DotDims S1x4096 S4096x8192 S1x8192 where
  lhsContracting := [1]
  rhsContracting := [0]
  lhsNonContracting := [0]
  rhsNonContracting := [1]
  lhsBatch := []
  rhsBatch := []
  wf := dot_S1x4096_S4096x8192_S1x8192_1_0_0_1_n_n_wf

class Facts : Prop extends Facts₀ where

variable [Facts]
-- ==== Proof.LibRowSlots.lean ====
import Idealize.ShloMosaic.Signature.View
import Idealize.ShloMosaic.Lib.ValueIdx
import Idealize.ShloMosaic.Lib.Memref

noncomputable section

namespace Idealize.ShloMosaic.RowSlots

open Idealize.ShloMosaic Idealize.ShloMosaic.ValueIdx

variable {Val : EltTy → Type} {G N : ℕ} {e : EltTy}

abbrev slots (G N : ℕ) : Shape := ⟨3, ![G, 1, N]⟩
abbrev slot (N : ℕ) : Shape := ⟨3, ![1, 1, N]⟩
abbrev row (N : ℕ) : Shape := ⟨2, ![1, N]⟩

variable {sig : RefSig} {κ : Kind} {sp : Space} (M : Memref sig κ sp (slots G N) e)

/-- A store through another row's view touches no element of this row: the two differ in the first coordinate. -/
theorem read_write_other_slot (g g' : Fin G) (hg : g ≠ g')
    (off : Fin 3 → ℕ) (h : off = ![g'.val, 0, 0]) (inb : ∀ a, off a + (slot N).size a ≤ (slots G N).size a) (hr)
    (hq : (slot N).Squeezes (row N)) (R : Rect (row N)) (f : M.view.ty.Contents Val) (w : R.shape.Idx → Val e) (Ms : Finset R.shape.Idx)
    (j : Fin N) :
    M.view.read Val ((((M.slice (Rect.unit (s := slots G N) off (slot N).size inb) hr).squeeze (row N) hq).access R).write Val f w Ms)
        (ix3 g 0 j)
      = M.view.read Val f (ix3 g 0 j) := by
  subst h
  refine View.read_congr_at _ (View.write_of_not_mem _ _ _ fun hm => ?_)
  obtain ⟨x, _, hx⟩ := Finset.mem_map.mp hm
  replace hx : M.view.emb ((Rect.unit (s := slots G N) ![g'.val, 0, 0] (slot N).size inb).emb
      (Shape.reshapeEquiv hq.numel_eq (R.emb x))) = _ := hx
  rw [Shape.reshapeEquiv_cons_one] at hx
  have h0 : (g' : ℕ) + 1 * 0 = g := congrArg (fun i : (slots G N).Idx => (i 0 : ℕ)) (M.view.emb.injective hx)
  exact hg (Fin.ext (by omega))

variable (g : Fin G) (off : Fin 3 → ℕ) (h : off = ![g.val, 0, 0]) (inb : ∀ a, off a + (slot N).size a ≤ (slots G N).size a)
  (hr : ∀ a, (Rect.unit (s := slots G N) off (slot N).size inb).stride a = 1) (hq : (slot N).Squeezes (row N))
include h

/-- Row g's view reads the buffer at row g. -/
theorem read_slot (f : M.view.ty.Contents Val) (j : Fin N) :
    ((M.slice (Rect.unit (s := slots G N) off (slot N).size inb) hr).squeeze (row N) hq).view.read Val f (ix2 0 j)
      = M.view.read Val f (ix3 g 0 j) := by
  subst h
  show M.view.read Val f ((Rect.unit (s := slots G N) _ (slot N).size inb).emb (Shape.reshapeEquiv hq.numel_eq (ix2 0 j))) = _
  rw [Shape.reshapeEquiv_cons_one]
  congr 1
  funext a
  apply Fin.ext
  rw [Rect.emb_apply]
  match a with
  | ⟨0, _⟩ | ⟨1, _⟩ => rfl
  | ⟨2, _⟩ => show 0 + 1 * j.val = j.val; omega

theorem read_write_own_hit (R : Rect (row N)) (f : M.view.ty.Contents Val) (w : R.shape.Idx → Val e) (x : R.shape.Idx)
    (j : Fin N) (hx : R.emb x = ix2 0 j) :
    M.view.read Val ((((M.slice (Rect.unit (s := slots G N) off (slot N).size inb) hr).squeeze (row N) hq).access R).write Val f w Finset.univ)
        (ix3 g 0 j)
      = w x := by
  rw [← read_slot M g off h inb hr hq, ← hx]
  exact View.read_slice_write_emb (Val := Val)
    (v := ((M.slice (Rect.unit (s := slots G N) off (slot N).size inb) hr).squeeze (row N) hq).view) R f w (Finset.mem_univ x)

theorem read_write_own_miss (R : Rect (row N)) (f : M.view.ty.Contents Val) (w : R.shape.Idx → Val e) (Ms : Finset R.shape.Idx)
    (j : Fin N) (hy : ix2 0 j ∉ R.set) :
    M.view.read Val ((((M.slice (Rect.unit (s := slots G N) off (slot N).size inb) hr).squeeze (row N) hq).access R).write Val f w Ms)
        (ix3 g 0 j)
      = M.view.read Val f (ix3 g 0 j) := by
  rw [← read_slot M g off h inb hr hq, ← read_slot M g off h inb hr hq]
  refine View.read_slice_write_of_not_mem _ _ _ _ fun hm => hy ?_
  rw [← Rect.map_emb_univ]
  exact Finset.map_subset_map.2 (Finset.subset_univ _) hm

end Idealize.ShloMosaic.RowSlots

end
-- ==== Proof.R0Run.lean ====
import proofs.«429347_j5763846111973_3_alg».proof.Proof.Gen.KernelIdeal.Launch
import proofs.«429347_j5763846111973_3_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ

abbrev tbM : Memref sig .tc .smem S1 .i32 := Memref.whole main_v0
abbrev embM : Memref sig .tc .hbm S50257x1024 .f32 := Memref.whole main_arg3
abbrev scG0 : Memref sig .tc .vmem S2x1x8192 .f32 := Memref.whole cc0_scratch0
abbrev scX0 : Memref sig .tc .vmem S1x1024 .f32 := Memref.whole cc0_scratch1

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

abbrev wordOf (c : Dev nD) (ft : HbBuf (F := F) c tbM) : Elt F .i32 :=
  tbM.view.readAt (Elt F) (Rect.unit (s := S1) ![0] S1.size inb_S1_S1_0).toLoadRect ft (Shape.Idx.first (numel1_S1.symm ▸ Nat.one_pos))

theorem owns_unread {sp : Space} {S : Shape} {e : EltTy} {m : Memref sig .tc sp S e} (h : m.IsWhole) (c : Dev nD) (X : Vec F S e) :
    (owns (c : Thread nD τ) m fullShare X : sProp 𝕄) = iprop(m.view.loc (c : Thread nD τ) ↦[m.view.set]{fullShare} h.unread X) := by
  unfold owns
  refine BI.equiv_iff.mp ⟨?_, ?_⟩
  · show (_ : sProp 𝕄) ⊢ _; iintro ⟨%f, %hf, H⟩; obtain rfl := h.eq_unread hf; iexact H
  · show (_ : sProp 𝕄) ⊢ _; iintro H; iexists _; isplitr; · ipureintro; exact h.read_unread _
    iexact H

variable (c : Dev nD) (i : grid0.Coords) (hc1 : k0_cond1 i = 1#1) (nc1 : ¬ k0_cond1 i = 1#1) (hc2 : k0_cond2 i = 1#1) (nc2 : ¬ k0_cond2 i = 1#1)
  (arg4 : Memref sig .tc .vmem S1x1x2048 .f32) (harg4 : arg4.IsWhole) (arg5 : Memref sig .tc .vmem S1x1x2048 .f32) (harg5 : arg5.IsWhole) (arg6 : Memref sig .tc .vmem S1x2048x1024 .f32) (harg6 : arg6.IsWhole) (arg7 : Memref sig .tc .vmem S1x2048x2048 .f32) (harg7 : arg7.IsWhole) (arg8 : Memref sig .tc .vmem S1x1x8192 .f32) (harg8 : arg8.IsWhole) (arg9 : Memref sig .tc .vmem S1x1x2048 .f32) (harg9 : arg9.IsWhole) (arg10 : Memref sig .tc .vmem S1x1x2048 .f32) (harg10 : arg10.IsWhole)
  (x4 : Vec F S1x1x2048 .f32) (x5 : Vec F S1x1x2048 .f32) (x6 : Vec F S1x2048x1024 .f32) (x7 : Vec F S1x2048x2048 .f32) (x8 : Vec F S1x1x8192 .f32)
  (ft : HbBuf (F := F) c tbM) (fe : HbBuf (F := F) c embM) (fg : HbBuf (F := F) c scG0) (fx : HbBuf (F := F) c scX0)

noncomputable def runA (hchk : k0_chk1 i (wordOf c ft)) :
    { w : HbBuf (F := F) c scG0 × HbBuf (F := F) c scX0 //
      ∀ (W : Waits sig Unit) (K : PUnit → sProp 𝕄),
        iprop(hbPt c tbM ft ∗ hbPt c embM fe ∗ owns (c : Thread nD τ) arg4 fullShare x4 ∗ owns (c : Thread nD τ) arg6 fullShare x6 ∗ owns (c : Thread nD τ) arg7 fullShare x7 ∗ owns (c : Thread nD τ) arg8 fullShare x8
            ∗ hbPt c scG0 fg ∗ hbPt c scX0 fx ∗ semVal ((c : Thread nD τ), SemLoc.dma 14) 0 ∗ owes (c : Thread nD τ) 0 W
            ∗ (iprop(hbPt c tbM ft ∗ hbPt c embM fe ∗ owns (c : Thread nD τ) arg4 fullShare x4 ∗ owns (c : Thread nD τ) arg6 fullShare x6 ∗ owns (c : Thread nD τ) arg7 fullShare x7 ∗ owns (c : Thread nD τ) arg8 fullShare x8
                ∗ hbPt c scG0 w.1 ∗ hbPt c scX0 w.2 ∗ semVal ((c : Thread nD τ), SemLoc.dma 14) 0 ∗ (∃ W', owes (c : Thread nD τ) 0 W')) -∗ K ⟨⟩))
          ⊢ wp frame (wpE (defs₀ (F := F)) Variants.none c none) Set.univ (cc0__lstm_layer0_kernel i (Memref.whole main_v0) (Memref.isWhole_whole _) (Memref.whole main_arg3) (Memref.isWhole_whole _) arg4 harg4 arg5 harg5 arg6 harg6 arg7 harg7 arg8 harg8 arg9 harg9 arg10 harg10 (Memref.whole cc0_scratch0) (Memref.isWhole_whole _) (Memref.whole cc0_scratch1) (Memref.isWhole_whole _) cc0_scratch2) K } := by
  clear nc1 hc2
  refine ⟨(?_, ?_), fun W K => ?run⟩
  case run =>
    simp only [cc0__lstm_layer0_kernel_eq_skeleton, owns_unread harg4, owns_unread harg6, owns_unread harg7, owns_unread harg8]; unfold cc0__lstm_layer0_kernel_skel
    iintro ⟨Ht, He, H4, H6, H7, H8, Hg, Hx, Hq, HW, Hk⟩
    sl_exec (disch := first | sl_exact hc1 | sl_exact nc2 | sl_exact hchk)
    sl_step
    iapply Hk
    iframe Ht He H4 H6 H7 H8
    isplitl [Hg]; · iexact Hg
    isplitl [Hx]; · iexact Hx
    isplitl [Hq]; · iexact Hq
    iexists _; iexact HW

noncomputable def runB :
    { w : HbBuf (F := F) c scG0 //
      ∀ (K : PUnit → sProp 𝕄),
        iprop(owns (c : Thread nD τ) arg4 fullShare x4 ∗ owns (c : Thread nD τ) arg6 fullShare x6 ∗ owns (c : Thread nD τ) arg7 fullShare x7 ∗ owns (c : Thread nD τ) arg8 fullShare x8
            ∗ hbPt c scG0 fg ∗ hbPt c scX0 fx
            ∗ (iprop(owns (c : Thread nD τ) arg4 fullShare x4 ∗ owns (c : Thread nD τ) arg6 fullShare x6 ∗ owns (c : Thread nD τ) arg7 fullShare x7 ∗ owns (c : Thread nD τ) arg8 fullShare x8
                ∗ hbPt c scG0 w ∗ hbPt c scX0 fx) -∗ K ⟨⟩))
          ⊢ wp frame (wpE (defs₀ (F := F)) Variants.none c none) Set.univ (cc0__lstm_layer0_kernel i (Memref.whole main_v0) (Memref.isWhole_whole _) (Memref.whole main_arg3) (Memref.isWhole_whole _) arg4 harg4 arg5 harg5 arg6 harg6 arg7 harg7 arg8 harg8 arg9 harg9 arg10 harg10 (Memref.whole cc0_scratch0) (Memref.isWhole_whole _) (Memref.whole cc0_scratch1) (Memref.isWhole_whole _) cc0_scratch2) K } := by
  clear hc1 hc2
  refine ⟨?_, fun K => ?run⟩
  case run =>
    simp only [cc0__lstm_layer0_kernel_eq_skeleton, owns_unread harg4, owns_unread harg6, owns_unread harg7, owns_unread harg8]; unfold cc0__lstm_layer0_kernel_skel
    iintro ⟨H4, H6, H7, H8, Hg, Hx, Hk⟩
    sl_exec (disch := first | sl_exact nc1 | sl_exact nc2)
    sl_step
    iapply Hk
    iframe H4 H6 H7 H8 Hx
    iexact Hg

noncomputable def runC :
    { w : HbBuf (F := F) c scG0 × List (View.Piece (Elt F) S1x1x2048 .f32) × List (View.Piece (Elt F) S1x1x2048 .f32) //
      ∀ (K : PUnit → sProp 𝕄),
        iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
            ∗ (∃ d, owns (c : Thread nD τ) arg9 fullShare d) ∗ (∃ d, owns (c : Thread nD τ) arg10 fullShare d)
            ∗ hbPt c scG0 fg ∗ hbPt c scX0 fx
            ∗ (iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
                ∗ (∃ f, arg9.view.loc (c : Thread nD τ) ↦[arg9.view.set]{fullShare} arg9.view.writes (Elt F) f w.2.1)
                ∗ (∃ f, arg10.view.loc (c : Thread nD τ) ↦[arg10.view.set]{fullShare} arg10.view.writes (Elt F) f w.2.2)
                ∗ hbPt c scG0 w.1 ∗ hbPt c scX0 fx) -∗ K ⟨⟩))
          ⊢ wp frame (wpE (defs₀ (F := F)) Variants.none c none) Set.univ (cc0__lstm_layer0_kernel i (Memref.whole main_v0) (Memref.isWhole_whole _) (Memref.whole main_arg3) (Memref.isWhole_whole _) arg4 harg4 arg5 harg5 arg6 harg6 arg7 harg7 arg8 harg8 arg9 harg9 arg10 harg10 (Memref.whole cc0_scratch0) (Memref.isWhole_whole _) (Memref.whole cc0_scratch1) (Memref.isWhole_whole _) cc0_scratch2) K } := by
  clear hc1 nc2
  refine ⟨(?_, ?_, ?_), fun K => ?run⟩
  case run =>
    simp only [cc0__lstm_layer0_kernel_eq_skeleton, owns_unread harg4, owns_unread harg5, owns_unread harg6, owns_unread harg7, owns_unread harg8]; unfold cc0__lstm_layer0_kernel_skel
    unfold owns
    iintro ⟨H4, H5, H6, H7, H8, ⟨%d9, %f9, -, H9⟩, ⟨%d10, %f10, -, H10⟩, Hg, Hx, Hk⟩
    sl_exec (disch := first | sl_exact nc1 | sl_exact hc2)
    sl_step
    iapply Hk
    iframe H4 H5 H6 H7 H8 Hx
    isplitl [H9]; · iexists _; iexact H9
    isplitl [H10]; · iexists _; iexact H10
    iexact Hg

end Cert.KernelIdeal.R0

end
-- ==== Proof.R0.lean ====
import proofs.«429347_j5763846111973_3_alg».proof.Proof.Gen.KernelIdeal.Points
import proofs.«429347_j5763846111973_3_alg».proof.Proof.LibRowSlots
import proofs.«429347_j5763846111973_3_alg».proof.Proof.R0Run
import Idealize.ShloMosaic.Lib.ValueIdx
import Idealize.ShloMosaic.Lib.ValueLayout

noncomputable section

namespace Cert.KernelIdeal.R0

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)
open Idealize.ShloMosaic.ValueIdx
open Cert.KernelIdeal Cert.KernelIdeal.Gen

variable {F : FTy → Type} [FloatOps F]

local notation "𝕄" => MT nD τ sig Unit (Elt F) ℕ (Pipeline.UD sig nD τ) ℕ

abbrev osem0 : Fin 1 → SemLoc sig := fun j => (![SemLoc.dma 14] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 14) 0) := by
  rw [Pipeline.ownSems0_eq_of_list c osem0 [0] (by decide) (by decide)]; rfl

section Region
variable (V : (c : Dev nD) → (b : Ref sig .tc) → Buf (Elt F) ((c : Thread nD τ).loc b))

def tbl : pre0.Contents (Elt F) := fun j => V (0 : Dev nD) (pre0.ref j)
abbrev adm0 : (pcfg0 (F := F)).Adm := ⟨tbl V, trivial⟩
abbrev cfgM : Pipeline.Cfg sig Λ₀ := cfg0 (adm0 V)

theorem N0 : (cfgM V).N = 8 := N_0

def dOf (t : Fin (cfgM V).N) : Fin 2 := ⟨t.val / 4, by have := t.isLt; have h : (cfgM V).N = 8 := N_0; omega⟩

def colOf (t : Fin (cfgM V).N) (q : Fin 2048) : Fin 8192 := ⟨2048 * (t.val % 4) + q.val, by have := q.isLt; omega⟩

def ptOf (t : Fin (cfgM V).N) (j : Fin 8192) : Fin (cfgM V).N := ⟨4 * (t.val / 4) + j.val / 2048, by have := t.isLt; have := j.isLt; have h : (cfgM V).N = 8 := N_0; omega⟩

theorem coords0 : ∀ t : Fin (cfgM V).N, ((grid0.coords t) 0).val = t.val / 4 ∧ ((grid0.coords t) 1).val = t.val % 4 :=
  (by decide +kernel : ∀ t : Fin grid0.N, ((grid0.coords t) 0).val = t.val / 4 ∧ ((grid0.coords t) 1).val = t.val % 4)

theorem hcond0_1 : ∀ t : Fin (cfgM V).N, k0_cond1 (grid0.coords t) = 1#1 ↔ t.val % 4 = 0 :=
  (by decide +kernel : ∀ t : Fin grid0.N, k0_cond1 (grid0.coords t) = 1#1 ↔ t.val % 4 = 0)
theorem hcond0_2 : ∀ t : Fin (cfgM V).N, k0_cond2 (grid0.coords t) = 1#1 ↔ t.val % 4 = 3 :=
  (by decide +kernel : ∀ t : Fin grid0.N, k0_cond2 (grid0.coords t) = 1#1 ↔ t.val % 4 = 3)

theorem flush0_5 : ∀ t : Fin (cfgM V).N, ((cfgM V).win 5).flush t = true ↔ t.val % 4 = 3 :=
  (by decide +kernel : ∀ t : Fin grid0.N, Pipeline.Window.flushOf grid0 true cc0_transform_6 t = true ↔ t.val % 4 = 3)
theorem flush0_6 : ∀ t : Fin (cfgM V).N, ((cfgM V).win 6).flush t = true ↔ t.val % 4 = 3 :=
  (by decide +kernel : ∀ t : Fin grid0.N, Pipeline.Window.flushOf grid0 true cc0_transform_7 t = true ↔ t.val % 4 = 3)

abbrev ms0_0 (t : Fin (cfgM V).N) : Memref sig .tc .vmem S1x1x2048 .f32 := spec0_0.stage ((cfgM V).slots t 0)
abbrev hs0_0 (t : Fin (cfgM V).N) : (ms0_0 V t).IsWhole := hstage0_0 (((cfgM V).slots t 0).cast nbuf0_0)
abbrev ms0_1 (t : Fin (cfgM V).N) : Memref sig .tc .vmem S1x1x2048 .f32 := spec0_1.stage ((cfgM V).slots t 1)
abbrev hs0_1 (t : Fin (cfgM V).N) : (ms0_1 V t).IsWhole := hstage0_1 (((cfgM V).slots t 1).cast nbuf0_1)
abbrev ms0_2 (t : Fin (cfgM V).N) : Memref sig .tc .vmem S1x2048x1024 .f32 := spec0_2.stage ((cfgM V).slots t 2)
abbrev hs0_2 (t : Fin (cfgM V).N) : (ms0_2 V t).IsWhole := hstage0_2 (((cfgM V).slots t 2).cast nbuf0_2)
abbrev ms0_3 (t : Fin (cfgM V).N) : Memref sig .tc .vmem S1x2048x2048 .f32 := spec0_3.stage ((cfgM V).slots t 3)
abbrev hs0_3 (t : Fin (cfgM V).N) : (ms0_3 V t).IsWhole := hstage0_3 (((cfgM V).slots t 3).cast nbuf0_3)
abbrev ms0_4 (t : Fin (cfgM V).N) : Memref sig .tc .vmem S1x1x8192 .f32 := spec0_4.stage ((cfgM V).slots t 4)
abbrev hs0_4 (t : Fin (cfgM V).N) : (ms0_4 V t).IsWhole := hstage0_4 (((cfgM V).slots t 4).cast nbuf0_4)
abbrev ms0_5 (t : Fin (cfgM V).N) : Memref sig .tc .vmem S1x1x2048 .f32 := spec0_5.stage ((cfgM V).slots t 5)
abbrev hs0_5 (t : Fin (cfgM V).N) : (ms0_5 V t).IsWhole := hstage0_5 (((cfgM V).slots t 5).cast nbuf0_5)
abbrev ms0_6 (t : Fin (cfgM V).N) : Memref sig .tc .vmem S1x1x2048 .f32 := spec0_6.stage ((cfgM V).slots t 6)
abbrev hs0_6 (t : Fin (cfgM V).N) : (ms0_6 V t).IsWhole := hstage0_6 (((cfgM V).slots t 6).cast nbuf0_6)

abbrev bodyAt0 (t : Fin (cfgM V).N) : Prog (TpuEff nD τ sig (Elt F) Λ₀ .tc) PUnit :=
  cc0__lstm_layer0_kernel (grid0.coords t) (Memref.whole main_v0) (Memref.isWhole_whole _) (Memref.whole main_arg3) (Memref.isWhole_whole _) (ms0_0 V t) (hs0_0 V t) (ms0_1 V t) (hs0_1 V t) (ms0_2 V t) (hs0_2 V t) (ms0_3 V t) (hs0_3 V t) (ms0_4 V t) (hs0_4 V t) (ms0_5 V t) (hs0_5 V t) (ms0_6 V t) (hs0_6 V t) (Memref.whole cc0_scratch0) (Memref.isWhole_whole _) (Memref.whole cc0_scratch1) (Memref.isWhole_whole _) cc0_scratch2

def iblk0 (c : Dev nD) (w : Fin (cfgM V).W) (t : Fin (cfgM V).N) : (((cfgM V).win w).xblock ((cfgM V).grid.coords t)).Idx → Elt F ((cfgM V).win w).elt :=
  (((cfgM V).win w).blk t).view.read (Elt F) (V c (Pipeline.arrRef spec0 w))

def word0 (c : Dev nD) : Elt F .i32 := wordOf c (V c main_v0)

def Ok0 : Prop := ∀ (c : Dev nD) (a : Fin 2), (k0_off1 (word0 V c)) a + S1x1024.size a ≤ S50257x1024.size a

variable (hOk : Ok0 V)

def xrow0 (c : Dev nD) : Vec F S1x1024 .f32 :=
  ReadAs.same.apply (View.read (Elt F) (embM.slice (Rect.unit (s := S50257x1024) (k0_off1 (word0 V c)) S1x1024.size (hOk c)) (fun _ => rfl)).view (V c main_arg3))

def gblk0 (c : Dev nD) (t : Fin (cfgM V).N) : FVec F S1x2048 .f32 :=
  k0_pay1 (View.ld (iblk0 V c 4 t) (Rect.unit (s := S1x1x8192) (k0_off2 (grid0.coords t)) S1x1x2048.size (k0_off2_inb (grid0.coords t))))
    (xrow0 V hOk c) (iblk0 V c 2 t) (iblk0 V c 0 t) (iblk0 V c 3 t)

def grow0 (c : Dev nD) (t : Fin (cfgM V).N) : Vec F S1x1x8192 .f32 :=
  fun y => gblk0 V hOk c (ptOf V t (y 2)) (ix2 (0 : Fin 1) ⟨(y 2).val % 2048, Nat.mod_lt _ (by decide)⟩)

def hOut0 (c : Dev nD) (t : Fin (cfgM V).N) : FVec F S1x1x2048 .f32 := k0_pay4 (grow0 V hOk c t) (iblk0 V c 1 t)
def cOut0 (c : Dev nD) (t : Fin (cfgM V).N) : FVec F S1x1x2048 .f32 := k0_pay5 (grow0 V hOk c t) (iblk0 V c 1 t)

def Inv0 (c : Dev nD) (n : ℕ) (g : HbBuf (F := F) c scG0) (x : HbBuf (F := F) c scX0) : Prop :=
  (∀ t' : Fin (cfgM V).N, t'.val < n → ∀ q : Fin 2048,
    scG0.view.read (Elt F) g (ix3 (dOf V t') (0 : Fin 1) (colOf V t' q)) = gblk0 V hOk c t' (ix2 (0 : Fin 1) q))
  ∧ (0 < n → scX0.view.read (Elt F) x = xrow0 V hOk c)

def Phi0 (c : Dev nD) (n : ℕ) : sProp 𝕄 :=
  iprop((((∃ f : HbBuf (F := F) c scG0, hbPt c scG0 f) ∗ (∃ f : HbBuf (F := F) c scX0, hbPt c scX0 f)) -∗ Pipeline.scopedRest spec0 c)
    ∗ (∃ r, prngReg c r) ∗ semVal ((c : Thread nD τ), SemLoc.dma 14) 0 ∗ hbPt c embM (V c main_arg3) ∗ hbPt c tbM (V c main_v0)
    ∗ ∃ (g : HbBuf (F := F) c scG0) (x : HbBuf (F := F) c scX0), hbPt c scG0 g ∗ hbPt c scX0 x ∗ ⌜Inv0 V hOk c n g x⌝)

def dat0 (c : Dev nD) : Dat τ (Elt F) Unit ℕ (Pipeline.UD sig nD τ) ℕ (cfgM V) c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => hOut0 V hOk c t
    | ⟨6, _⟩ => cOut0 V hOk c t
  Φ t := Phi0 V hOk c t.val
  q _ := fullShare
  owed _ := 0

theorem A_eq0 (c : Dev nD) (w : Fin (cfgM V).W) : (dat0 V hOk c).A w = V c (Pipeline.arrRef spec0 w) := rfl

theorem after0_0 (c : Dev nD) (t : Fin (cfgM V).N) : (dat0 V hOk c).after 0 t = iblk0 V c 0 t := rfl
theorem after0_1 (c : Dev nD) (t : Fin (cfgM V).N) : (dat0 V hOk c).after 1 t = iblk0 V c 1 t := rfl
theorem after0_2 (c : Dev nD) (t : Fin (cfgM V).N) : (dat0 V hOk c).after 2 t = iblk0 V c 2 t := rfl
theorem after0_3 (c : Dev nD) (t : Fin (cfgM V).N) : (dat0 V hOk c).after 3 t = iblk0 V c 3 t := rfl
theorem after0_4 (c : Dev nD) (t : Fin (cfgM V).N) : (dat0 V hOk c).after 4 t = iblk0 V c 4 t := rfl
theorem after0_5 (c : Dev nD) (t : Fin (cfgM V).N) : (dat0 V hOk c).after 5 t = hOut0 V hOk c t := rfl
theorem after0_6 (c : Dev nD) (t : Fin (cfgM V).N) : (dat0 V hOk c).after 6 t = cOut0 V hOk c t := rfl

theorem before0_in (c : Dev nD) : ∀ w : Fin (cfgM V).W, w.val < 5 → ∀ (t : Fin (cfgM V).N) (d), (dat0 V hOk c).before w t d = iblk0 V c w t
  | ⟨0, _⟩, _, t, d | ⟨1, _⟩, _, t, d | ⟨2, _⟩, _, t, d | ⟨3, _⟩, _, t, d | ⟨4, _⟩, _, t, d =>
    ((dat0 V hOk c).before_in_eq_fetched _ rfl (fun _ => rfl) (fun _ _ _ => rfl) (fun _ => rfl) t d).trans rfl
  | ⟨n + 5, _⟩, h, _, _ => absurd h (Nat.not_lt.2 (Nat.le_add_left 5 n))

theorem before0_0 (c : Dev nD) (t : Fin (cfgM V).N) (d) : (dat0 V hOk c).before 0 t d = iblk0 V c 0 t :=
  before0_in V hOk c 0 (Nat.le_of_ble_eq_true rfl) t d
theorem before0_1 (c : Dev nD) (t : Fin (cfgM V).N) (d) : (dat0 V hOk c).before 1 t d = iblk0 V c 1 t :=
  before0_in V hOk c 1 (Nat.le_of_ble_eq_true rfl) t d
theorem before0_2 (c : Dev nD) (t : Fin (cfgM V).N) (d) : (dat0 V hOk c).before 2 t d = iblk0 V c 2 t :=
  before0_in V hOk c 2 (Nat.le_of_ble_eq_true rfl) t d
theorem before0_3 (c : Dev nD) (t : Fin (cfgM V).N) (d) : (dat0 V hOk c).before 3 t d = iblk0 V c 3 t :=
  before0_in V hOk c 3 (Nat.le_of_ble_eq_true rfl) t d
theorem before0_4 (c : Dev nD) (t : Fin (cfgM V).N) (d) : (dat0 V hOk c).before 4 t d = iblk0 V c 4 t :=
  before0_in V hOk c 4 (Nat.le_of_ble_eq_true rfl) t d

end Region

end Cert.KernelIdeal.R0

end
-- ==== Proof.R0Pure.lean ====
import proofs.«429347_j5763846111973_3_alg».proof.Proof.R0
import Idealize.ShloMosaic.Lib.Pipeline.Value

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Idealize.ShloMosaic.ValueIdx
open Cert.KernelIdeal Cert.KernelIdeal.Gen

variable {F : FTy → Type} [FloatOps F]

local notation "𝕄" => MT nD τ sig Unit (Elt F) ℕ (Pipeline.UD sig nD τ) ℕ

theorem hz2 : (![0, 0] : Fin 2 → ℕ) = fun _ => 0 := funext fun a => by match a with | ⟨0, _⟩ => rfl | ⟨1, _⟩ => rfl
theorem hz3 : (![0, 0, 0] : Fin 3 → ℕ) = fun _ => 0 := funext fun a => by match a with | ⟨0, _⟩ => rfl | ⟨1, _⟩ => rfl | ⟨2, _⟩ => rfl

abbrev bandV (i : grid0.Coords) : View sig .tc .vmem (Rect.unit (s := S1x8192) (k0_off4 i) S1x2048.size (k0_off4_inb i)).shape .f32 :=
  ((((Memref.whole cc0_scratch0 : Memref sig .tc .vmem S2x1x8192 .f32).slice (Rect.unit (s := S2x1x8192) (k0_off3 i) S1x1x8192.size (k0_off3_inb i)) (fun _ => rfl)).squeeze S1x8192 squeezes_S1x1x8192_S1x8192).access (Rect.unit (s := S1x8192) (k0_off4 i) S1x2048.size (k0_off4_inb i)))

theorem band_hit (c : Dev nD) (i : grid0.Coords) (d : Fin 2) (hd : (i 0).val = d.val) (fg : HbBuf (F := F) c scG0) (w : FVec F S1x2048 .f32)
    (q : Fin 2048) (j : Fin 8192) (hj : j.val = 2048 * (i 1).val + q.val) :
    scG0.view.read (Elt F) (View.write (Elt F) (bandV i) fg w Finset.univ) (ix3 d (0 : Fin 1) j) = w (ix2 (0 : Fin 1) q) := by
  refine RowSlots.read_write_own_hit (Val := Elt F) (G := 2) (N := 8192) scG0 d (k0_off3 i) ((k0_off3_eq i).trans (by rw [hd])) (k0_off3_inb i) (fun _ => rfl) squeezes_S1x1x8192_S1x8192
    (Rect.unit (s := S1x8192) (k0_off4 i) S1x2048.size (k0_off4_inb i)) fg w (ix2 (0 : Fin 1) q) j ?_
  funext a
  apply Fin.ext
  rw [Rect.emb_apply]
  match a with
  | ⟨0, _⟩ => show (k0_off4 i) 0 + 1 * 0 = 0; rw [k0_off4_eq i]; rfl
  | ⟨1, _⟩ => show (k0_off4 i) 1 + 1 * q.val = j.val; rw [k0_off4_eq i, hj]; show 2048 * (i 1).val + 1 * q.val = _; omega

theorem band_keep (c : Dev nD) (i : grid0.Coords) (fg : HbBuf (F := F) c scG0) (w : FVec F S1x2048 .f32)
    (d' : Fin 2) (j : Fin 8192) (h : ¬ (d'.val = (i 0).val ∧ 2048 * (i 1).val ≤ j.val ∧ j.val < 2048 * (i 1).val + 2048)) :
    scG0.view.read (Elt F) (View.write (Elt F) (bandV i) fg w Finset.univ) (ix3 d' (0 : Fin 1) j) = scG0.view.read (Elt F) fg (ix3 d' (0 : Fin 1) j) := by
  by_cases hd : d'.val = (i 0).val
  · refine RowSlots.read_write_own_miss (Val := Elt F) (G := 2) (N := 8192) scG0 d' (k0_off3 i) ((k0_off3_eq i).trans (by rw [hd])) (k0_off3_inb i) (fun _ => rfl) squeezes_S1x1x8192_S1x8192
      (Rect.unit (s := S1x8192) (k0_off4 i) S1x2048.size (k0_off4_inb i)) fg w Finset.univ j ?_
    intro hm
    have h1 := Rect.mem_set_unit.1 hm (1 : Fin 2)
    rw [k0_off4_eq i] at h1
    exact h ⟨hd, h1⟩
  · exact RowSlots.read_write_other_slot (Val := Elt F) (G := 2) (N := 8192) scG0 d' ⟨(i 0).val, (i 0).isLt⟩ (fun e => hd (congrArg Fin.val e)) (k0_off3 i) (k0_off3_eq i) (k0_off3_inb i) (fun _ => rfl) squeezes_S1x1x8192_S1x8192
      (Rect.unit (s := S1x8192) (k0_off4 i) S1x2048.size (k0_off4_inb i)) fg w Finset.univ j

abbrev rowOfT (c : Dev nD) (ft : HbBuf (F := F) c tbM) (fe : HbBuf (F := F) c embM) (h : ∀ a, (k0_off1 (wordOf c ft)) a + S1x1024.size a ≤ S50257x1024.size a) : Vec F S1x1024 .f32 :=
  ReadAs.same.apply (View.read (Elt F) (embM.slice (Rect.unit (s := S50257x1024) (k0_off1 (wordOf c ft)) S1x1024.size h) (fun _ => rfl)).view fe)

variable (c : Dev nD) (i : grid0.Coords) (hc1 : k0_cond1 i = 1#1) (nc1 : ¬ k0_cond1 i = 1#1) (nc2 : ¬ k0_cond2 i = 1#1)
  (arg4 : Memref sig .tc .vmem S1x1x2048 .f32) (harg4 : arg4.IsWhole) (arg5 : Memref sig .tc .vmem S1x1x2048 .f32) (harg5 : arg5.IsWhole) (arg6 : Memref sig .tc .vmem S1x2048x1024 .f32) (harg6 : arg6.IsWhole) (arg7 : Memref sig .tc .vmem S1x2048x2048 .f32) (harg7 : arg7.IsWhole) (arg8 : Memref sig .tc .vmem S1x1x8192 .f32) (harg8 : arg8.IsWhole) (arg9 : Memref sig .tc .vmem S1x1x2048 .f32) (harg9 : arg9.IsWhole) (arg10 : Memref sig .tc .vmem S1x1x2048 .f32) (harg10 : arg10.IsWhole)
  (x4 : Vec F S1x1x2048 .f32) (x6 : Vec F S1x2048x1024 .f32) (x7 : Vec F S1x2048x2048 .f32) (x8 : Vec F S1x1x8192 .f32)
  (ft : HbBuf (F := F) c tbM) (fe : HbBuf (F := F) c embM) (fg : HbBuf (F := F) c scG0) (fx : HbBuf (F := F) c scX0)

theorem runB_eq :
    (runB c i nc1 nc2 arg4 harg4 arg5 harg5 arg6 harg6 arg7 harg7 arg8 harg8 arg9 harg9 arg10 harg10 x4 x6 x7 x8 fg fx).1
      = View.write (Elt F) (bandV i) fg (k0_pay1 (View.ld x8 (Rect.unit (s := S1x1x8192) (k0_off2 i) S1x1x2048.size (k0_off2_inb i))) (scX0.view.read (Elt F) fx) x6 x4 x7) Finset.univ := by
  unfold runB
  dsimp only
  sl_unfold_words
  simp only [View.readAt_eq_ld, Memref.IsWhole.read_unread]
  rw [View.ld_unit_zero (S := S1x1024) hz2, View.ld_unit_zero (S := S1x2048x1024) hz3, View.ld_unit_zero (S := S1x1x2048) hz3, View.ld_unit_zero (S := S1x2048x2048) hz3]
  rfl

theorem runA_eq (hchk : k0_chk1 i (wordOf c ft)) :
    (runA c i hc1 nc2 arg4 harg4 arg5 harg5 arg6 harg6 arg7 harg7 arg8 harg8 arg9 harg9 arg10 harg10 x4 x6 x7 x8 ft fe fg fx hchk).1
      = (View.write (Elt F) (bandV i) fg (k0_pay1 (View.ld x8 (Rect.unit (s := S1x1x8192) (k0_off2 i) S1x1x2048.size (k0_off2_inb i))) (rowOfT c ft fe (hchk hc1)) x6 x4 x7) Finset.univ,
         View.write (Elt F) scX0.view fx (rowOfT c ft fe (hchk hc1)) Finset.univ) := by
  unfold runA
  dsimp only
  sl_unfold_words
  simp only [View.readAt_eq_ld, Memref.IsWhole.read_unread, View.read_write_univ]
  rw [View.ld_unit_zero (S := S1x1024) hz2, View.ld_unit_zero (S := S1x2048x1024) hz3, View.ld_unit_zero (S := S1x1x2048) hz3, View.ld_unit_zero (S := S1x2048x2048) hz3]
  rfl

end Cert.KernelIdeal.R0
end
-- ==== Proof.R0Inv.lean ====
import proofs.«429347_j5763846111973_3_alg».proof.Proof.R0Pure

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Idealize.ShloMosaic.ValueIdx
open Cert.KernelIdeal Cert.KernelIdeal.Gen

variable {F : FTy → Type} [FloatOps F]

local notation "𝕄" => MT nD τ sig Unit (Elt F) ℕ (Pipeline.UD sig nD τ) ℕ

variable (c : Dev nD) (i : grid0.Coords) (nc1 : ¬ k0_cond1 i = 1#1) (hc2 : k0_cond2 i = 1#1)
  (arg4 : Memref sig .tc .vmem S1x1x2048 .f32) (harg4 : arg4.IsWhole) (arg5 : Memref sig .tc .vmem S1x1x2048 .f32) (harg5 : arg5.IsWhole) (arg6 : Memref sig .tc .vmem S1x2048x1024 .f32) (harg6 : arg6.IsWhole) (arg7 : Memref sig .tc .vmem S1x2048x2048 .f32) (harg7 : arg7.IsWhole) (arg8 : Memref sig .tc .vmem S1x1x8192 .f32) (harg8 : arg8.IsWhole) (arg9 : Memref sig .tc .vmem S1x1x2048 .f32) (harg9 : arg9.IsWhole) (arg10 : Memref sig .tc .vmem S1x1x2048 .f32) (harg10 : arg10.IsWhole)
  (x4 : Vec F S1x1x2048 .f32) (x5 : Vec F S1x1x2048 .f32) (x6 : Vec F S1x2048x1024 .f32) (x7 : Vec F S1x2048x2048 .f32) (x8 : Vec F S1x1x8192 .f32)
  (fg : HbBuf (F := F) c scG0) (fx : HbBuf (F := F) c scX0)

theorem runC_eq1 :
    (runC c i nc1 hc2 arg4 harg4 arg5 harg5 arg6 harg6 arg7 harg7 arg8 harg8 arg9 harg9 arg10 harg10 x4 x5 x6 x7 x8 fg fx).1.1
      = View.write (Elt F) (bandV i) fg (k0_pay1 (View.ld x8 (Rect.unit (s := S1x1x8192) (k0_off2 i) S1x1x2048.size (k0_off2_inb i))) (scX0.view.read (Elt F) fx) x6 x4 x7) Finset.univ := by
  unfold runC
  dsimp only
  sl_unfold_words
  simp only [View.readAt_eq_ld, Memref.IsWhole.read_unread]
  rw [View.ld_unit_zero (S := S1x1024) hz2, View.ld_unit_zero (S := S1x2048x1024) hz3, View.ld_unit_zero (S := S1x1x2048) hz3, View.ld_unit_zero (S := S1x2048x2048) hz3]
  rfl

theorem runC_out9
    {sg : RefSig} {κ : Kind} {sp : Space} (v : View sg κ sp S1x1x2048 .f32) (f : v.ty.Contents (Elt F)) :
    v.read (Elt F) (v.writes (Elt F) f (runC c i nc1 hc2 arg4 harg4 arg5 harg5 arg6 harg6 arg7 harg7 arg8 harg8 arg9 harg9 arg10 harg10 x4 x5 x6 x7 x8 fg fx).1.2.1)
      = k0_pay4 (View.ld (scG0.view.read (Elt F) (runC c i nc1 hc2 arg4 harg4 arg5 harg5 arg6 harg6 arg7 harg7 arg8 harg8 arg9 harg9 arg10 harg10 x4 x5 x6 x7 x8 fg fx).1.1) (Rect.unit (s := S2x1x8192) (k0_off5 i) S1x1x8192.size (k0_off5_inb i hc2))) x5 := by
  rw [runC_eq1]
  unfold runC
  dsimp only
  sl_unfold_words
  rw [View.read_writes_eq_canon v f _ (fun y => View.cover_of_tiled _ S1x1x2048.size (by rfl) y), View.canon_unit_zero hz3]
  simp only [View.readAt_eq_ld, Memref.IsWhole.read_unread]
  rw [View.ld_unit_zero (S := S1x1024) hz2, View.ld_unit_zero (S := S1x2048x1024) hz3, View.ld_unit_zero (S := S1x1x2048) hz3, View.ld_unit_zero (S := S1x2048x2048) hz3, View.ld_unit_zero (S := S1x1x2048) hz3]
  rfl

theorem runC_out10
    {sg : RefSig} {κ : Kind} {sp : Space} (v : View sg κ sp S1x1x2048 .f32) (f : v.ty.Contents (Elt F)) :
    v.read (Elt F) (v.writes (Elt F) f (runC c i nc1 hc2 arg4 harg4 arg5 harg5 arg6 harg6 arg7 harg7 arg8 harg8 arg9 harg9 arg10 harg10 x4 x5 x6 x7 x8 fg fx).1.2.2)
      = k0_pay5 (View.ld (scG0.view.read (Elt F) (runC c i nc1 hc2 arg4 harg4 arg5 harg5 arg6 harg6 arg7 harg7 arg8 harg8 arg9 harg9 arg10 harg10 x4 x5 x6 x7 x8 fg fx).1.1) (Rect.unit (s := S2x1x8192) (k0_off5 i) S1x1x8192.size (k0_off5_inb i hc2))) x5 := by
  rw [runC_eq1]
  unfold runC
  dsimp only
  sl_unfold_words
  rw [View.read_writes_eq_canon v f _ (fun y => View.cover_of_tiled _ S1x1x2048.size (by rfl) y), View.canon_unit_zero hz3]
  simp only [View.readAt_eq_ld, Memref.IsWhole.read_unread]
  rw [View.ld_unit_zero (S := S1x1024) hz2, View.ld_unit_zero (S := S1x2048x1024) hz3, View.ld_unit_zero (S := S1x1x2048) hz3, View.ld_unit_zero (S := S1x2048x2048) hz3, View.ld_unit_zero (S := S1x1x2048) hz3]
  rfl

section Region
variable (V : (c : Dev nD) → (b : Ref sig .tc) → Buf (Elt F) ((c : Thread nD τ).loc b)) (hOk : Ok0 V)

theorem inv_step (c : Dev nD) (t : Fin (cfgM V).N) (g : HbBuf (F := F) c scG0) (x x' : HbBuf (F := F) c scX0)
    (w : FVec F S1x2048 .f32) (hw : w = gblk0 V hOk c t)
    (hinv : Inv0 V hOk c t.val g x) (hx' : scX0.view.read (Elt F) x' = xrow0 V hOk c) :
    Inv0 V hOk c (t.val + 1) (View.write (Elt F) (bandV (grid0.coords t)) g w Finset.univ) x' := by
  subst hw
  have hco := coords0 V t
  refine ⟨fun t' ht' q => ?_, fun _ => hx'⟩
  have hq := q.isLt
  by_cases e : t'.val = t.val
  · obtain rfl : t' = t := Fin.ext e
    exact band_hit c (grid0.coords t') (dOf V t') (by rw [hco.1]; rfl) g _ q (colOf V t' q) (by rw [hco.2]; rfl)
  · have hlt : t'.val < t.val := by omega
    rw [band_keep c (grid0.coords t) g _ (dOf V t') (colOf V t' q) (by
      rw [hco.1, hco.2]
      show ¬ (t'.val / 4 = t.val / 4 ∧ 2048 * (t.val % 4) ≤ 2048 * (t'.val % 4) + q.val ∧ 2048 * (t'.val % 4) + q.val < 2048 * (t.val % 4) + 2048)
      omega)]
    exact hinv.1 t' hlt q

theorem row_of_inv (c : Dev nD) (t : Fin (cfgM V).N) (h3 : t.val % 4 = 3) (g : HbBuf (F := F) c scG0) (x : HbBuf (F := F) c scX0)
    (hinv : Inv0 V hOk c (t.val + 1) g x) (hc2 : k0_cond2 (grid0.coords t) = 1#1) :
    View.ld (scG0.view.read (Elt F) g) (Rect.unit (s := S2x1x8192) (k0_off5 (grid0.coords t)) S1x1x8192.size (k0_off5_inb (grid0.coords t) hc2)) = grow0 V hOk c t := by
  have hco := coords0 V t
  funext y
  obtain ⟨a, b, j, rfl⟩ : ∃ (a : Fin 1) (b : Fin 1) (j : Fin 8192), y = ix3 a b j := ⟨y 0, y 1, y 2, eq_ix3 y⟩
  obtain rfl : a = 0 := Subsingleton.elim _ _
  obtain rfl : b = 0 := Subsingleton.elim _ _
  have hj := j.isLt
  have hN : t.val < 8 := lt_of_lt_of_eq t.isLt (N0 V)
  refine (congrArg (scG0.view.read (Elt F) g) ?_).trans (hinv.1 (ptOf V t j) (by show 4 * (t.val / 4) + j.val / 2048 < t.val + 1; omega) ⟨j.val % 2048, Nat.mod_lt _ (by decide)⟩)
  funext a
  apply Fin.ext
  show ((Rect.unit (s := S2x1x8192) (k0_off5 (grid0.coords t)) S1x1x8192.size _).emb (ix3 (0 : Fin 1) (0 : Fin 1) j) a).val = _
  rw [Rect.emb_apply]
  have hoff := k0_off5_eq (grid0.coords t)
  match a with
  | ⟨0, _⟩ => show (k0_off5 (grid0.coords t)) 0 + 1 * 0 = (4 * (t.val / 4) + j.val / 2048) / 4; rw [hoff]; show (grid0.coords t 0).val + 1 * 0 = _; rw [hco.1]; omega
  | ⟨1, _⟩ => show (k0_off5 (grid0.coords t)) 1 + 1 * 0 = 0; rw [hoff]; rfl
  | ⟨2, _⟩ => show (k0_off5 (grid0.coords t)) 2 + 1 * j.val = 2048 * ((4 * (t.val / 4) + j.val / 2048) % 4) + j.val % 2048; rw [hoff]; show 0 + 1 * j.val = _; omega

end Region

end Cert.KernelIdeal.R0
end
-- ==== Proof.R0ObPre.lean ====
import proofs.«429347_j5763846111973_3_alg».proof.Proof.R0Inv

noncomputable section

namespace Cert.KernelIdeal.R0

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.KernelIdeal Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b)) (hOk : Ok0 V)

theorem idle0_5 (t : Fin (cfgM V).N) (h : ¬ t.val % 4 = 3) : (cfgM V).idle 5 (grid0.coords t) = true := by
  have hc : ¬ k0_cond2 (grid0.coords t) = 1#1 := fun e => h ((hcond0_2 V t).mp e)
  show (!(k0_cond2 (grid0.coords t) == 1#1)) = true
  simp [hc]
theorem idle0_6 (t : Fin (cfgM V).N) (h : ¬ t.val % 4 = 3) : (cfgM V).idle 6 (grid0.coords t) = true := by
  have hc : ¬ k0_cond2 (grid0.coords t) = 1#1 := fun e => h ((hcond0_2 V t).mp e)
  show (!(k0_cond2 (grid0.coords t) == 1#1)) = true
  simp [hc]
theorem live0_5 (t : Fin (cfgM V).N) (h : t.val % 4 = 3) : (cfgM V).idle 5 (grid0.coords t) = false := by
  have hc : k0_cond2 (grid0.coords t) = 1#1 := (hcond0_2 V t).mpr h
  show (!(k0_cond2 (grid0.coords t) == 1#1)) = false
  simp [hc]
theorem live0_6 (t : Fin (cfgM V).N) (h : t.val % 4 = 3) : (cfgM V).idle 6 (grid0.coords t) = false := by
  have hc : k0_cond2 (grid0.coords t) = 1#1 := (hcond0_2 V t).mpr h
  show (!(k0_cond2 (grid0.coords t) == 1#1)) = false
  simp [hc]
theorem noFlush0_5 (t : Fin (cfgM V).N) (h : ¬ t.val % 4 = 3) : ((cfgM V).win 5).flush t = false := by
  cases hf : ((cfgM V).win 5).flush t
  · rfl
  · exact absurd ((flush0_5 V t).mp hf) h
theorem noFlush0_6 (t : Fin (cfgM V).N) (h : ¬ t.val % 4 = 3) : ((cfgM V).win 6).flush t = false := by
  cases hf : ((cfgM V).win 6).flush t
  · rfl
  · exact absurd ((flush0_6 V t).mp hf) h

def bodyPre0 (c : Dev nD) (t : Fin (cfgM V).N) : sProp 𝕄 :=
  iprop(Phi0 V hOk c t.val ∗ (dat0 V hOk c).owesAt () t.castSucc
    ∗ (∃ d, owns (c : Thread nD τ) (ms0_0 V t) fullShare ((dat0 V hOk c).before 0 t d))
    ∗ (∃ d, owns (c : Thread nD τ) (ms0_1 V t) fullShare ((dat0 V hOk c).before 1 t d))
    ∗ (∃ d, owns (c : Thread nD τ) (ms0_2 V t) fullShare ((dat0 V hOk c).before 2 t d))
    ∗ (∃ d, owns (c : Thread nD τ) (ms0_3 V t) fullShare ((dat0 V hOk c).before 3 t d))
    ∗ (∃ d, owns (c : Thread nD τ) (ms0_4 V t) fullShare ((dat0 V hOk c).before 4 t d))
    ∗ (∃ d, owns (c : Thread nD τ) (ms0_5 V t) fullShare ((dat0 V hOk c).before 5 t d))
    ∗ (∃ d, owns (c : Thread nD τ) (ms0_6 V t) fullShare ((dat0 V hOk c).before 6 t d)))

def bodyPost0 (c : Dev nD) (t : Fin (cfgM V).N) : sProp 𝕄 :=
  iprop(Phi0 V hOk c (t.val + 1) ∗ (dat0 V hOk c).owesAt () t.castSucc
    ∗ owns (c : Thread nD τ) (ms0_0 V t) fullShare (iblk0 V c 0 t)
    ∗ owns (c : Thread nD τ) (ms0_1 V t) fullShare (iblk0 V c 1 t)
    ∗ owns (c : Thread nD τ) (ms0_2 V t) fullShare (iblk0 V c 2 t)
    ∗ owns (c : Thread nD τ) (ms0_3 V t) fullShare (iblk0 V c 3 t)
    ∗ owns (c : Thread nD τ) (ms0_4 V t) fullShare (iblk0 V c 4 t)
    ∗ (dat0 V hOk c).leavesExact 5 t
    ∗ (dat0 V hOk c).leavesExact 6 t)

end Cert.KernelIdeal.R0
end
-- ==== Proof.R0ObA.lean ====
import proofs.«429347_j5763846111973_3_alg».proof.Proof.R0ObPre

noncomputable section

namespace Cert.KernelIdeal.R0

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.KernelIdeal Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b)) (hOk : Ok0 V)

theorem sound_A (c : Dev nD) (t : Fin (cfgM V).N) (h0 : t.val % 4 = 0) :
    bodyPre0 V hOk c t ⊢ wp frame (wpE (defs₀ (F := F)) Variants.none c none) Set.univ (bodyAt0 V t) (fun _ => bodyPost0 V hOk c t) := by
  have h3 : ¬ t.val % 4 = 3 := by omega
  unfold bodyPre0 bodyPost0 bodyAt0 Phi0 Dat.owesAt Pipeline.owesWithin
  simp only [before0_0, before0_1, before0_2, before0_3, before0_4]
  rw [Dat.leavesExact_idle (dat0 V hOk c) 5 t (idle0_5 V t h3) (noFlush0_5 V t h3), Dat.leavesExact_idle (dat0 V hOk c) 6 t (idle0_6 V t h3) (noFlush0_6 V t h3)]
  rw [show (dat0 V hOk c).owed t.castSucc = 0 from rfl]
  have hc1 : k0_cond1 (grid0.coords t) = 1#1 := (hcond0_1 V t).mpr h0
  have hc2 : ¬ k0_cond2 (grid0.coords t) = 1#1 := fun e => h3 ((hcond0_2 V t).mp e)
  iintro ⟨⟨Hrest, Hg, Hq, He, Ht, ⟨%g, %x, HG, HX, %hinv⟩⟩, ⟨%W, -, HW⟩, ⟨%d0, H0⟩, ⟨%d1, H1⟩, ⟨%d2, H2⟩, ⟨%d3, H3⟩, ⟨%d4, H4⟩, H5, H6⟩
  iapply ((runA c _ hc1 hc2 _ _ _ _ _ _ _ _ _ _ _ _ _ _ (iblk0 V c 0 t) (iblk0 V c 2 t) (iblk0 V c 3 t) (iblk0 V c 4 t) (V c main_v0) (V c main_arg3) g x (fun _ => hOk c)).2 W _)
  iframe
  iintro ⟨Ht, He, H0, H2, H3, H4, HG, HX, Hq, ⟨%W', HW'⟩⟩
  iframe Ht He H0 H2 H3 H4 Hq
  isplitl [HG HX]
  · iexists _, _
    iframe
    ipureintro
    refine Eq.mpr (congrArg (fun z : HbBuf (F := F) c scG0 × HbBuf (F := F) c scX0 => Inv0 V hOk c (t.val + 1) z.1 z.2) (runA_eq ..)) ?_
    dsimp only
    exact inv_step V hOk c t g x _ _ (by unfold gblk0 xrow0; rfl) hinv (by unfold xrow0; exact View.read_write_univ _ _)
  isplitl [HW']
  · iexists W'; isplitr; · ipureintro; exact fun _ _ => Or.inl trivial
    iexact HW'
  isplitl [H5]; · iexact H5
  iexact H6

end Cert.KernelIdeal.R0
end
-- ==== Proof.R0ObB.lean ====
import proofs.«429347_j5763846111973_3_alg».proof.Proof.R0ObPre

noncomputable section

namespace Cert.KernelIdeal.R0

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.KernelIdeal Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b)) (hOk : Ok0 V)

theorem sound_B (c : Dev nD) (t : Fin (cfgM V).N) (h0 : ¬ t.val % 4 = 0) (h3 : ¬ t.val % 4 = 3) :
    bodyPre0 V hOk c t ⊢ wp frame (wpE (defs₀ (F := F)) Variants.none c none) Set.univ (bodyAt0 V t) (fun _ => bodyPost0 V hOk c t) := by
  unfold bodyPre0 bodyPost0 bodyAt0 Phi0
  simp only [before0_0, before0_1, before0_2, before0_3, before0_4]
  rw [Dat.leavesExact_idle (dat0 V hOk c) 5 t (idle0_5 V t h3) (noFlush0_5 V t h3), Dat.leavesExact_idle (dat0 V hOk c) 6 t (idle0_6 V t h3) (noFlush0_6 V t h3)]
  have hc1 : ¬ k0_cond1 (grid0.coords t) = 1#1 := fun e => h0 ((hcond0_1 V t).mp e)
  have hc2 : ¬ k0_cond2 (grid0.coords t) = 1#1 := fun e => h3 ((hcond0_2 V t).mp e)
  have hpos : 0 < t.val := by omega
  iintro ⟨⟨Hrest, Hg, Hq, He, Ht, ⟨%g, %x, HG, HX, %hinv⟩⟩, Ho, ⟨%d0, H0⟩, ⟨%d1, H1⟩, ⟨%d2, H2⟩, ⟨%d3, H3⟩, ⟨%d4, H4⟩, H5, H6⟩
  iapply ((runB c _ hc1 hc2 _ _ _ _ _ _ _ _ _ _ _ _ _ _ (iblk0 V c 0 t) (iblk0 V c 2 t) (iblk0 V c 3 t) (iblk0 V c 4 t) g x).2 _)
  iframe
  iintro ⟨H0, H2, H3, H4, HG, HX⟩
  iframe H0 H2 H3 H4
  isplitl [HG HX]
  · iexists _, x
    iframe
    ipureintro
    refine Eq.mpr (congrArg (fun z => Inv0 V hOk c (t.val + 1) z x) (runB_eq ..)) ?_
    exact inv_step V hOk c t g x x _ (by unfold gblk0; exact congrArg (fun r => k0_pay1 _ r _ _ _) (hinv.2 hpos)) hinv (hinv.2 hpos)
  isplitl [H5]; · iexact H5
  iexact H6

end Cert.KernelIdeal.R0
end
-- ==== Proof.R0ObC.lean ====
import proofs.«429347_j5763846111973_3_alg».proof.Proof.R0ObPre

noncomputable section

namespace Cert.KernelIdeal.R0

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.KernelIdeal Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b)) (hOk : Ok0 V)

theorem sound_C (c : Dev nD) (t : Fin (cfgM V).N) (h3 : t.val % 4 = 3) :
    bodyPre0 V hOk c t ⊢ wp frame (wpE (defs₀ (F := F)) Variants.none c none) Set.univ (bodyAt0 V t) (fun _ => bodyPost0 V hOk c t) := by
  have h0 : ¬ t.val % 4 = 0 := by omega
  unfold bodyPre0 bodyPost0 bodyAt0 Phi0
  simp only [before0_0, before0_1, before0_2, before0_3, before0_4]
  rw [show (dat0 V hOk c).leavesExact 5 t = owns (c : Thread nD τ) (ms0_5 V t) fullShare (hOut0 V hOk c t) from by
    unfold Dat.leavesExact; rw [live0_5 V t h3]; rfl]
  rw [show (dat0 V hOk c).leavesExact 6 t = owns (c : Thread nD τ) (ms0_6 V t) fullShare (cOut0 V hOk c t) from by
    unfold Dat.leavesExact; rw [live0_6 V t h3]; rfl]
  have hc1 : ¬ k0_cond1 (grid0.coords t) = 1#1 := fun e => h0 ((hcond0_1 V t).mp e)
  have hc2 : k0_cond2 (grid0.coords t) = 1#1 := (hcond0_2 V t).mpr h3
  have hpos : 0 < t.val := by omega
  iintro ⟨⟨Hrest, Hg, Hq, He, Ht, ⟨%g, %x, HG, HX, %hinv⟩⟩, Ho, ⟨%d0, H0⟩, ⟨%d1, H1⟩, ⟨%d2, H2⟩, ⟨%d3, H3⟩, ⟨%d4, H4⟩, ⟨%d5, H5⟩, ⟨%d6, H6⟩⟩
  iapply ((runC c _ hc1 hc2 _ _ _ _ _ _ _ _ _ _ _ _ _ _ (iblk0 V c 0 t) (iblk0 V c 1 t) (iblk0 V c 2 t) (iblk0 V c 3 t) (iblk0 V c 4 t) g x).2 _)
  iframe
  isplitl [H5]; · iexists _; iexact H5
  isplitl [H6]; · iexists _; iexact H6
  iintro ⟨H0, H1, H2, H3, H4, ⟨%e5, H5⟩, ⟨%e6, H6⟩, HG, HX⟩
  have hinv' := inv_step V hOk c t g x x _ (by unfold gblk0; exact congrArg (fun r => k0_pay1 _ r _ _ _) (hinv.2 hpos)) hinv (hinv.2 hpos)
  have hrow := fun g' (e : g' = _) => row_of_inv V hOk c t h3 g' x (Eq.mpr (congrArg (fun z => Inv0 V hOk c (t.val + 1) z x) e) hinv') hc2
  iframe H0 H1 H2 H3 H4
  isplitl [HG HX]
  · iexists _, x
    iframe
    ipureintro
    exact Eq.mpr (congrArg (fun z => Inv0 V hOk c (t.val + 1) z x) (runC_eq1 ..)) hinv'
  unfold owns
  isplitl [H5]
  · iexists _
    iframe
    ipureintro
    exact (runC_out9 ..).trans (congrArg (fun r => k0_pay4 r _) (hrow _ (runC_eq1 ..)))
  iexists _
  iframe
  ipureintro
  exact (runC_out10 ..).trans (congrArg (fun r => k0_pay5 r _) (hrow _ (runC_eq1 ..)))

end Cert.KernelIdeal.R0
end
-- ==== Proof.R0Ob.lean ====
import proofs.«429347_j5763846111973_3_alg».proof.Proof.R0ObA
import proofs.«429347_j5763846111973_3_alg».proof.Proof.R0ObB
import proofs.«429347_j5763846111973_3_alg».proof.Proof.R0ObC

noncomputable section

namespace Cert.KernelIdeal.R0

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.KernelIdeal Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b)) (hOk : Ok0 V)

theorem body_obligation0 (c : Dev nD) : BodyObligation (dat0 (F := F) V hOk c) (defs₀ (F := F)) Variants.none () Set.univ := fun t => by
  rw [bigSep_W0, bigSep_W0]
  by_cases h0 : t.val % 4 = 0
  · exact sound_A V hOk c t h0
  by_cases h3 : t.val % 4 = 3
  · exact sound_C V hOk c t h3
  · exact sound_B V hOk c t h0 h3

theorem hin0 (c : Dev nD) :
    iprop(iprop((∃ r, prngReg c r) ∗ Pipeline.ownSems0 (Ix := Unit) (Name := ℕ) (U := Pipeline.UD sig nD τ) (Lvl := ℕ) (Val := Elt F) (τ := τ) osem0 c ∗ hbPt c embM (V c main_arg3))
        ∗ Pipeline.prefHeld (Ix := Unit) (Name := ℕ) (U := Pipeline.UD sig nD τ) (Lvl := ℕ) pre0 c (fun _ => fullShare) (tbl V)
        ∗ Pipeline.scopedRest (Ix := Unit) (Name := ℕ) (U := Pipeline.UD sig nD τ) (Lvl := ℕ) (Val := Elt F) spec0 c)
      ⊢ (Phi0 V hOk c 0 : sProp 𝕄) := by
  rw [ownSems00_eq]
  have htb : (Pipeline.prefHeld (Ix := Unit) (Name := ℕ) (U := Pipeline.UD sig nD τ) (Lvl := ℕ) pre0 c (fun _ => fullShare) (tbl V) : sProp 𝕄)
      = hbPt c tbM (V c main_v0) := by
    unfold Pipeline.prefHeld
    rw [show (Finset.univ : Finset (Fin 1)) = {(0 : Fin 1)} from by decide, bigSep_singleton]
    obtain rfl : c = 0 := Subsingleton.elim _ _
    rfl
  rw [htb]
  unfold Phi0
  rewrite [scopedRest0_eq]
  iintro ⟨⟨Hp, Hq, He⟩, Ht, ⟨%g, HG⟩, ⟨%x, HX⟩, H1, H2, H3, H4, H5, H6, H7, H8, H9, H10, H11, H12, H13, H14, H15, H16⟩
  iframe Hp Hq He Ht
  isplitr [HG HX]
  · iintro ⟨HG, HX⟩
    iframe
  iexists g, x
  iframe
  ipureintro
  exact ⟨fun t' h => absurd h (Nat.not_lt_zero _), fun h => absurd h (Nat.lt_irrefl _)⟩

theorem hout0 (c : Dev nD) :
    (Phi0 V hOk c (cfgM V).N : sProp 𝕄)
      ⊢ iprop(iprop((∃ r, prngReg c r) ∗ hbPt c embM (V c main_arg3) ∗ hbPt c tbM (V c main_v0))
        ∗ Pipeline.ownSems0 (Ix := Unit) (Name := ℕ) (U := Pipeline.UD sig nD τ) (Lvl := ℕ) (Val := Elt F) (τ := τ) osem0 c
        ∗ Pipeline.scopedRest (Ix := Unit) (Name := ℕ) (U := Pipeline.UD sig nD τ) (Lvl := ℕ) (Val := Elt F) spec0 c) := by
  rw [ownSems00_eq]
  unfold Phi0
  iintro ⟨Hw, Hp, Hq, He, Ht, ⟨%g, %x, HG, HX, -⟩⟩
  iframe Hp Hq He Ht
  iapply Hw
  isplitl [HG]; · iexists g; iexact HG
  iexists x; iexact HX

end Cert.KernelIdeal.R0
end
-- ==== Proof.R1.lean ====
import proofs.«429347_j5763846111973_3_alg».proof.Proof.Gen.KernelIdeal.Launch
import proofs.«429347_j5763846111973_3_alg».proof.Proof.Gen.KernelIdeal.Skeleton
import proofs.«429347_j5763846111973_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value
import proofs.«429347_j5763846111973_3_alg».proof.Proof.LibRowSlots
import proofs.«429347_j5763846111973_3_alg».proof.Proof.R0Run

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (Pipeline.UD sig nD τ) ℕ

abbrev scM1 : Memref sig .tc .vmem S2x1x8192 .f32 := Memref.whole cc1_scratch0

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

theorem N1 : cfg1.N = 16 := N_1

/-- Grid point t = 8·d + rb: direction d = t / 8, row block rb = t % 8 (columns 1024·rb … of the row of 8192 gates). -/
def dOf (t : Fin cfg1.N) : Fin 2 := ⟨t.val / 8, by have := t.isLt; have h : cfg1.N = 16 := N_1; omega⟩

def colOf (t : Fin cfg1.N) (q : Fin 1024) : Fin 8192 := ⟨1024 * (t.val % 8) + q.val, by have := q.isLt; omega⟩

def ptOf (t : Fin cfg1.N) (j : Fin 8192) : Fin cfg1.N := ⟨8 * (t.val / 8) + j.val / 1024, by have := t.isLt; have := j.isLt; have h : cfg1.N = 16 := N_1; omega⟩

theorem coords1 : ∀ t : Fin cfg1.N, ((grid1.coords t) 0).val = t.val / 8 ∧ ((grid1.coords t) 1).val = t.val % 8 :=
  (by decide +kernel : ∀ t : Fin grid1.N, ((grid1.coords t) 0).val = t.val / 8 ∧ ((grid1.coords t) 1).val = t.val % 8)

theorem hcond1 : ∀ t : Fin cfg1.N, k1_cond1 (grid1.coords t) = 1#1 ↔ t.val % 8 = 7 :=
  (by decide +kernel : ∀ t : Fin grid1.N, k1_cond1 (grid1.coords t) = 1#1 ↔ t.val % 8 = 7)

theorem hz3 : (![0, 0, 0] : Fin 3 → Nat) = fun _ => 0 := funext fun a => by fin_cases a <;> rfl

def newS (c : Dev nD) (i : grid1.Coords) (fs : HbBuf (F := F) c scM1) (pay : FVec F S1x1024 .f32) : HbBuf (F := F) c scM1 :=
  View.write (Elt F)
    (((scM1.slice (Rect.unit (s := S2x1x8192) (k1_off2 i) S1x1x8192.size (k1_off2_inb i)) (fun _ => rfl)).squeeze S1x8192 squeezes_S1x1x8192_S1x8192).access
      (Rect.unit (s := S1x8192) (k1_off3 i) S1x1024.size (k1_off3_inb i)))
    fs pay Finset.univ

def payOf (i : grid1.Coords) (x2 : Vec F S2x1x2048 .f32) (x3 : Vec F S1x1x2048 .f32) (x5 : Vec F S1x1024x4096 .f32) (x6 : Vec F S1x1024x2048 .f32) (x7 : Vec F S1x1x8192 .f32) : FVec F S1x1024 .f32 :=
  k1_pay1 x2 (View.ld x7 (Rect.unit (s := S1x1x8192) (k1_off1 i) S1x1x1024.size (k1_off1_inb i))) x5 x3 x6

def rowB (c : Dev nD) (i : grid1.Coords) (hc : k1_cond1 i = 1#1) (g : HbBuf (F := F) c scM1) : Vec F S1x1x8192 .f32 :=
  View.ld (scM1.view.read (Elt F) g) (Rect.unit (s := S2x1x8192) (k1_off4 i) S1x1x8192.size (k1_off4_inb i hc))

theorem cover8 (p0 : Vec F S1x1x2048 .f32) (y : S1x1x2048.Idx) :
    ∃ pc ∈ ([⟨Rect.unit (s := S1x1x2048) ![0, 0, 0] S1x1x2048.size inb_S1x1x2048_S1x1x2048_0_0_0, p0⟩] : List (View.Piece (Elt F) S1x1x2048 .f32)), y ∈ pc.1.set :=
  ⟨_, List.mem_singleton_self _, View.mem_set_unit_zero hz3 inb_S1x1x2048_S1x1x2048_0_0_0 y⟩

theorem off2_pt (t : Fin cfg1.N) : k1_off2 (grid1.coords t) = ![(dOf t).val, 0, 0] := by
  rw [k1_off2_eq, (coords1 t).1]; rfl
theorem off4_pt (t : Fin cfg1.N) : k1_off4 (grid1.coords t) = ![(dOf t).val, 0, 0] := by
  rw [k1_off4_eq, (coords1 t).1]; rfl
theorem off3_pt (t : Fin cfg1.N) : k1_off3 (grid1.coords t) = ![0, 1024 * (t.val % 8)] := by
  rw [k1_off3_eq, (coords1 t).2]

theorem emb_band (off : Fin 2 → ℕ) (r : ℕ) (h : off = ![0, 1024 * r]) (inb : ∀ a, off a + S1x1024.size a ≤ S1x8192.size a)
    (q : Fin 1024) (j : Fin 8192) (hj : j.val = 1024 * r + q.val) :
    (Rect.unit (s := S1x8192) off S1x1024.size inb).emb (ix2 (0 : Fin 1) q) = ix2 (0 : Fin 1) j := by
  subst h; funext a; apply Fin.ext; rw [Rect.emb_apply]
  match a with
  | ⟨0, _⟩ => show 0 + 1 * 0 = 0; omega
  | ⟨1, _⟩ => show 1024 * r + 1 * q.val = j.val; omega

theorem not_mem_band (off : Fin 2 → ℕ) (r r' : ℕ) (h : off = ![0, 1024 * r]) (inb : ∀ a, off a + S1x1024.size a ≤ S1x8192.size a)
    (q : Fin 1024) (j : Fin 8192) (hj : j.val = 1024 * r' + q.val) (hne : r' ≠ r) :
    ix2 (0 : Fin 1) j ∉ (Rect.unit (s := S1x8192) off S1x1024.size inb).set := by
  subst h; rw [Rect.mem_set_unit]; intro hm
  have h1 : 1024 * r ≤ j.val ∧ j.val < 1024 * r + 1024 := hm 1
  have := q.isLt; omega

theorem emb_row (off : Fin 3 → ℕ) (d : Fin 2) (h : off = ![d.val, 0, 0]) (inb : ∀ a, off a + S1x1x8192.size a ≤ S2x1x8192.size a)
    (y : S1x1x8192.Idx) :
    (Rect.unit (s := S2x1x8192) off S1x1x8192.size inb).emb y = ix3 d (0 : Fin 1) (y 2) := by
  subst h; funext a; apply Fin.ext; rw [Rect.emb_apply]
  have h0 : (y 0).val < 1 := (y 0).isLt
  have h1 : (y 1).val < 1 := (y 1).isLt
  match a with
  | ⟨0, _⟩ => show d.val + 1 * (y 0).val = d.val; omega
  | ⟨1, _⟩ => show 0 + 1 * (y 1).val = 0; omega
  | ⟨2, _⟩ => show 0 + 1 * (y 2).val = (y 2).val; omega

section Body
variable (c : Dev nD) (i : grid1.Coords)
  (arg2 : Memref sig .tc .vmem S2x1x2048 .f32) (harg2 : arg2.IsWhole) (arg3 : Memref sig .tc .vmem S1x1x2048 .f32) (harg3 : arg3.IsWhole)
  (arg4 : Memref sig .tc .vmem S1x1x2048 .f32) (harg4 : arg4.IsWhole) (arg5 : Memref sig .tc .vmem S1x1024x4096 .f32) (harg5 : arg5.IsWhole)
  (arg6 : Memref sig .tc .vmem S1x1024x2048 .f32) (harg6 : arg6.IsWhole) (arg7 : Memref sig .tc .vmem S1x1x8192 .f32) (harg7 : arg7.IsWhole)
  (arg8 : Memref sig .tc .vmem S1x1x2048 .f32) (harg8 : arg8.IsWhole) (arg9 : Memref sig .tc .vmem S1x1x2048 .f32) (harg9 : arg9.IsWhole)
  (x2 : Vec F S2x1x2048 .f32) (x3 : Vec F S1x1x2048 .f32) (x4 : Vec F S1x1x2048 .f32) (x5 : Vec F S1x1024x4096 .f32)
  (x6 : Vec F S1x1024x2048 .f32) (x7 : Vec F S1x1x8192 .f32) (fs : HbBuf (F := F) c scM1)

def ins : sProp 𝕄 :=
  iprop(owns (c : Thread nD τ) arg2 fullShare x2 ∗ owns (c : Thread nD τ) arg3 fullShare x3 ∗ owns (c : Thread nD τ) arg4 fullShare x4
    ∗ owns (c : Thread nD τ) arg5 fullShare x5 ∗ owns (c : Thread nD τ) arg6 fullShare x6 ∗ owns (c : Thread nD τ) arg7 fullShare x7)

/-- Away from a direction's last row block the body writes its 1024 gate values into row d, columns 1024·rb …, of the gate array. -/
theorem runA (hc : ¬ k1_cond1 i = 1#1) (K : PUnit → sProp 𝕄) :
    iprop(ins c arg2 arg3 arg4 arg5 arg6 arg7 x2 x3 x4 x5 x6 x7 ∗ hbPt c scM1 fs
        ∗ (iprop(ins c arg2 arg3 arg4 arg5 arg6 arg7 x2 x3 x4 x5 x6 x7 ∗ ∃ g' : HbBuf (F := F) c scM1, ⌜g' = newS c i fs (payOf i x2 x3 x5 x6 x7)⌝ ∗ hbPt c scM1 g') -∗ K ⟨⟩))
      ⊢ wp frame (wpE (defs₀ (F := F)) Variants.none c none) Set.univ (cc1__lstm_layer1_kernel i arg2 harg2 arg3 harg3 arg4 harg4 arg5 harg5 arg6 harg6 arg7 harg7 arg8 harg8 arg9 harg9 (Memref.whole cc1_scratch0) (Memref.isWhole_whole _)) K := by
  unfold ins
  simp only [cc1__lstm_layer1_kernel_eq_skeleton, R0.owns_unread harg2, R0.owns_unread harg3, R0.owns_unread harg4, R0.owns_unread harg5, R0.owns_unread harg6, R0.owns_unread harg7]; unfold cc1__lstm_layer1_kernel_skel
  iintro ⟨⟨H2, H3, H4, H5, H6, H7⟩, H10, Hk⟩
  sl_exec (disch := first | sl_exact hc)
  sl_step
  sl_unfold_words
  iapply Hk
  iframe H2 H3 H4 H5 H6 H7
  iexists _; isplitr
  swap; · iexact H10
  ipureintro
  unfold newS payOf
  simp only [View.readAt_eq_ld, Memref.IsWhole.read_unread, View.ld_unit_zero (S := S2x1x2048) hz3, View.ld_unit_zero (S := S1x1x2048) hz3, View.ld_unit_zero (S := S1x1024x4096) hz3, View.ld_unit_zero (S := S1x1024x2048) hz3]
  rfl

/-- At a direction's last row block it also reads the finished row of 8192 gates and writes the new hidden and cell rows. -/
theorem runB (hc : k1_cond1 i = 1#1) (K : PUnit → sProp 𝕄) :
    iprop(ins c arg2 arg3 arg4 arg5 arg6 arg7 x2 x3 x4 x5 x6 x7 ∗ (∃ d, owns (c : Thread nD τ) arg8 fullShare d) ∗ (∃ d, owns (c : Thread nD τ) arg9 fullShare d) ∗ hbPt c scM1 fs
        ∗ (iprop(ins c arg2 arg3 arg4 arg5 arg6 arg7 x2 x3 x4 x5 x6 x7 ∗ ∃ g' : HbBuf (F := F) c scM1, hbPt c scM1 g' ∗ ⌜g' = newS c i fs (payOf i x2 x3 x5 x6 x7)⌝
            ∗ owns (c : Thread nD τ) arg8 fullShare (k1_pay4 (rowB c i hc g') x4) ∗ owns (c : Thread nD τ) arg9 fullShare (k1_pay5 (rowB c i hc g') x4)) -∗ K ⟨⟩))
      ⊢ wp frame (wpE (defs₀ (F := F)) Variants.none c none) Set.univ (cc1__lstm_layer1_kernel i arg2 harg2 arg3 harg3 arg4 harg4 arg5 harg5 arg6 harg6 arg7 harg7 arg8 harg8 arg9 harg9 (Memref.whole cc1_scratch0) (Memref.isWhole_whole _)) K := by
  unfold ins
  simp only [cc1__lstm_layer1_kernel_eq_skeleton, R0.owns_unread harg2, R0.owns_unread harg3, R0.owns_unread harg4, R0.owns_unread harg5, R0.owns_unread harg6, R0.owns_unread harg7]; unfold cc1__lstm_layer1_kernel_skel
  unfold owns
  iintro ⟨⟨H2, H3, H4, H5, H6, H7⟩, ⟨%d8, %f8, -, H8⟩, ⟨%d9, %f9, -, H9⟩, H10, Hk⟩
  sl_exec (disch := first | sl_exact hc)
  sl_step
  sl_unfold_words
  iapply Hk
  iframe H2 H3 H4 H5 H6 H7
  iexists _
  iframe H10
  isplitr
  · ipureintro
    unfold newS payOf
    simp only [View.readAt_eq_ld, Memref.IsWhole.read_unread, View.ld_unit_zero (S := S2x1x2048) hz3, View.ld_unit_zero (S := S1x1x2048) hz3, View.ld_unit_zero (S := S1x1024x4096) hz3, View.ld_unit_zero (S := S1x1024x2048) hz3]
    rfl
  isplitl [H8]
  · iexists _; isplitr
    swap; · iexact H8
    ipureintro
    rw [View.read_writes_eq_canon _ _ _ (cover8 _), View.canon_unit_zero hz3]
    unfold rowB
    simp only [View.readAt_eq_ld, Memref.IsWhole.read_unread, View.ld_unit_zero (S := S1x1x2048) hz3]
    rfl
  iexists _; isplitr
  swap; · iexact H9
  ipureintro
  rw [View.read_writes_eq_canon _ _ _ (cover8 _), View.canon_unit_zero hz3]
  unfold rowB
  simp only [View.readAt_eq_ld, Memref.IsWhole.read_unread, View.ld_unit_zero (S := S1x1x2048) hz3]
  rfl

end Body

section Region
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def gblk1 (c : Dev nD) (t : Fin cfg1.N) : FVec F S1x1024 .f32 :=
  k1_pay1 (iblk1 V c 0 t)
    (View.ld (iblk1 V c 5 t) (Rect.unit (s := S1x1x8192) (k1_off1 (grid1.coords t)) S1x1x1024.size (k1_off1_inb (grid1.coords t))))
    (iblk1 V c 3 t) (iblk1 V c 1 t) (iblk1 V c 4 t)

def grow1 (c : Dev nD) (t : Fin cfg1.N) : Vec F S1x1x8192 .f32 :=
  fun y => gblk1 V c (ptOf t (y 2)) (ix2 (0 : Fin 1) ⟨(y 2).val % 1024, Nat.mod_lt _ (by decide)⟩)

def hOut1 (c : Dev nD) (t : Fin cfg1.N) : FVec F S1x1x2048 .f32 := k1_pay4 (grow1 V c t) (iblk1 V c 2 t)
def cOut1 (c : Dev nD) (t : Fin cfg1.N) : FVec F S1x1x2048 .f32 := k1_pay5 (grow1 V c t) (iblk1 V c 2 t)

def Inv1 (c : Dev nD) (n : ℕ) (g : HbBuf (F := F) c scM1) : Prop :=
  ∀ t' : Fin cfg1.N, t'.val < n → ∀ q : Fin 1024,
    scM1.view.read (Elt F) g (ix3 (dOf t') (0 : Fin 1) (colOf t' q)) = gblk1 V c t' (ix2 (0 : Fin 1) q)

/-- The invariant before position `n`: the gate array holds every earlier point's block. -/
def Phi1 (c : Dev nD) (n : ℕ) : sProp 𝕄 :=
  iprop((∃ r, prngReg c r) ∗ ∃ g : HbBuf (F := F) c scM1, hbPt c scM1 g ∗ ⌜Inv1 V c n g⌝
    ∗ ((∃ f : HbBuf (F := F) c scM1, hbPt c scM1 f) -∗ Pipeline.scopedRest spec1 c))

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => hOut1 V c t
    | ⟨7, _⟩ => cOut1 V c t
  Φ t := Phi1 V c t.val
  q _ := fullShare
  owed _ := 0

theorem A_eq1 (c : Dev nD) (w : Fin cfg1.W) : (dat1 V c).A w = V c (Pipeline.arrRef spec1 w) := by
  dsimp only [dat1]

theorem after1_6 (c : Dev nD) (t : Fin cfg1.N) : (dat1 V c).after 6 t = hOut1 V c t := by dsimp only [dat1]
theorem after1_7 (c : Dev nD) (t : Fin cfg1.N) : (dat1 V c).after 7 t = cOut1 V c t := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4 (c : Dev nD) (t : Fin cfg1.N) (d) : (dat1 V c).before 4 t d = iblk1 V c 4 t :=
  (dat1 V c).before_in_eq_fetched 4 rfl (fun _ => rfl) (fun _ _ _ => rfl) (fun _ => rfl) t d
theorem before1_5 (c : Dev nD) (t : Fin cfg1.N) (d) : (dat1 V c).before 5 t d = iblk1 V c 5 t :=
  (dat1 V c).before_in_eq_fetched 5 rfl (fun _ => rfl) (fun _ _ _ => rfl) (fun _ => rfl) t d

theorem inv_step (c : Dev nD) (t : Fin cfg1.N) (g : HbBuf (F := F) c scM1) (pay : FVec F S1x1024 .f32) (hpay : pay = gblk1 V c t)
    (h : Inv1 V c t.val g) : Inv1 V c (t.val + 1) (newS c (grid1.coords t) g pay) := by
  intro t' ht' q
  unfold newS
  by_cases hd : dOf t' = dOf t
  · by_cases he : t' = t
    · subst he
      rw [RowSlots.read_write_own_hit (Val := Elt F) (G := 2) (N := 8192) scM1 (dOf t') (k1_off2 (grid1.coords t')) (off2_pt t')
        (k1_off2_inb _) (fun _ => rfl) squeezes_S1x1x8192_S1x8192
        (Rect.unit (s := S1x8192) (k1_off3 (grid1.coords t')) S1x1024.size (k1_off3_inb _)) g pay (ix2 (0 : Fin 1) q) (colOf t' q)
        (emb_band _ _ (off3_pt t') _ q (colOf t' q) rfl), hpay]
    · have hv : t'.val ≠ t.val := fun e => he (Fin.ext e)
      have hdv : t'.val / 8 = t.val / 8 := congrArg Fin.val hd
      rw [hd, RowSlots.read_write_own_miss (Val := Elt F) (G := 2) (N := 8192) scM1 (dOf t) (k1_off2 (grid1.coords t)) (off2_pt t)
        (k1_off2_inb _) (fun _ => rfl) squeezes_S1x1x8192_S1x8192
        (Rect.unit (s := S1x8192) (k1_off3 (grid1.coords t)) S1x1024.size (k1_off3_inb _)) g pay Finset.univ (colOf t' q)
        (not_mem_band _ (t.val % 8) (t'.val % 8) (off3_pt t) _ q (colOf t' q) rfl (by omega)), ← hd]
      exact h t' (by omega) q
  · have hv : t'.val ≠ t.val := fun e => hd (by rw [Fin.ext e])
    rw [RowSlots.read_write_other_slot (Val := Elt F) (G := 2) (N := 8192) scM1 (dOf t') (dOf t) hd (k1_off2 (grid1.coords t)) (off2_pt t)
      (k1_off2_inb _) (fun _ => rfl) squeezes_S1x1x8192_S1x8192
      (Rect.unit (s := S1x8192) (k1_off3 (grid1.coords t)) S1x1024.size (k1_off3_inb _)) g pay Finset.univ (colOf t' q)]
    exact h t' (by omega) q

theorem row_eq (c : Dev nD) (t : Fin cfg1.N) (hc : k1_cond1 (grid1.coords t) = 1#1) (g' : HbBuf (F := F) c scM1)
    (h : Inv1 V c (t.val + 1) g') : rowB c (grid1.coords t) hc g' = grow1 V c t := by
  have h7 : t.val % 8 = 7 := (hcond1 t).mp hc
  have hN : t.val < 16 := lt_of_lt_of_eq t.isLt N1
  funext y
  unfold rowB grow1
  show scM1.view.read (Elt F) g' ((Rect.unit (s := S2x1x8192) (k1_off4 (grid1.coords t)) S1x1x8192.size (k1_off4_inb _ hc)).emb y) = _
  rw [emb_row _ (dOf t) (off4_pt t) _ y]
  have hj : (y 2).val < 8192 := (y 2).isLt
  have hI := h (ptOf t (y 2)) (by show 8 * (t.val / 8) + (y 2).val / 1024 < t.val + 1; omega) ⟨(y 2).val % 1024, Nat.mod_lt _ (by decide)⟩
  have e1 : dOf (ptOf t (y 2)) = dOf t := Fin.ext (by show (8 * (t.val / 8) + (y 2).val / 1024) / 8 = t.val / 8; omega)
  have e2 : colOf (ptOf t (y 2)) ⟨(y 2).val % 1024, Nat.mod_lt _ (by decide)⟩ = y 2 :=
    Fin.ext (by show 1024 * ((8 * (t.val / 8) + (y 2).val / 1024) % 8) + (y 2).val % 1024 = (y 2).val; omega)
  rw [e1, e2] at hI
  exact hI

theorem idleAt1_6 : ∀ t : Fin cfg1.N, ¬ k1_cond1 (grid1.coords t) = 1#1 → cfg1.idle 6 (grid1.coords t) = true := by decide +kernel
theorem idleAt1_7 : ∀ t : Fin cfg1.N, ¬ k1_cond1 (grid1.coords t) = 1#1 → cfg1.idle 7 (grid1.coords t) = true := by decide +kernel
theorem noFlush1_6 (t : Fin cfg1.N) (h : ¬ t.val % 8 = 7) : (cfg1.win 6).flush t = false :=
  Bool.eq_false_iff.mpr fun hf => h ((flush1_6 t).mp hf)
theorem noFlush1_7 (t : Fin cfg1.N) (h : ¬ t.val % 8 = 7) : (cfg1.win 7).flush t = false :=
  Bool.eq_false_iff.mpr fun hf => h ((flush1_7 t).mp hf)
theorem liveAt1_6 : ∀ t : Fin cfg1.N, k1_cond1 (grid1.coords t) = 1#1 → cfg1.idle 6 (grid1.coords t) = false := by decide +kernel
theorem liveAt1_7 : ∀ t : Fin cfg1.N, k1_cond1 (grid1.coords t) = 1#1 → cfg1.idle 7 (grid1.coords t) = false := by decide +kernel

def bodyPre1 (c : Dev nD) (t : Fin cfg1.N) : sProp 𝕄 :=
  iprop(Phi1 V c t.val ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop(Phi1 V c (t.val + 1) ∗ (dat1 V c).owesAt () t.castSucc
    ∗ owns (c : Thread nD τ) (st1_0 t) fullShare (iblk1 V c 0 t)
    ∗ owns (c : Thread nD τ) (st1_1 t) fullShare (iblk1 V c 1 t)
    ∗ owns (c : Thread nD τ) (st1_2 t) fullShare (iblk1 V c 2 t)
    ∗ owns (c : Thread nD τ) (st1_3 t) fullShare (iblk1 V c 3 t)
    ∗ owns (c : Thread nD τ) (st1_4 t) fullShare (iblk1 V c 4 t)
    ∗ owns (c : Thread nD τ) (st1_5 t) fullShare (iblk1 V c 5 t)
    ∗ (dat1 V c).leavesExact 6 t ∗ (dat1 V c).leavesExact 7 t)

/-- The body adds its block to the gate array; at a direction's last row block the row read back is the finished gate row. -/
theorem body_obligation1 (c : Dev nD) : BodyObligation (dat1 (F := F) V c) (defs₀ (F := F)) Variants.none () Set.univ := fun t => by
  rw [bigSep_W1, bigSep_W1]
  show bodyPre1 V c t ⊢ wp frame (wpE (defs₀ (F := F)) Variants.none c none) Set.univ (bodyAt1 t) (fun _ => bodyPost1 V c t)
  unfold bodyPre1 bodyPost1 bodyAt1 Phi1
  simp only [before1_0, before1_1, before1_2, before1_3, before1_4, before1_5]
  iintro ⟨⟨Hp, %g, HS, %hInv, Hw⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hInv' := inv_step V c t g _ rfl hInv
  by_cases hc : k1_cond1 (grid1.coords t) = 1#1
  · rewrite [show (dat1 V c).leavesExact 6 t = owns (c : Thread nD τ) (st1_6 t) fullShare (hOut1 V c t) from by
      unfold Dat.leavesExact; rw [liveAt1_6 t hc, after1_6]]
    rewrite [show (dat1 V c).leavesExact 7 t = owns (c : Thread nD τ) (st1_7 t) fullShare (cOut1 V c t) from by
      unfold Dat.leavesExact; rw [liveAt1_7 t hc, after1_7]]
    iapply (runB c (grid1.coords t) _ _ _ _ _ _ _ _ _ _ _ _ _ _ _ _ (iblk1 V c 0 t) (iblk1 V c 1 t) (iblk1 V c 2 t) (iblk1 V c 3 t) (iblk1 V c 4 t) (iblk1 V c 5 t) g hc _)
    unfold ins
    iframe H0 H1 H2 H3 H4 H5 HS
    isplitl [H6]; · iexists _; iexact H6
    isplitl [H7]; · iexists _; iexact H7
    iintro ⟨⟨H0, H1, H2, H3, H4, H5⟩, %g', HS', %hg', H6, H7⟩
    subst hg'
    unfold hOut1 cOut1; rw [← row_eq V c t hc _ hInv']
    iframe Hp Ho H0 H1 H2 H3 H4 H5
    isplitr [H6 H7]
    · iexists _; iframe HS' Hw
      ipureintro; exact hInv'
    isplitl [H6]; · iexact H6
    iexact H7
  · have h7 : ¬ t.val % 8 = 7 := fun h => hc ((hcond1 t).mpr h)
    rewrite [Dat.leavesExact_idle (dat1 V c) 6 t (idleAt1_6 t hc) (noFlush1_6 t h7), Dat.leavesExact_idle (dat1 V c) 7 t (idleAt1_7 t hc) (noFlush1_7 t h7)]
    iapply (runA c (grid1.coords t) _ _ _ _ _ _ _ _ _ _ _ _ _ _ _ _ (iblk1 V c 0 t) (iblk1 V c 1 t) (iblk1 V c 2 t) (iblk1 V c 3 t) (iblk1 V c 4 t) (iblk1 V c 5 t) g hc _)
    unfold ins
    iframe H0 H1 H2 H3 H4 H5 HS
    iintro ⟨⟨H0, H1, H2, H3, H4, H5⟩, %g', %hg', HS'⟩
    subst hg'
    iframe Hp Ho H0 H1 H2 H3 H4 H5
    isplitr [H6 H7]
    · iexists _; iframe HS' Hw
      ipureintro; exact hInv'
    isplitl [H6]; · iexists _; iexact H6
    iexists _; iexact H7

/-- Before the first point nothing is asked of the gate array. -/
theorem hin1 (c : Dev nD) : Pipeline.ΦA spec1 c ⊢ (dat1 V c).Φ 0 := by
  rewrite [show (dat1 V c).Φ 0 = Phi1 V c 0 from rfl]
  unfold Pipeline.ΦA Phi1
  rewrite [scopedRest1_eq]
  iintro ⟨⟨H1, H2, H3, H4, H5, H6, H7, H8, H9, H10, H11, H12, H13, H14, H15, H16, ⟨%g, HS⟩⟩, Hp⟩
  iframe Hp
  iexists g
  iframe HS
  isplitr; · ipureintro; exact fun t' ht => absurd ht (Nat.not_lt_zero _)
  iintro HS
  iframe

/-- After the last point the gate array's contents are forgotten. -/
theorem hout1 (c : Dev nD) : (dat1 V c).Φ (Fin.last cfg1.N) ⊢ Pipeline.ΦA spec1 c := by
  rewrite [show (dat1 V c).Φ (Fin.last cfg1.N) = Phi1 V c (Fin.last cfg1.N).val from rfl]
  unfold Pipeline.ΦA Phi1
  iintro ⟨Hp, %g, HS, -, Hw⟩
  iframe Hp
  iapply Hw
  iexists g; iexact HS

end Region

end Cert.KernelIdeal.R1

end
-- ==== Proof.RunDefs.lean ====
import proofs.«429347_j5763846111973_3_alg».proof.Proof.R0
import proofs.«429347_j5763846111973_3_alg».proof.Proof.R1
import Idealize.ShloMosaic.Lib.Pipeline.FrameSuffix

noncomputable section

namespace Cert.KernelIdeal.Run

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ) (ρ : Dev nD → PrngReg)

/-- The buffers' contents at each boundary of the program, as a fold from the launch memory. -/
abbrev W0 : Dev nD → Valuation τ sig (Elt F) := fun c b => (s₀ m ρ).mem ((c : Dev nD), b)

abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)

abbrev V3 : (c : Dev nD) → (b : Ref sig .tc) → Buf (Elt F) ((c : Thread nD τ).loc b) := fun c b => W3 m ρ c b

variable (hOk : R0.Ok0 (V3 m ρ))

/-- The buffers after the first call: its arrays at their final contents, every other buffer as before it. -/
def W4 (c : Dev nD) : Valuation τ sig (Elt F) :=
  Pipeline.withArrays spec0 c (W3 m ρ c) fun w => (R0.dat0 (V3 m ρ) hOk c).arrAt w (R0.cfgM (V3 m ρ)).N
theorem W4_arr (c : Dev nD) (w : Fin (R0.cfgM (V3 m ρ)).W) :
    W4 m ρ hOk c (Proc.devRef .tc (Pipeline.arrRef spec0 w)) = (R0.dat0 (V3 m ρ) hOk c).arrAt w (R0.cfgM (V3 m ρ)).N := by
  unfold W4; exact Pipeline.withArrays_arr spec0 winFacts0.arr_inj c _ _ w
theorem W4_of_ne (c : Dev nD) (b : Ref sig .tc) (hb : ∀ w, Pipeline.arrRef spec0 w ≠ b) :
    W4 m ρ hOk c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ hOk c b
theorem hF0 (c : Dev nD) (w : Fin (R0.cfgM (V3 m ρ)).W) : (R0.dat0 (V3 m ρ) hOk c).arrAt w (R0.cfgM (V3 m ρ)).N = V4 m ρ hOk c (Pipeline.arrRef spec0 w) :=
  (W4_arr m ρ hOk c w).symm
theorem hrest0 (c : Dev nD) : ∀ b, b ∉ Finset.univ.image (Pipeline.arrRef spec0) → V4 m ρ hOk c b = V3 m ρ c b :=
  fun b hb => W4_of_ne m ρ hOk c b fun w e => hb (Finset.mem_image.mpr ⟨w, Finset.mem_univ _, e⟩)

abbrev W5 : Dev nD → Valuation τ sig (Elt F) := fun c => StableHlo.after hostOps1 (W4 m ρ hOk c)
abbrev V5 : (c : Dev nD) → (b : Ref sig .tc) → Buf (Elt F) ((c : Thread nD τ).loc b) := fun c b => W5 m ρ hOk c b

/-- The same after the second call. -/
def W6 (c : Dev nD) : Valuation τ sig (Elt F) :=
  Pipeline.withArrays spec1 c (W5 m ρ hOk c) fun w => (R1.dat1 (V5 m ρ hOk) c).arrAt w cfg1.N
theorem W6_arr (c : Dev nD) (w : Fin cfg1.W) :
    W6 m ρ hOk c (Proc.devRef .tc (Pipeline.arrRef spec1 w)) = (R1.dat1 (V5 m ρ hOk) c).arrAt w cfg1.N := by
  unfold W6; exact Pipeline.withArrays_arr spec1 winFacts1.arr_inj c _ _ w
theorem W6_of_ne (c : Dev nD) (b : Ref sig .tc) (hb : ∀ w, Pipeline.arrRef spec1 w ≠ b) :
    W6 m ρ hOk c (Proc.devRef .tc b) = W5 m ρ hOk c (Proc.devRef .tc b) := by
  unfold W6; exact Pipeline.withArrays_of_ne spec1 c _ _ b hb
abbrev V6 : (c : Dev nD) → (b : Ref sig .tc) → Buf (Elt F) ((c : Thread nD τ).loc b) := fun c b => W6 m ρ hOk c b
theorem hF1 (c : Dev nD) (w : Fin cfg1.W) : (R1.dat1 (V5 m ρ hOk) c).arrAt w cfg1.N = V6 m ρ hOk c (Pipeline.arrRef spec1 w) :=
  (W6_arr m ρ hOk c w).symm
theorem hrest1 (c : Dev nD) : ∀ b, b ∉ Finset.univ.image (Pipeline.arrRef spec1) → V6 m ρ hOk c b = V5 m ρ hOk c b :=
  fun b hb => W6_of_ne m ρ hOk c b fun w e => hb (Finset.mem_image.mpr ⟨w, Finset.mem_univ _, e⟩)

abbrev W7 : Dev nD → Valuation τ sig (Elt F) := fun c => StableHlo.after hostOps2 (W6 m ρ hOk c)

end Cert.KernelIdeal.Run

end
-- ==== Proof.Run.lean ====
import proofs.«429347_j5763846111973_3_alg».proof.Proof.R0Ob
import proofs.«429347_j5763846111973_3_alg».proof.Proof.R1
import proofs.«429347_j5763846111973_3_alg».proof.Proof.RunDefs
import proofs.«429347_j5763846111973_3_alg».proof.Proof.Gen.KernelIdeal.Regions

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
variable (hOk : R0.Ok0 (V3 m ρ))

def adm : (p : Fin 2) → (pcfgs (F := F) p).Adm
  | ⟨0, _⟩ => R0.adm0 (V3 m ρ)
  | ⟨1, _⟩ => cfg1.toPCfg_adm

def pdats : (p : Fin 2) → (c : Dev nD) → Dat τ (Elt F) Unit ℕ (Pipeline.UD sig nD τ) ℕ (Pipeline.pin (pcfgs (F := F)) (adm m ρ) p) c
  | ⟨0, _⟩ => fun c => R0.dat0 (V3 m ρ) hOk c
  | ⟨1, _⟩ => fun c => R1.dat1 (V5 m ρ hOk) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
abbrev Tₙ (c : Dev nD) : sProp 𝕄 := iprop(StableHlo.held (c : Thread nD τ) (Pipeline.ucRefs τ sig) (W7 m ρ hOk c) ∗ ∃ r, prngReg c r)

def H0 : Finset (Ref sig .tc) := {main_arg3, main_v0}
theorem H0_sub : H0 ⊆ Pipeline.restRefs sig spec0 := by decide
theorem hbmPts0_eq (c : Dev nD) :
    (bigSep H0 (fun b => ((c : Thread nD τ).loc b) ↦{fullShare} V3 m ρ c b) : sProp 𝕄)
      = iprop(R0.hbPt c R0.embM (V3 m ρ c main_arg3) ∗ R0.hbPt c R0.tbM (V3 m ρ c main_v0)) := by
  rw [BI.bigSep_eq_bigSepL_of_eq [main_arg3, main_v0] (by decide) (by decide)]; rfl
theorem prefHeld0_eq (c : Dev nD) :
    (Pipeline.prefHeld (Ix := Unit) (Name := ℕ) (U := Pipeline.UD sig nD τ) (Lvl := ℕ) pre0 c (fun _ => fullShare) (R0.tbl (V3 m ρ)) : sProp 𝕄)
      = R0.hbPt c R0.tbM (V3 m ρ c main_v0) := by
  unfold Pipeline.prefHeld
  rw [show (Finset.univ : Finset (Fin 1)) = {(0 : Fin 1)} from by decide, bigSep_singleton]
  obtain rfl : c = 0 := Subsingleton.elim _ _
  rfl
theorem unscopedRest0_split (c : Dev nD) :
    (Pipeline.unscopedRest (Ix := Unit) (Name := ℕ) (U := Pipeline.UD sig nD τ) (Lvl := ℕ) spec0 c (V3 m ρ c) : sProp 𝕄)
      = iprop((bigSep H0 fun b => (((c : Thread nD τ)).loc b) ↦{fullShare} V3 m ρ c b) ∗ (bigSep (Pipeline.restRefs sig spec0 \ H0) fun b => (((c : Thread nD τ)).loc b) ↦{fullShare} V3 m ρ c b)) := by
  unfold Pipeline.unscopedRest; exact BI.bigSep_sdiff_split H0_sub

set_option backward.isDefEq.respectTransparency.types false in
/-- The first call, entered with every unscoped buffer at `W3` and left with them at `W4`. -/
def reg0 : Pipeline.RegionSeg (pcfgs (F := F)) (adm m ρ) (pdats m ρ hOk) () defs₀ 𝒱₀ L lv 0 where
  win := winFacts0.to₀
  block_pos := block_pos0
  stage_whole := stage_whole0
  K := Fin 1
  osem := R0.osem0
  ho := R0.ownSemFacts0
  hbody c := (R0.body_obligation0 (V3 m ρ) hOk c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ hOk c) ∗ R c)
  X c := iprop((∃ r, prngReg c r) ∗ Pipeline.ownSems0 (Ix := Unit) (Name := ℕ) (U := Pipeline.UD sig nD τ) (Lvl := ℕ) (Val := Elt F) (τ := τ) R0.osem0 c ∗ R0.hbPt c R0.embM (V3 m ρ c main_arg3))
  Y c := iprop((∃ r, prngReg c r) ∗ R0.hbPt c R0.embM (V3 m ρ c main_arg3) ∗ R0.hbPt c R0.tbM (V3 m ρ c main_v0))
  Z c := bigSep (Pipeline.restRefs sig spec0 \ H0) fun b => (((c : Thread nD τ)).loc b) ↦{fullShare} V3 m ρ c b
  hentry c := by
    have hsplit := Pipeline.arrays_of_unscopedBufs (p := 0) (pcfgs (F := F)) (adm m ρ) (pdats m ρ hOk) winFacts0 arr_whole0 c
      ((pdats m ρ hOk 0 c).share_full fun _ => rfl) (V3 m ρ c) fun _ => rfl
    rw [Pipeline.unscopedBufs_held] at hsplit
    iintro ⟨⟨Hub, Hp, HO⟩, Hos, -⟩
    ihave H := hsplit $$ Hub
    icases H with ⟨Ha, Hrest⟩
    ihave H' := (Entails.of_eq (unscopedRest0_split m ρ c)) $$ Hrest
    icases H' with ⟨HH, HR⟩
    ihave H'' := (Entails.of_eq (hbmPts0_eq m ρ c)) $$ HH
    icases H'' with ⟨He, Ht⟩
    imodintro
    iframe Ha Hp Hos He HR
    isplitl [Ht]
    · iapply (Entails.of_eq (prefHeld0_eq m ρ c).symm); iexact Ht
    unfold Pipeline.Dat.owesAt Pipeline.owesWithin
    icases HO with ⟨%W, HO⟩; iexists W; isplitr; · ipureintro; exact fun _ _ => Or.inl trivial
    iexact HO
  hin c := by
    rw [show (pdats m ρ hOk 0 c).Φ 0 = R0.Phi0 (V3 m ρ) hOk c 0 from rfl]
    exact R0.hin0 (V3 m ρ) hOk c
  hout c := by
    rw [show (pdats m ρ hOk 0 c).Φ (Fin.last _) = R0.Phi0 (V3 m ρ) hOk c (R0.cfgM (V3 m ρ)).N from rfl]
    exact R0.hout0 (V3 m ρ) hOk c
  hexit c := by
    have hjoin := Pipeline.unscopedBufs_of_arrays (p := 0) (pcfgs (F := F)) (adm m ρ) (Ix := Unit) (Name := ℕ) (U := Pipeline.UD sig nD τ) (Lvl := ℕ)
      winFacts0 arr_whole0 c (pdats m ρ hOk) ((pdats m ρ hOk 0 c).share_full fun _ => rfl)
      (V3 m ρ c) (V4 m ρ hOk c) ((pdats m ρ hOk 0 c).arrAt · (R0.cfgM (V3 m ρ)).N) (hF0 m ρ hOk c) (hrest0 m ρ hOk c)
    rw [Pipeline.unscopedBufs_held] at hjoin
    iintro ⟨Ha, HO, ⟨HY, He, Ht⟩, HR⟩
    ihave HH := (Entails.of_eq (hbmPts0_eq m ρ c).symm) $$ [He Ht]
    · iframe He Ht
    ihave Hrest := (Entails.of_eq (unscopedRest0_split m ρ c).symm) $$ [HH HR]
    · iframe HH HR
    imodintro
    isplitl [Ha Hrest]
    · iapply hjoin; iframe Ha Hrest
    isplitl [HY]; · iexact HY
    unfold Pipeline.Dat.owesAt Pipeline.owesWithin
    icases HO with ⟨%W, -, HO⟩; iexists W; iexact HO

set_option backward.isDefEq.respectTransparency.types false in
/-- The second call, from `W5` to `W6`. -/
def reg1 : Pipeline.RegionSeg (pcfgs (F := F)) (adm m ρ) (pdats m ρ hOk) () defs₀ 𝒱₀ L lv 1 where
  win := winFacts1.to₀
  block_pos := block_pos1
  stage_whole := stage_whole1
  K := PEmpty
  osem k := k.elim
  ho := Pipeline.OwnSemFacts.none _
  hbody c := (R1.body_obligation1 (V5 m ρ hOk) c).loose
  hwaits := Pipeline.hwaits_of_owed_zero _ _ _ _ L lv 1 fun _ _ => rfl
  pre c := iprop(StableHlo.held (c : Thread nD τ) (Pipeline.ucRefs τ sig) (W5 m ρ hOk c) ∗ R c)
  post c := iprop(StableHlo.held (c : Thread nD τ) (Pipeline.ucRefs τ sig) (W6 m ρ hOk c) ∗ R c)
  X c := iprop(∃ r, prngReg c r)
  Y c := iprop(∃ r, prngReg c r)
  Z c := Pipeline.unscopedRest (Ix := Unit) (Name := ℕ) (U := Pipeline.UD sig nD τ) (Lvl := ℕ) spec1 c (V5 m ρ hOk c)
  hentry c := by
    rw [Pipeline.ownSems0_none]
    have hsplit := Pipeline.arrays_of_unscopedBufs (p := 1) (pcfgs (F := F)) (adm m ρ) (pdats m ρ hOk) winFacts1 arr_whole1 c
      ((pdats m ρ hOk 1 c).share_full fun _ => rfl) (V5 m ρ hOk c) fun _ => rfl
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr; · ipureintro; exact fun _ _ => Or.inl trivial
    iexact HO
  hin c := by
    rw [show (pdats m ρ hOk 1 c).Φ 0 = (R1.dat1 (V5 m ρ hOk) c).Φ 0 from rfl]
    refine BIBase.Entails.trans ?_ (R1.hin1 (V5 m ρ hOk) c)
    unfold Pipeline.ΦA
    iintro ⟨Hp, -, Hr⟩
    iframe Hr Hp
  hout c := by
    rw [Pipeline.ownSems0_none, show (pdats m ρ hOk 1 c).Φ (Fin.last _) = (R1.dat1 (V5 m ρ hOk) c).Φ (Fin.last cfg1.N) from rfl]
    refine BIBase.Entails.trans (R1.hout1 (V5 m ρ hOk) c) ?_
    unfold Pipeline.ΦA
    iintro ⟨Hr, Hp⟩
    iframe Hp Hr
    iempintro
  hexit c := by
    have hjoin := Pipeline.unscopedBufs_of_arrays (p := 1) (pcfgs (F := F)) (adm m ρ) (Ix := Unit) (Name := ℕ) (U := Pipeline.UD sig nD τ) (Lvl := ℕ)
      winFacts1 arr_whole1 c (pdats m ρ hOk) ((pdats m ρ hOk 1 c).share_full fun _ => rfl)
      (V5 m ρ hOk c) (V6 m ρ hOk c) ((pdats m ρ hOk 1 c).arrAt · cfg1.N) (hF1 m ρ hOk c) (hrest1 m ρ hOk c)
    rw [Pipeline.unscopedBufs_held] at hjoin
    iintro ⟨Ha, HO, HY, Hrest⟩
    imodintro
    isplitl [Ha Hrest]
    · iapply hjoin; iframe Ha Hrest
    isplitl [HY]; · iexact HY
    unfold Pipeline.Dat.owesAt Pipeline.owesWithin
    icases HO with ⟨%W, -, HO⟩; iexists W; iexact HO

abbrev segs : List (Pipeline.Seg (pcfgs (F := F)) (adm m ρ) (pdats m ρ hOk) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ hOk),
    .host (hseg hostOps1 hostOps1_sub hostOps1_fresh (W4 m ρ hOk)),
    .region (reg1 m ρ hOk),
    .host (hseg hostOps2 hostOps2_sub hostOps2_fresh (W6 m ρ hOk)) ]

theorem main_run (c : Dev nD) : main (F := F) c = Pipeline.Seg.run (segs m ρ hOk) := by
  rw [main_chain c, Pipeline.Seg.run_eq_chain]
  rfl

set_option backward.isDefEq.respectTransparency.types false in
/-- Every weakly fair execution of the program ends, nothing faulting, with every unscoped buffer at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ hOk c b) :=
  Pipeline.θ_run_regions_kit (pcfgs (F := F)) (adm m ρ) (pdats m ρ hOk) () (cellOf_inj (adm m ρ)) embL defs₀ 𝒱₀ L lv m ρ main (segs m ρ hOk)
    (fun c Q => by rw [main_run m ρ hOk c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) (adm m ρ)) (cellOf_inj (adm m ρ))) (Pipeline.launchToks (Pipeline.pin (pcfgs (F := F)) (adm m ρ)) (cellOf_inj (adm m ρ))), 1))
    (hu₀ := by
      iintro Hu
      ihave H := (ownU_pair _ _) $$ Hu
      icases H with ⟨HP, -⟩
      imodintro
      iframe HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ hOk)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ hOk c) ∗ R c) ⊢ iprop(Tₙ m ρ hOk c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      iframe Hh
      isplitl [Hp]; · iexists _; iexact Hp
      iexists ∅; iexact HO)
    (QY := fun c s => ∀ b ∈ Pipeline.ucRefs τ sig, s.mem (((c : Thread nD τ)).1, b) = W7 m ρ hOk c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ hOk c) s')
      isplitl [Hh] <;> iassumption)
    (hQ := fun s h c => h c)

end Cert.KernelIdeal.Run

end
-- ==== Proof.RunArgs.lean ====
import proofs.«429347_j5763846111973_3_alg».proof.Proof.RunDefs
import proofs.«429347_j5763846111973_3_alg».proof.Proof.Gen.KernelIdeal.Regions

noncomputable section

namespace Cert.KernelIdeal.Run

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ) (ρ : Dev nD → PrngReg) (hOk : R0.Ok0 (Cert.KernelIdeal.Run.V3 m ρ))

/-- A buffer that no host operation writes and that both calls leave as entered ends at its launch contents. -/
theorem W7_kept (c : Dev nD) (r : Ref sig .tc)
    (hh : r ∉ hostOps0_W ∧ r ∉ hostOps0_1_W ∧ r ∉ hostOps0_2_W ∧ r ∉ hostOps1_W ∧ r ∉ hostOps2_W)
    (h4 : W4 m ρ hOk c (Proc.devRef .tc r) = W3 m ρ c (Proc.devRef .tc r))
    (h6 : W6 m ρ hOk c (Proc.devRef .tc r) = W5 m ρ hOk c (Proc.devRef .tc r)) :
    W7 m ρ hOk c (Proc.devRef .tc r) = m ((c : Thread nD τ).loc r) :=
  (StableHlo.after_of_writes_sub hostOps2 _ hostOps2_writes hh.2.2.2.2).trans <| h6.trans <|
  (StableHlo.after_of_writes_sub hostOps1 _ hostOps1_writes hh.2.2.2.1).trans <| h4.trans <|
  (StableHlo.after_of_writes_sub hostOps0_2 _ hostOps0_2_writes hh.2.2.1).trans <|
  (StableHlo.after_of_writes_sub hostOps0_1 _ hostOps0_1_writes hh.2.1).trans <|
  StableHlo.after_of_writes_sub hostOps0 _ hostOps0_writes hh.1

theorem mem_uc' (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- No operation of the program writes an argument array, so at the fold's last contents every argument is as launched. -/
theorem args_kept (c : Dev nD) (mem : (ℓ : Loc nD τ sig) → Buf (Elt F) ℓ)
    (h : ∀ b ∈ Pipeline.ucRefs τ sig, mem (((c : Thread nD τ)).1, b) = W7 m ρ hOk c b) :
    mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9)
      ∧ mem ((c.tc : Thread nD τ).loc main_arg10) = m ((c.tc : Thread nD τ).loc main_arg10)
      ∧ mem ((c.tc : Thread nD τ).loc main_arg11) = m ((c.tc : Thread nD τ).loc main_arg11) := by
  have K := fun (r : Ref sig .tc) hu hh h4 h6 => (h _ (mem_uc' r hu)).trans (W7_kept m ρ hOk c r hh h4 h6)
  have N4 := fun (r : Ref sig .tc) hb => W4_of_ne m ρ hOk c r hb
  have N6 := fun (r : Ref sig .tc) hb => W6_of_ne m ρ hOk c r hb
  have I4 := fun w hw => (W4_arr m ρ hOk c w).trans (((R0.dat0 (V3 m ρ) hOk c).arrAt_in w hw _).trans (R0.A_eq0 (V3 m ρ) hOk c w))
  have I6 := fun w hw => (W6_arr m ρ hOk c w).trans (((R1.dat1 (V5 m ρ hOk) c).arrAt_in w hw _).trans (R1.A_eq1 (V5 m ρ hOk) c w))
  exact ⟨K main_arg0 (by decide) (by decide) (N4 _ (by decide)) (N6 _ (by decide)),
    K main_arg1 (by decide) (by decide) (N4 _ (by decide)) (N6 _ (by decide)),
    K main_arg2 (by decide) (by decide) (N4 _ (by decide)) (N6 _ (by decide)),
    K main_arg3 (by decide) (by decide) (N4 _ (by decide)) (N6 _ (by decide)),
    K main_arg4 (by decide) (by decide) (I4 2 rfl) (N6 _ (by decide)),
    K main_arg5 (by decide) (by decide) (I4 3 rfl) (N6 _ (by decide)),
    K main_arg6 (by decide) (by decide) (N4 _ (by decide)) (N6 _ (by decide)),
    K main_arg7 (by decide) (by decide) (N4 _ (by decide)) (N6 _ (by decide)),
    K main_arg8 (by decide) (by decide) (N4 _ (by decide)) (I6 3 rfl),
    K main_arg9 (by decide) (by decide) (N4 _ (by decide)) (I6 4 rfl),
    K main_arg10 (by decide) (by decide) (N4 _ (by decide)) (N6 _ (by decide)),
    K main_arg11 (by decide) (by decide) (N4 _ (by decide)) (N6 _ (by decide))⟩

end Cert.KernelIdeal.Run

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

/-- Column `o + q` of a row of 8192 gate values. -/
abbrev col (o : ℕ) (q : Fin 2048) (h : o + 2048 ≤ 8192 := by decide) : Fin 8192 := ⟨o + q.val, by have := q.isLt; omega⟩

/-- A gate pre-activation at column `j`: `x·Wihᵀ + h·Whhᵀ + (b_ih + b_hh)`. -/
def gate {K1 K2 : ℕ} (x : Fin K1 → EReal) (wih : Fin 8192 → Fin K1 → EReal) (h : Fin K2 → EReal)
    (whh : Fin 8192 → Fin K2 → EReal) (bih bhh : Fin 8192 → EReal) (j : Fin 8192) : EReal :=
  ((∑ k, x k * wih j k) + (∑ k, h k * whh j k)) + (bih j + bhh j)

/-- The new cell state `σ(f)·c + σ(i)·tanh(g)`; the gates are the four quarters i, f, g, o of the row. -/
def cellC (g : Fin 8192 → EReal) (c : Fin 2048 → EReal) (q : Fin 2048) : EReal :=
  Ideal.logistic (g (col 2048 q)) * c q + Ideal.logistic (g (col 0 q)) * Ideal.tanh (g (col 4096 q))

/-- The new hidden state `σ(o)·tanh(c')`. -/
def cellH (g : Fin 8192 → EReal) (c : Fin 2048 → EReal) (q : Fin 2048) : EReal :=
  Ideal.logistic (g (col 6144 q)) * Ideal.tanh (cellC g c q)

/-- Two rows of 2048 side by side. -/
def cat (a b : Fin 2048 → EReal) (k : Fin 4096) : EReal :=
  if h : k.val < 2048 then a ⟨k.val, h⟩ else b ⟨k.val - 2048, by have := k.isLt; omega⟩

structure Args where
  row : Fin 50257
  h0 : Fin 4 → Fin 2048 → EReal
  c0 : Fin 4 → Fin 2048 → EReal
  emb : Fin 50257 → Fin 1024 → EReal
  wih0 : Fin 2 → Fin 8192 → Fin 1024 → EReal
  whh0 : Fin 2 → Fin 8192 → Fin 2048 → EReal
  bih0 : Fin 2 → Fin 8192 → EReal
  bhh0 : Fin 2 → Fin 8192 → EReal
  wih1 : Fin 2 → Fin 8192 → Fin 4096 → EReal
  whh1 : Fin 2 → Fin 8192 → Fin 2048 → EReal
  bih1 : Fin 2 → Fin 8192 → EReal
  bhh1 : Fin 2 → Fin 8192 → EReal

namespace Args
variable (A : Args)

/-- Layer `l`, direction `d` among the four stacked states. -/
abbrev st (l d : Fin 2) : Fin 4 := ⟨2 * l.val + d.val, by have := l.isLt; have := d.isLt; omega⟩

def x0 (k : Fin 1024) : EReal := A.emb A.row k
def g0 (d : Fin 2) (j : Fin 8192) : EReal := gate A.x0 (A.wih0 d) (A.h0 (st 0 d)) (A.whh0 d) (A.bih0 d) (A.bhh0 d) j
def C0 (d : Fin 2) (q : Fin 2048) : EReal := cellC (A.g0 d) (A.c0 (st 0 d)) q
def H0 (d : Fin 2) (q : Fin 2048) : EReal := cellH (A.g0 d) (A.c0 (st 0 d)) q
def x1 (k : Fin 4096) : EReal := cat (A.H0 0) (A.H0 1) k
def g1 (d : Fin 2) (j : Fin 8192) : EReal := gate A.x1 (A.wih1 d) (A.h0 (st 1 d)) (A.whh1 d) (A.bih1 d) (A.bhh1 d) j
def C1 (d : Fin 2) (q : Fin 2048) : EReal := cellC (A.g1 d) (A.c0 (st 1 d)) q
def H1 (d : Fin 2) (q : Fin 2048) : EReal := cellH (A.g1 d) (A.c0 (st 1 d)) q

/-- The results: the last layer's hidden rows side by side, and the four new hidden and cell rows stacked by layer, then direction. -/
def out (k : Fin 4096) : EReal := cat (A.H1 0) (A.H1 1) k
def hn (s : Fin 4) (q : Fin 2048) : EReal := if s.val < 2 then A.H0 ⟨s.val % 2, Nat.mod_lt _ (by decide)⟩ q else A.H1 ⟨s.val % 2, Nat.mod_lt _ (by decide)⟩ q
def cn (s : Fin 4) (q : Fin 2048) : EReal := if s.val < 2 then A.C0 ⟨s.val % 2, Nat.mod_lt _ (by decide)⟩ q else A.C1 ⟨s.val % 2, Nat.mod_lt _ (by decide)⟩ q

end Args

/-- The row an index word selects: its value, capped at the last row. -/
def rowOf (w : BitVec 32) : Fin 50257 := ⟨min w.toNat 50256, by omega⟩

def argsOf (ids : (⟨1, ![1]⟩ : Shape).Idx → BitVec 32)
    (h0 c0 : (⟨3, ![4, 1, 2048]⟩ : Shape).Idx → EReal) (emb : (⟨2, ![50257, 1024]⟩ : Shape).Idx → EReal)
    (wih0 : (⟨3, ![2, 8192, 1024]⟩ : Shape).Idx → EReal) (whh0 : (⟨3, ![2, 8192, 2048]⟩ : Shape).Idx → EReal)
    (bih0 bhh0 : (⟨2, ![2, 8192]⟩ : Shape).Idx → EReal)
    (wih1 : (⟨3, ![2, 8192, 4096]⟩ : Shape).Idx → EReal) (whh1 : (⟨3, ![2, 8192, 2048]⟩ : Shape).Idx → EReal)
    (bih1 bhh1 : (⟨2, ![2, 8192]⟩ : Shape).Idx → EReal) : Args where
  row := rowOf (ids (ix1 0))
  h0 s q := h0 (ix3 s 0 q)
  c0 s q := c0 (ix3 s 0 q)
  emb r k := emb (ix2 r k)
  wih0 d j k := wih0 (ix3 d j k)
  whh0 d j k := whh0 (ix3 d j k)
  bih0 d j := bih0 (ix2 d j)
  bhh0 d j := bhh0 (ix2 d j)
  wih1 d j k := wih1 (ix3 d j k)
  whh1 d j k := whh1 (ix3 d j k)
  bih1 d j := bih1 (ix2 d j)
  bhh1 d j := bhh1 (ix2 d j)

end Cert.Spec

end
-- ==== Proof.PreIds.lean ====
import proofs.«429347_j5763846111973_3_alg».proof.Pre_finite_inputs
import proofs.«429347_j5763846111973_3_alg».proof.Proof.Spec
import Idealize.ShloMosaic.Lib.ReduceAll

noncomputable section

namespace Cert.PreIds

open Idealize.ShloMosaic Idealize.ShloMosaic.ValueIdx
open Cert.Pre_finite_inputs

instance : Subsingleton S_.Idx := ⟨fun a b => funext fun d => d.elim0⟩

/-- The precondition is a conjunction whose last conjunct says every id is at least 0, signed. -/
theorem ids_nonneg {F : FTy → Type} [FloatOps F] [Cert.Pre_finite_inputs.Facts]
    (a0 : IVec S1 32) (a1 a2 : FVec F S4x1x2048 .f32) (a3 : FVec F S50257x1024 .f32)
    (a4 : FVec F S2x8192x1024 .f32) (a5 : FVec F S2x8192x2048 .f32) (a6 a7 : FVec F S2x8192 .f32)
    (a8 : FVec F S2x8192x4096 .f32) (a9 : FVec F S2x8192x2048 .f32) (a10 a11 : FVec F S2x8192 .f32)
    (h : Cert.Pre_finite_inputs.fn (F := F) a0 a1 a2 a3 a4 a5 a6 a7 a8 a9 a10 a11 = (fun _ => 1#1)) :
    (0 : Int) ≤ (a0 (ix1 0)).toInt := by
  have e := congrFun h ix0
  dsimp only [fn, fn_part1, fn_part2, fn_part3] at e
  exact IntOp.cmpi_sge.1 (Host.reduce_andi_all _ _ _ _ _ (IntOp.andi_eq_one.1 e).2 (ix1 0))

/-- A non-negative signed word is its unsigned value, so clamping it into [0, 50256] is the minimum with 50256. -/
theorem clip_vec (lo hi ids : IVec S1 32) (hlo : lo (ix1 0) = 0#32) (hhi : hi (ix1 0) = 50256#32)
    (h : 0 ≤ (ids (ix1 0)).toInt) :
    (minsi hi (maxsi lo ids) (ix1 0)).toNat = (Cert.Spec.rowOf (ids (ix1 0))).val := by
  show (IntOp.minsi (hi (ix1 0)) (IntOp.maxsi (lo (ix1 0)) (ids (ix1 0)))).toNat = min (ids (ix1 0)).toNat 50256
  rw [hlo, hhi]
  generalize ids (ix1 0) = w at h ⊢
  have hl := w.isLt
  have hw : w.toInt = w.toNat := by
    rw [BitVec.toInt_eq_toNat_cond] at h ⊢
    split at h <;> [rw [if_pos ‹_›]; omega]
  have h0 : (0#32 : BitVec 32).toInt = 0 := by decide
  have hc : (50256#32 : BitVec 32).toInt = 50256 := by decide
  rw [show IntOp.maxsi 0#32 w = w from if_neg (by rw [BitVec.slt_iff_toInt_lt, h0]; omega)]
  unfold IntOp.minsi
  split <;> rename_i hc2 <;> rw [BitVec.slt_iff_toInt_lt, hc, hw] at hc2
  · show 50256 = _; omega
  · omega

end Cert.PreIds

end
-- ==== Proof.HostVal.lean ====
import proofs.«429347_j5763846111973_3_alg».proof.Proof.Gen.KernelIdeal.Launch
import proofs.«429347_j5763846111973_3_alg».proof.Proof.Spec
import proofs.«429347_j5763846111973_3_alg».proof.Proof.PreIds
import Idealize.ShloMosaic.Lib.StableHlo.Run

noncomputable section

namespace Cert.KernelIdeal.HostVal

open Cert.KernelIdeal Cert.KernelIdeal.Gen Idealize.ShloMosaic Idealize.ShloMosaic.ValueIdx Idealize.ShloMosaic.StableHlo

theorem table_row {F : FTy → Type} [FloatOps F] (W : Valuation τ sig (Elt F))
    (h : (0 : Int) ≤ ((W (Proc.devRef .tc main_arg0) : IVec S1 32) (ix1 0)).toInt) :
    ((StableHlo.after hostOps0_1 (StableHlo.after hostOps0 W) (Proc.devRef .tc main_v0) : IVec S1 32) (ix1 0)).toNat
      = (Cert.Spec.rowOf ((W (Proc.devRef .tc main_arg0) : IVec S1 32) (ix1 0))).val := by
  after_results
  exact Cert.PreIds.clip_vec _ _ _ rfl rfl h

end Cert.KernelIdeal.HostVal

end
-- ==== Proof.OkIds.lean ====
import proofs.«429347_j5763846111973_3_alg».proof.Proof.RunDefs
import proofs.«429347_j5763846111973_3_alg».proof.Proof.HostVal
import proofs.«429347_j5763846111973_3_alg».proof.Proof.Gen.KernelIdeal.Regions

noncomputable section

namespace Cert.KernelIdeal.KFinal

open Idealize.ShloMosaic Idealize.ShloMosaic.TcCoe Idealize.SL.Sem Idealize.ShloMosaic.ValueIdx
open Cert.KernelIdeal Cert.KernelIdeal.Gen Cert.KernelIdeal.Run

variable {F : FTy → Type} [FloatOps F]
variable (m : (ℓ : Loc nD τ sig) → Buf (Elt F) ℓ) (ρ : Dev nD → PrngReg)

theorem wordOf_eq (c : Dev nD) (ft : R0.HbBuf (F := F) c R0.tbM) : R0.wordOf c ft = (ft : IVec S1 32) (ix1 0) := by
  have e : R0.tbM.view.readAt (Elt F) (Rect.unit (s := S1) ![0] S1.size inb_S1_S1_0).toLoadRect ft = ft :=
    Memref.readAt_unit_zero (Elt F) main_v0 (funext fun a => by match a with | ⟨0, _⟩ => rfl) inb_S1_S1_0 ft
  exact (congrFun e _).trans (congrArg (ft : IVec S1 32) (funext fun a => by match a with | ⟨0, _⟩ => rfl))

variable (hid : ∀ c : Dev nD, (0 : Int) ≤ ((m ((c.tc : Thread nD τ).loc main_arg0) : IVec S1 32) (ix1 0)).toInt)
include hid

theorem word0_toNat (c : Dev nD) :
    (R0.word0 (V3 m ρ) c : BitVec 32).toNat = (Cert.Spec.rowOf ((m ((c.tc : Thread nD τ).loc main_arg0) : IVec S1 32) (ix1 0))).val := by
  unfold R0.word0
  rw [wordOf_eq]
  have e : V3 m ρ c main_v0 = W2 m ρ c (Proc.devRef .tc main_v0) :=
    StableHlo.after_of_writes_sub hostOps0_2 _ hostOps0_2_writes (by decide)
  rw [e]
  exact HostVal.table_row (W0 m ρ c) (hid c)

theorem ok_of_ids : R0.Ok0 (V3 m ρ) := fun c a => by
  have h := word0_toNat m ρ hid c
  have hr := (Cert.Spec.rowOf ((m ((c.tc : Thread nD τ).loc main_arg0) : IVec S1 32) (ix1 0))).isLt
  match a with
  | ⟨0, _⟩ => show (R0.word0 (V3 m ρ) c : BitVec 32).toNat + 1 ≤ 50257; omega
  | ⟨1, _⟩ => show 0 + 1024 ≤ 1024; omega

end Cert.KernelIdeal.KFinal

end
-- ==== Proof.LibDotNT.lean ====
import Idealize.ShloMosaic.PureOps.Ideal
import Idealize.ShloMosaic.PureOps.Ideal.Laws
import Idealize.ShloMosaic.Lib.ValueIdx

noncomputable section

namespace Idealize.ShloMosaic.DotNT

open Idealize.ShloMosaic Idealize.ShloMosaic.ValueIdx

variable {M K N : Nat}

abbrev dims (w : DotDims.WF (⟨2, ![M, K]⟩ : Shape) ⟨2, ![N, K]⟩ ⟨2, ![M, N]⟩ [1] [1] [0] [0] [] []) :
    DotDims (⟨2, ![M, K]⟩ : Shape) ⟨2, ![N, K]⟩ ⟨2, ![M, N]⟩ := ⟨[1], [1], [0], [0], [], [], w⟩

variable (w : DotDims.WF (⟨2, ![M, K]⟩ : Shape) ⟨2, ![N, K]⟩ ⟨2, ![M, N]⟩ [1] [1] [0] [0] [] [])

variable {φ₁ φ₂ : FTy}

/-- Both operands are contracted on their last axis: entry (p, q) pairs row p of the left with row q of the right. -/
theorem matmul_zero_apply (prec : Option ContractPrecision) (l : FVec Ideal ⟨2, ![M, K]⟩ φ₁) (r : FVec Ideal ⟨2, ![N, K]⟩ φ₂)
    (p : Fin M) (q : Fin N) :
    matmul (dims w) prec l r (constant ⟨2, ![M, N]⟩ .f32 0x00000000#32) (ix2 p q)
      = ∑ k : Fin K, l (ix2 p k) * r (ix2 q k) := by
  refine (Ideal.matmul_constant_zero_apply (dims w) prec l r (ix2 p q)).trans ?_
  rw [← Equiv.sum_comp (contrEquiv1 (dims w) K rfl rfl).symm]
  refine Finset.sum_congr rfl fun k _ => ?_
  have c := contrEquiv1_symm_val (dims w) K rfl rfl k
  congr 2 <;> funext a <;> apply Fin.ext <;> match a with
    | ⟨0, _⟩ => rfl
    | ⟨1, _⟩ => first
      | exact ((dims w).lhsIdx_val_of_single (cl := 1) rfl _ _).trans c
      | exact ((dims w).rhsIdx_val_of_single (cr := 1) rfl _ _).trans c

end Idealize.ShloMosaic.DotNT

end
-- ==== Proof.KPay.lean ====
import proofs.«429347_j5763846111973_3_alg».proof.Proof.Gen.KernelIdeal.Skeleton
import proofs.«429347_j5763846111973_3_alg».proof.Proof.Spec
import proofs.«429347_j5763846111973_3_alg».proof.Proof.LibDotNT
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KPay

open Cert.KernelIdeal Cert.KernelIdeal.Gen
open Idealize.ShloMosaic Idealize.ShloMosaic.ValueIdx

theorem eq_ix3_00 {n : ℕ} (i : (⟨3, ![1, 1, n]⟩ : Shape).Idx) : i = ix3 0 0 (i 2) := by
  funext a
  apply Fin.ext
  match a with
  | ⟨0, _⟩ => have : (i 0).val < 1 := (i 0).isLt; show (i 0).val = 0; omega
  | ⟨1, _⟩ => have : (i 1).val < 1 := (i 1).isLt; show (i 1).val = 0; omega
  | ⟨2, _⟩ => rfl

theorem eq_ix3_s0 {a n : ℕ} (i : (⟨3, ![a, 1, n]⟩ : Shape).Idx) : i = ix3 (i 0) 0 (i 2) := by
  funext b
  apply Fin.ext
  match b with
  | ⟨0, _⟩ => rfl
  | ⟨1, _⟩ => have : (i 1).val < 1 := (i 1).isLt; show (i 1).val = 0; omega
  | ⟨2, _⟩ => rfl

/-- The one coordinate computation behind every equation that reads a block as a rectangle of its array. -/
theorem blk_ix3 {m0 m1 m2 n1 n2 r : ℕ} {b : Fin 3 → ℕ} {d : Fin m0} (hb : b = ![d.val, r, 0])
    {i : (⟨3, ![m0, m1, m2]⟩ : Shape).Idx} (p : Fin n1) (k : Fin n2)
    (hi : ∀ a, (i a).val = b a * ![1, n1, n2] a + 1 * (ix3 (0 : Fin 1) p k a).val)
    {p' : Fin m1} {k' : Fin m2} (hp : p'.val = n1 * r + p.val) (hk : k'.val = k.val) : i = ix3 d p' k' := by
  subst hb
  funext a
  apply Fin.ext
  rw [hi]
  match a with
  | ⟨0, _⟩ => show d.val * 1 + 1 * 0 = d.val; omega
  | ⟨1, _⟩ => show r * n1 + 1 * p.val = p'.val; rw [hp, Nat.mul_comm r]; omega
  | ⟨2, _⟩ => show 0 * n2 + 1 * k.val = k'.val; omega

/-- What the whole-array lemma asks of a result array that holds one row per direction. -/
theorem rows_read {α : Type} {n N : ℕ} (out : Fin N → (⟨3, ![1, 1, n]⟩ : Shape).Idx → α) (last : Fin 2 → Fin N)
    {e : (⟨3, ![1, 1, n]⟩ : Shape).Idx → (⟨3, ![2, 1, n]⟩ : Shape).Idx} {d : Fin 2} (he : ∀ k, e (ix3 0 0 k) = ix3 d 0 k)
    {t : Fin N} (ht : last d = t) :
    out t = fun x => (fun i : (⟨3, ![2, 1, n]⟩ : Shape).Idx => out (last (i 0)) (ix3 0 0 (i 2))) (e x) := by
  subst ht
  exact funext fun x => (congrArg (out (last d)) (eq_ix3_00 x)).trans
    (congrArg (fun i : (⟨3, ![2, 1, n]⟩ : Shape).Idx => out (last (i 0)) (ix3 0 0 (i 2)))
      ((he (x 2)).symm.trans (congrArg e (eq_ix3_00 x).symm)))

theorem off_ix3 {m0 m1 m2 n2 o2 : ℕ} {o : Fin 3 → ℕ} (ho : o = ![0, 0, o2]) {i : (⟨3, ![m0, m1, m2]⟩ : Shape).Idx} (q : Fin n2)
    (hi : ∀ a, (i a).val = o a + 1 * (ix3 (0 : Fin 1) (0 : Fin 1) q a).val)
    {z0 : Fin m0} {z1 : Fin m1} {k' : Fin m2} (h0 : z0.val = 0) (h1 : z1.val = 0) (hk : k'.val = o2 + q.val) : i = ix3 z0 z1 k' := by
  subst ho
  funext a
  apply Fin.ext
  rw [hi]
  match a with
  | ⟨0, _⟩ => show 0 + 1 * 0 = z0.val; omega
  | ⟨1, _⟩ => show 0 + 1 * 0 = z1.val; omega
  | ⟨2, _⟩ => show o2 + 1 * q.val = k'.val; omega

theorem k0_quarter (v29 : Vec Ideal S1x1x8192 .f32) (o : Nat) (h : S1x8192.Slices ![0, o] S1x2048) (q : Fin 2048)
    (k : Fin 8192) (hk : k.val = o + q.val) :
    extractStridedSlice S1x2048 ![0, o] (k0_pay2 (F := Ideal) v29) h (ix2 0 q) = v29 (ix3 0 0 k) :=
  (slice2_axis1_apply o _ h 0 q k hk).trans (shapeCast_1ab_ab_apply v29 _ 0 k)

theorem k0_pay3_apply (v29 : Vec Ideal S1x1x8192 .f32) (v36 : Vec Ideal S1x1x2048 .f32) (q : Fin 2048) :
    k0_pay3 (F := Ideal) v29 v36 (ix2 0 q)
      = Cert.Spec.cellC (fun j => v29 (ix3 0 0 j)) (fun q => v36 (ix3 0 0 q)) q := by
  unfold k0_pay3 Cert.Spec.cellC
  exact congrArg₂ (· + ·)
    (congrArg₂ (· * ·) (congrArg Ideal.logistic (k0_quarter v29 2048 _ q (Cert.Spec.col 2048 q) rfl))
      (shapeCast_1ab_ab_apply v36 _ 0 q))
    (congrArg₂ (· * ·) (congrArg Ideal.logistic (k0_quarter v29 0 _ q (Cert.Spec.col 0 q) rfl))
      (congrArg Ideal.tanh (k0_quarter v29 4096 _ q (Cert.Spec.col 4096 q) rfl)))

theorem k0_pay5_apply (v29 : Vec Ideal S1x1x8192 .f32) (v36 : Vec Ideal S1x1x2048 .f32) (q : Fin 2048) :
    k0_pay5 (F := Ideal) v29 v36 (ix3 0 0 q)
      = Cert.Spec.cellC (fun j => v29 (ix3 0 0 j)) (fun q => v36 (ix3 0 0 q)) q := by
  unfold k0_pay5
  exact (shapeCast_ab_1ab_apply _ _ 0 0 q).trans (k0_pay3_apply v29 v36 q)

theorem k0_pay4_apply (v29 : Vec Ideal S1x1x8192 .f32) (v36 : Vec Ideal S1x1x2048 .f32) (q : Fin 2048) :
    k0_pay4 (F := Ideal) v29 v36 (ix3 0 0 q)
      = Cert.Spec.cellH (fun j => v29 (ix3 0 0 j)) (fun q => v36 (ix3 0 0 q)) q := by
  unfold k0_pay4 Cert.Spec.cellH
  refine (shapeCast_ab_1ab_apply _ _ 0 0 q).trans ?_
  exact congrArg₂ (· * ·) (congrArg Ideal.logistic (k0_quarter v29 6144 _ q (Cert.Spec.col 6144 q) rfl))
    (congrArg Ideal.tanh (k0_pay3_apply v29 v36 q))

theorem k0_pay1_apply (v6 : Vec Ideal S1x1x2048 .f32) (v8 : Vec Ideal S1x1024 .f32) (v9 : Vec Ideal S1x2048x1024 .f32)
    (v12 : Vec Ideal S1x1x2048 .f32) (v14 : Vec Ideal S1x2048x2048 .f32) (q : Fin 2048) :
    k0_pay1 (F := Ideal) v6 v8 v9 v12 v14 (ix2 0 q)
      = ((∑ k : Fin 1024, v8 (ix2 0 k) * v9 (ix3 0 q k)) + (∑ k : Fin 2048, v12 (ix3 0 0 k) * v14 (ix3 0 q k)))
        + v6 (ix3 0 0 q) := by
  unfold k0_pay1
  refine (congrFun (shapeCast_self _ _) (ix2 0 q)).trans ?_
  exact congrArg₂ (· + ·)
    (congrArg₂ (· + ·)
      ((DotNT.matmul_zero_apply (φ₁ := .f32) (φ₂ := .f32) _ _ v8 _ 0 q).trans
        (Finset.sum_congr rfl fun k _ => congrArg (v8 (ix2 0 k) * ·) (shapeCast_1ab_ab_apply v9 _ q k)))
      ((DotNT.matmul_zero_apply (φ₁ := .f32) (φ₂ := .f32) _ _ _ _ 0 q).trans
        (Finset.sum_congr rfl fun k _ =>
          congrArg₂ (· * ·) (shapeCast_1ab_ab_apply v12 _ 0 k) (shapeCast_1ab_ab_apply v14 _ q k))))
    (shapeCast_1ab_ab_apply v6 _ 0 q)

theorem band3_apply {α : Type} {n m a b : ℕ} (o : ℕ) (X : (⟨3, ![n, a, b]⟩ : Shape).Idx → α)
    (hs : (⟨3, ![n, a, b]⟩ : Shape).Slices ![o, 0, 0] ⟨3, ![m, a, b]⟩) (d : Fin m) (i : Fin a) (j : Fin b)
    (k : Fin n) (hk : k.val = o + d.val) :
    extractStridedSlice ⟨3, ![m, a, b]⟩ ![o, 0, 0] X hs (ix3 d i j) = X (ix3 k i j) :=
  extractStridedSlice_apply _ _ _ _ _ (fun ax => by
    match ax with
    | ⟨0, _⟩ => exact hk
    | ⟨1, _⟩ => exact (Nat.zero_add _).symm
    | ⟨2, _⟩ => exact (Nat.zero_add _).symm)

theorem member3_apply {α : Type} {n a b : ℕ} (o : ℕ) (X : (⟨3, ![n, a, b]⟩ : Shape).Idx → α)
    (hs : (⟨3, ![n, a, b]⟩ : Shape).Slices ![o, 0, 0] ⟨3, ![1, a, b]⟩)
    (hc : (⟨3, ![1, a, b]⟩ : Shape).ShapeCasts ⟨2, ![a, b]⟩) (d : Fin n) (hd : d.val = o) (i : Fin a) (j : Fin b) :
    shapeCast ⟨2, ![a, b]⟩ (extractStridedSlice ⟨3, ![1, a, b]⟩ ![o, 0, 0] X hs) hc (ix2 i j) = X (ix3 d i j) := by
  rw [shapeCast_1ab_ab_apply]
  exact band3_apply o X hs 0 i j d (hd.trans (Nat.add_zero _).symm)

theorem catRow_apply (h : Shape.Concatenates [S1x2048, S1x2048] S1x4096 1) (a b : S1x2048.Idx → EReal) (a' b' : Fin 2048 → EReal)
    (ha : ∀ q, a (ix2 0 q) = a' q) (hb : ∀ q, b (ix2 0 q) = b' q) (k : Fin 4096) :
    concatenate S1x4096 1 [⟨S1x2048, a⟩, ⟨S1x2048, b⟩] h (ix2 0 k) = Cert.Spec.cat a' b' k := by
  unfold Cert.Spec.cat
  split
  · rename_i hk
    rw [concatenate_pair_apply_left 1 a b h (ix2 0 k) rfl (ix2 0 ⟨k.val, hk⟩)
      (fun c => by match c with | ⟨0, _⟩ => rfl | ⟨1, _⟩ => rfl)]
    exact ha _
  · rename_i hk
    rw [concatenate_pair_apply_right 1 a b h (ix2 0 k) rfl rfl (ix2 0 ⟨k.val - 2048, by have := k.isLt; omega⟩)
      (fun c hc => by match c with | ⟨0, _⟩ => rfl | ⟨1, _⟩ => exact absurd rfl hc)
      (by show k.val - 2048 + 2048 = k.val; omega)]
    exact hb _

theorem k1_pay1_apply (v0 : Vec Ideal S2x1x2048 .f32) (v10 : Vec Ideal S1x1x1024 .f32) (v12 : Vec Ideal S1x1024x4096 .f32)
    (v15 : Vec Ideal S1x1x2048 .f32) (v17 : Vec Ideal S1x1024x2048 .f32) (q : Fin 1024) :
    k1_pay1 (F := Ideal) v0 v10 v12 v15 v17 (ix2 0 q)
      = ((∑ k : Fin 4096, Cert.Spec.cat (fun k => v0 (ix3 0 0 k)) (fun k => v0 (ix3 1 0 k)) k * v12 (ix3 0 q k))
          + (∑ k : Fin 2048, v15 (ix3 0 0 k) * v17 (ix3 0 q k)))
        + v10 (ix3 0 0 q) := by
  unfold k1_pay1
  refine (congrFun (shapeCast_self _ _) (ix2 0 q)).trans ?_
  exact congrArg₂ (· + ·)
    (congrArg₂ (· + ·)
      ((DotNT.matmul_zero_apply (φ₁ := .f32) (φ₂ := .f32) _ _ _ _ 0 q).trans
        (Finset.sum_congr rfl fun k _ =>
          congrArg₂ (· * ·)
            (catRow_apply _ _ _ _ _ (fun q => (member3_apply 0 _ _ _ 0 rfl 0 q).trans (congrFun (shapeCast_self v0 _) _))
              (fun q => (member3_apply 1 _ _ _ 1 rfl 0 q).trans (congrFun (shapeCast_self v0 _) _)) k)
            (shapeCast_1ab_ab_apply v12 _ q k)))
      ((DotNT.matmul_zero_apply (φ₁ := .f32) (φ₂ := .f32) _ _ _ _ 0 q).trans
        (Finset.sum_congr rfl fun k _ =>
          congrArg₂ (· * ·) (shapeCast_1ab_ab_apply v15 _ 0 k) (shapeCast_1ab_ab_apply v17 _ q k))))
    (shapeCast_1ab_ab_apply v10 _ 0 q)

end Cert.KernelIdeal.KPay

end
-- ==== Proof.KFinalA.lean ====
import proofs.«429347_j5763846111973_3_alg».proof.Proof.OkIds
import proofs.«429347_j5763846111973_3_alg».proof.Proof.KPay

noncomputable section

namespace Cert.KernelIdeal.HostVal

open Cert.KernelIdeal Cert.KernelIdeal.Gen Idealize.ShloMosaic Idealize.ShloMosaic.ValueIdx Idealize.ShloMosaic.StableHlo KPay

section Layout
variable {α : Type}

theorem midUnit_apply {a b : ℕ} (X : (⟨2, ![a, b]⟩ : Shape).Idx → α)
    (hc : (⟨2, ![a, b]⟩ : Shape).ShapeCasts ⟨3, ![a, 1, b]⟩) (d : Fin a) (j : Fin b) :
    shapeCast ⟨3, ![a, 1, b]⟩ X hc (ix3 d 0 j) = X (ix2 d j) :=
  shapeCast_apply _ _ _ _ (by
    rw [Shape.rowMajor_val_two, Shape.rowMajor_val_three]
    show d.val * b + j.val = (d.val * 1 + 0) * b + j.val
    rw [Nat.mul_one, Nat.add_zero])

theorem liftRow_apply {n : ℕ} (h : (⟨2, ![1, n]⟩ : Shape).BroadcastsInDim ⟨3, ![1, 1, n]⟩ ![1, 2])
    (x : (⟨2, ![1, n]⟩ : Shape).Idx → α) (i : (⟨3, ![1, 1, n]⟩ : Shape).Idx) :
    broadcastInDim ⟨3, ![1, 1, n]⟩ ![1, 2] h x i = x (ix2 0 (i 2)) :=
  broadcastInDim_apply _ _ _ _ _ (fun a => by
    match a with
    | ⟨0, _⟩ => rfl
    | ⟨1, _⟩ =>
      show (i 2).val = if n = 1 then 0 else (i 2).val
      have : (i 2).val < n := (i 2).isLt
      split <;> omega)

theorem stackPairs_apply (h : Shape.Concatenates [S2x1x2048, S2x1x2048] S4x1x2048 0)
    (x y : S2x1x2048.Idx → α) (s : Fin 4) (q : Fin 2048) :
    concatenate S4x1x2048 0 [⟨S2x1x2048, x⟩, ⟨S2x1x2048, y⟩] h (ix3 s 0 q)
      = if s.val < 2 then x (ix3 ⟨s.val % 2, Nat.mod_lt _ (by decide)⟩ 0 q) else y (ix3 ⟨s.val % 2, Nat.mod_lt _ (by decide)⟩ 0 q) := by
  have := s.isLt
  split
  · exact concatenate_pair_apply_left 0 x y h (ix3 s 0 q) rfl _
      (fun b => by match b with | ⟨0, _⟩ => show s.val % 2 = s.val; omega | ⟨1, _⟩ => rfl | ⟨2, _⟩ => rfl)
  · exact concatenate_pair_apply_right 0 x y h (ix3 s 0 q) rfl rfl _
      (fun b hb => by match b with | ⟨0, _⟩ => exact absurd rfl hb | ⟨1, _⟩ => rfl | ⟨2, _⟩ => rfl)
      (by show s.val % 2 + 2 = s.val; omega)

end Layout

section Host
variable {F : FTy → Type} [FloatOps F]

theorem v3_apply (W : Valuation τ sig (Elt F)) (d : Fin 2) (q : Fin 2048) :
    (StableHlo.after hostOps0_2 W (Proc.devRef .tc main_v3) : FVec F S2x1x2048 .f32) (ix3 d 0 q)
      = (W (Proc.devRef .tc main_arg1) : FVec F S4x1x2048 .f32) (ix3 (Cert.Spec.Args.st 0 d) 0 q) := by
  after_results
  exact band3_apply 0 _ _ d 0 q _ (by show 2 * 0 + d.val = 0 + d.val; omega)

theorem v4_apply (W : Valuation τ sig (Elt F)) (d : Fin 2) (q : Fin 2048) :
    (StableHlo.after hostOps0_2 W (Proc.devRef .tc main_v4) : FVec F S2x1x2048 .f32) (ix3 d 0 q)
      = (W (Proc.devRef .tc main_arg2) : FVec F S4x1x2048 .f32) (ix3 (Cert.Spec.Args.st 0 d) 0 q) := by
  after_results
  exact band3_apply 0 _ _ d 0 q _ (by show 2 * 0 + d.val = 0 + d.val; omega)

theorem v7_apply (W : Valuation τ sig (Elt F)) (d : Fin 2) (q : Fin 2048) :
    (StableHlo.after hostOps1 W (Proc.devRef .tc main_v7) : FVec F S2x1x2048 .f32) (ix3 d 0 q)
      = (W (Proc.devRef .tc main_arg1) : FVec F S4x1x2048 .f32) (ix3 (Cert.Spec.Args.st 1 d) 0 q) := by
  after_results
  exact band3_apply 2 _ _ d 0 q _ (by show 2 * 1 + d.val = 2 + d.val; omega)

theorem v8_apply (W : Valuation τ sig (Elt F)) (d : Fin 2) (q : Fin 2048) :
    (StableHlo.after hostOps1 W (Proc.devRef .tc main_v8) : FVec F S2x1x2048 .f32) (ix3 d 0 q)
      = (W (Proc.devRef .tc main_arg2) : FVec F S4x1x2048 .f32) (ix3 (Cert.Spec.Args.st 1 d) 0 q) := by
  after_results
  exact band3_apply 2 _ _ d 0 q _ (by show 2 * 1 + d.val = 2 + d.val; omega)

theorem v17_apply (W : Valuation τ sig (Elt F)) (s : Fin 4) (q : Fin 2048) :
    (StableHlo.after hostOps2 W (Proc.devRef .tc main_v17) : FVec F S4x1x2048 .f32) (ix3 s 0 q)
      = if s.val < 2 then (W (Proc.devRef .tc main_v6_0) : FVec F S2x1x2048 .f32) (ix3 ⟨s.val % 2, Nat.mod_lt _ (by decide)⟩ 0 q)
        else (W (Proc.devRef .tc main_v10_0) : FVec F S2x1x2048 .f32) (ix3 ⟨s.val % 2, Nat.mod_lt _ (by decide)⟩ 0 q) := by
  after_results
  exact stackPairs_apply _ _ _ s q

theorem v18_apply (W : Valuation τ sig (Elt F)) (s : Fin 4) (q : Fin 2048) :
    (StableHlo.after hostOps2 W (Proc.devRef .tc main_v18) : FVec F S4x1x2048 .f32) (ix3 s 0 q)
      = if s.val < 2 then (W (Proc.devRef .tc main_v6_1) : FVec F S2x1x2048 .f32) (ix3 ⟨s.val % 2, Nat.mod_lt _ (by decide)⟩ 0 q)
        else (W (Proc.devRef .tc main_v10_1) : FVec F S2x1x2048 .f32) (ix3 ⟨s.val % 2, Nat.mod_lt _ (by decide)⟩ 0 q) := by
  after_results
  exact stackPairs_apply _ _ _ s q

theorem v9_apply (W : Valuation τ sig (Elt F)) (d : Fin 2) (j : Fin 8192) :
    (StableHlo.after hostOps1 W (Proc.devRef .tc main_v9) : FVec F S2x1x8192 .f32) (ix3 d 0 j)
      = (W (Proc.devRef .tc main_v2) : FVec F S2x8192 .f32) (ix2 d j) := by
  after_results
  exact midUnit_apply _ _ d j

end Host

theorem v5_apply (W : Valuation τ sig (Elt Ideal)) (d : Fin 2) (j : Fin 8192) :
    (StableHlo.after hostOps0_2 W (Proc.devRef .tc main_v5) : FVec Ideal S2x1x8192 .f32) (ix3 d 0 j)
      = HAdd.hAdd (α := EReal) (β := EReal) (γ := EReal) ((W (Proc.devRef .tc main_arg6) : FVec Ideal S2x8192 .f32) (ix2 d j))
          ((W (Proc.devRef .tc main_arg7) : FVec Ideal S2x8192 .f32) (ix2 d j)) := by
  after_results
  exact midUnit_apply _ _ d j

theorem v2_apply (W : Valuation τ sig (Elt Ideal)) (d : Fin 2) (j : Fin 8192) :
    (StableHlo.after hostOps0_2 W (Proc.devRef .tc main_v2) : FVec Ideal S2x8192 .f32) (ix2 d j)
      = HAdd.hAdd (α := EReal) (β := EReal) (γ := EReal) ((W (Proc.devRef .tc main_arg10) : FVec Ideal S2x8192 .f32) (ix2 d j))
          ((W (Proc.devRef .tc main_arg11) : FVec Ideal S2x8192 .f32) (ix2 d j)) := by
  after_results
  rfl

theorem v16_apply (W : Valuation τ sig (Elt Ideal)) (k : Fin 4096) :
    (StableHlo.after hostOps2 W (Proc.devRef .tc main_v16) : FVec Ideal S1x1x4096 .f32) (ix3 0 0 k)
      = Cert.Spec.cat (fun q => (W (Proc.devRef .tc main_v10_0) : FVec Ideal S2x1x2048 .f32) (ix3 0 0 q))
          (fun q => (W (Proc.devRef .tc main_v10_0) : FVec Ideal S2x1x2048 .f32) (ix3 1 0 q)) k := by
  after_results
  exact (liftRow_apply _ _ _).trans (catRow_apply _ _ _ _ _ (fun q => member3_apply 0 _ _ _ 0 rfl 0 q) (fun q => member3_apply 1 _ _ _ 1 rfl 0 q) k)

end Cert.KernelIdeal.HostVal

namespace Cert.KernelIdeal.KFinal

attribute [local irreducible] Idealize.ShloMosaic.StableHlo.after

open Idealize.ShloMosaic Idealize.ShloMosaic.TcCoe Idealize.SL.Sem Idealize.ShloMosaic.ValueIdx
open Cert.KernelIdeal Cert.KernelIdeal.Gen Cert.KernelIdeal.Run
open Cert.Spec (Args)

section Generic
variable {F : FTy → Type} [FloatOps F]
variable (m : (ℓ : Loc nD τ sig) → Buf (Elt F) ℓ) (ρ : Dev nD → PrngReg)

abbrev argAt (c : Dev nD) (r : Ref sig .tc) : Buf (Elt F) ((c.tc : Thread nD τ).loc r) := m ((c.tc : Thread nD τ).loc r)

theorem W3_keep (c : Dev nD) (r : Ref sig .tc) (h0 : r ∉ hostOps0_W) (h1 : r ∉ hostOps0_1_W) (h2 : r ∉ hostOps0_2_W) :
    W3 m ρ c (Proc.devRef .tc r) = argAt m c r :=
  (StableHlo.after_of_writes_sub hostOps0_2 _ hostOps0_2_writes h2).trans
    ((StableHlo.after_of_writes_sub hostOps0_1 _ hostOps0_1_writes h1).trans
      (StableHlo.after_of_writes_sub hostOps0 _ hostOps0_writes h0))

theorem W2_keep (c : Dev nD) (r : Ref sig .tc) (h0 : r ∉ hostOps0_W) (h1 : r ∉ hostOps0_1_W) :
    W2 m ρ c (Proc.devRef .tc r) = argAt m c r :=
  (StableHlo.after_of_writes_sub hostOps0_1 _ hostOps0_1_writes h1).trans
    (StableHlo.after_of_writes_sub hostOps0 _ hostOps0_writes h0)

end Generic

section AtIdeal
variable (m : (ℓ : Loc nD τ sig) → Buf (Elt Ideal) ℓ) (ρ : Dev nD → PrngReg)

def kArgs (c : Dev nD) : Cert.Spec.Args :=
  Cert.Spec.argsOf (argAt m c main_arg0) (argAt m c main_arg1) (argAt m c main_arg2) (argAt m c main_arg3) (argAt m c main_arg4) (argAt m c main_arg5) (argAt m c main_arg6) (argAt m c main_arg7) (argAt m c main_arg8) (argAt m c main_arg9) (argAt m c main_arg10) (argAt m c main_arg11)

variable (hid : ∀ c : Dev nD, (0 : Int) ≤ ((m ((c.tc : Thread nD τ).loc main_arg0) : IVec S1 32) (ix1 0)).toInt)

include hid in
theorem row_eq (c : Dev nD) (h : (R0.word0 (V3 m ρ) c : BitVec 32).toNat < 50257) :
    (⟨(R0.word0 (V3 m ρ) c : BitVec 32).toNat, h⟩ : Fin 50257) = (kArgs m c).row := by
  apply Fin.ext
  show (R0.word0 (V3 m ρ) c : BitVec 32).toNat = (Cert.Spec.rowOf ((m ((c.tc : Thread nD τ).loc main_arg0) : IVec S1 32) (ix1 0))).val
  exact word0_toNat m ρ hid c

theorem V3_emb (c : Dev nD) : (V3 m ρ c main_arg3 : Vec Ideal S50257x1024 .f32) = argAt m c main_arg3 :=
  W3_keep m ρ c main_arg3 (by decide) (by decide) (by decide)
theorem V3_wih (c : Dev nD) : (V3 m ρ c main_arg4 : Vec Ideal S2x8192x1024 .f32) = argAt m c main_arg4 :=
  W3_keep m ρ c main_arg4 (by decide) (by decide) (by decide)
theorem V3_whh (c : Dev nD) : (V3 m ρ c main_arg5 : Vec Ideal S2x8192x2048 .f32) = argAt m c main_arg5 :=
  W3_keep m ρ c main_arg5 (by decide) (by decide) (by decide)

theorem V3_h (c : Dev nD) (d : Fin 2) (q : Fin 2048) :
    (V3 m ρ c main_v3 : Vec Ideal S2x1x2048 .f32) (ix3 d 0 q) = (kArgs m c).h0 (Args.st 0 d) q :=
  (HostVal.v3_apply (W2 m ρ c) d q).trans
    (congrFun (W2_keep m ρ c main_arg1 (by decide) (by decide)) _)

theorem V3_c (c : Dev nD) (d : Fin 2) (q : Fin 2048) :
    (V3 m ρ c main_v4 : Vec Ideal S2x1x2048 .f32) (ix3 d 0 q) = (kArgs m c).c0 (Args.st 0 d) q :=
  (HostVal.v4_apply (W2 m ρ c) d q).trans
    (congrFun (W2_keep m ρ c main_arg2 (by decide) (by decide)) _)

theorem V3_b (c : Dev nD) (d : Fin 2) (j : Fin 8192) :
    (V3 m ρ c main_v5 : Vec Ideal S2x1x8192 .f32) (ix3 d 0 j) = (kArgs m c).bih0 d j + (kArgs m c).bhh0 d j :=
  (HostVal.v5_apply (W2 m ρ c) d j).trans
    (congrArg₂ (fun (x y : Vec Ideal S2x8192 .f32) => HAdd.hAdd (α := EReal) (β := EReal) (γ := EReal) (x (ix2 d j)) (y (ix2 d j)))
      (W2_keep m ρ c main_arg6 (by decide) (by decide)) (W2_keep m ρ c main_arg7 (by decide) (by decide)))

theorem V3_b1 (c : Dev nD) (d : Fin 2) (j : Fin 8192) :
    (V3 m ρ c main_v2 : Vec Ideal S2x8192 .f32) (ix2 d j) = (kArgs m c).bih1 d j + (kArgs m c).bhh1 d j :=
  (HostVal.v2_apply (W2 m ρ c) d j).trans
    (congrArg₂ (fun (x y : Vec Ideal S2x8192 .f32) => HAdd.hAdd (α := EReal) (β := EReal) (γ := EReal) (x (ix2 d j)) (y (ix2 d j)))
      (W2_keep m ρ c main_arg10 (by decide) (by decide)) (W2_keep m ρ c main_arg11 (by decide) (by decide)))

end AtIdeal

end Cert.KernelIdeal.KFinal

end
-- ==== Proof.KV0.lean ====
import proofs.«429347_j5763846111973_3_alg».proof.Proof.R0
import proofs.«429347_j5763846111973_3_alg».proof.Proof.KPay
import proofs.«429347_j5763846111973_3_alg».proof.Proof.Spec
import Idealize.ShloMosaic.Lib.Pipeline.Value
import Idealize.ShloMosaic.Lib.ValueIdx
import Idealize.ShloMosaic.Lib.ValueLayout

noncomputable section

open scoped BigOperators

namespace Cert.KernelIdeal.KV0

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.R0

variable (V : (c : Dev nD) → (b : Ref sig .tc) → Buf (Elt Ideal) ((c : Thread nD τ).loc b))

abbrev aH (c : Dev nD) : Vec Ideal S2x1x2048 .f32 := V c main_v3
abbrev aC (c : Dev nD) : Vec Ideal S2x1x2048 .f32 := V c main_v4
abbrev aWih (c : Dev nD) : Vec Ideal S2x8192x1024 .f32 := V c main_arg4
abbrev aWhh (c : Dev nD) : Vec Ideal S2x8192x2048 .f32 := V c main_arg5
abbrev aB (c : Dev nD) : Vec Ideal S2x1x8192 .f32 := V c main_v5
abbrev aEmb (c : Dev nD) : Vec Ideal S50257x1024 .f32 := V c main_arg3

theorem idx_facts (t : Fin grid0.N) :
    cc0_transform_1 (grid0.coords t) = ![t.val / 4, 0, 0] ∧ cc0_transform_3 (grid0.coords t) = ![t.val / 4, t.val % 4, 0] := by
  revert t; decide +kernel

theorem iblk0_1_apply (c : Dev nD) (t : Fin (cfgM V).N) (k : Fin 2048) :
    (iblk0 V c 1 t : Vec Ideal S1x1x2048 .f32) (ix3 0 0 k) = aC V c (ix3 (dOf V t) 0 k) :=
  congrArg (aC V c) (KPay.blk_ix3 (idx_facts t).1 0 k (fun _ => rfl) rfl rfl)

theorem word0_lt (hOk : Ok0 V) (c : Dev nD) : (word0 V c : BitVec 32).toNat < 50257 := by
  have h : (word0 V c : BitVec 32).toNat + 1 ≤ 50257 := hOk c 0
  omega

variable (hOk : Ok0 V)

theorem xrow0_apply (c : Dev nD) (k : Fin 1024) :
    xrow0 V hOk c (ix2 0 k) = aEmb V c (ix2 ⟨(word0 V c : BitVec 32).toNat, word0_lt V hOk c⟩ k) :=
  congrArg (aEmb V c) (Shape.idx_ext₂ rfl (by show 0 + 1 * k.val = k.val; omega))

theorem bias_apply (c : Dev nD) (t : Fin (cfgM V).N) (h : ∀ a, (k0_off2 (grid0.coords t)) a + S1x1x2048.size a ≤ S1x1x8192.size a) (q : Fin 2048) :
    View.ld (iblk0 V c 4 t) (Rect.unit (s := S1x1x8192) (k0_off2 (grid0.coords t)) S1x1x2048.size h) (ix3 0 0 q)
      = aB V c (ix3 (dOf V t) 0 (colOf V t q)) :=
  (congrArg (iblk0 V c 4 t : Vec Ideal S1x1x8192 .f32)
    (KPay.off_ix3 (k0_off2_eq (grid0.coords t)) q (fun _ => rfl) rfl rfl
      (by show 2048 * (t.val % 4) + q.val = 2048 * ((grid0.coords t) 1).val + q.val; rw [(coords0 V t).2]))).trans
    (congrArg (aB V c) (KPay.blk_ix3 (idx_facts t).1 0 (colOf V t q) (fun _ => rfl) rfl rfl))

theorem gblk0_apply (c : Dev nD) (t : Fin (cfgM V).N) (q : Fin 2048) :
    gblk0 V hOk c t (ix2 0 q)
      = ((∑ k : Fin 1024, xrow0 V hOk c (ix2 0 k) * aWih V c (ix3 (dOf V t) (colOf V t q) k))
          + (∑ k : Fin 2048, aH V c (ix3 (dOf V t) 0 k) * aWhh V c (ix3 (dOf V t) (colOf V t q) k)))
        + aB V c (ix3 (dOf V t) 0 (colOf V t q)) :=
  (KPay.k0_pay1_apply _ (xrow0 V hOk c) (iblk0 V c 2 t) (iblk0 V c 0 t) (iblk0 V c 3 t) q).trans
    (congrArg₂ (· + ·)
      (congrArg₂ (· + ·)
        (Finset.sum_congr rfl fun k _ => congrArg (xrow0 V hOk c (ix2 0 k) * ·) (congrArg (aWih V c) (KPay.blk_ix3 (idx_facts t).2 q k (fun _ => rfl) rfl rfl)))
        (Finset.sum_congr rfl fun k _ => congrArg₂ (· * ·) (congrArg (aH V c) (KPay.blk_ix3 (idx_facts t).1 0 k (fun _ => rfl) rfl rfl)) (congrArg (aWhh V c) (KPay.blk_ix3 (idx_facts t).2 q k (fun _ => rfl) rfl rfl))))
      (bias_apply V c t _ q))

/-- Column j of the finished gate row was formed at point 4·(t / 4) + j / 2048, as column j % 2048 of its block. -/
theorem grow0_apply (c : Dev nD) (t : Fin (cfgM V).N) (j : Fin 8192) :
    grow0 V hOk c t (ix3 0 0 j)
      = ((∑ k : Fin 1024, xrow0 V hOk c (ix2 0 k) * aWih V c (ix3 (dOf V t) j k))
          + (∑ k : Fin 2048, aH V c (ix3 (dOf V t) 0 k) * aWhh V c (ix3 (dOf V t) j k)))
        + aB V c (ix3 (dOf V t) 0 j) := by
  have hN := N0 V
  have hj := j.isLt
  have ht := t.isLt
  have hd : dOf V (ptOf V t j) = dOf V t := Fin.ext (by show (4 * (t.val / 4) + j.val / 2048) / 4 = t.val / 4; omega)
  have hc : colOf V (ptOf V t j) ⟨j.val % 2048, Nat.mod_lt _ (by decide)⟩ = j :=
    Fin.ext (by show 2048 * ((4 * (t.val / 4) + j.val / 2048) % 4) + j.val % 2048 = j.val; omega)
  show gblk0 V hOk c (ptOf V t j) (ix2 0 ⟨j.val % 2048, Nat.mod_lt _ (by decide)⟩) = _
  rw [gblk0_apply, hd, hc]

def lastPt (d : Fin 2) : Fin (cfgM V).N := ⟨4 * d.val + 3, by have := d.isLt; have := N0 V; omega⟩

theorem dOf_lastPt (d : Fin 2) : dOf V (lastPt V d) = d := Fin.ext (by show (4 * d.val + 3) / 4 = d.val; omega)

theorem lastPt_dOf (t : Fin (cfgM V).N) (h : t.val % 4 = 3) : lastPt V (dOf V t) = t :=
  Fin.ext (by show 4 * (t.val / 4) + 3 = t.val; omega)

theorem emb5 (t : Fin (cfgM V).N) (k : Fin 2048) : (((cfgM V).win 5).blk t).view.emb (ix3 0 0 k) = ix3 (dOf V t) 0 k :=
  KPay.blk_ix3 (idx_facts t).1 0 k (fun _ => rfl) rfl rfl

theorem emb_last (i : S2x1x2048.Idx) : (((cfgM V).win 5).blk (lastPt V (i 0))).view.emb (ix3 0 0 (i 2)) = i :=
  ((emb5 V _ (i 2)).trans (congrArg (ix3 · 0 (i 2)) (dOf_lastPt V (i 0)))).trans (KPay.eq_ix3_s0 i).symm

theorem final5 (c : Dev nD) :
    (dat0 V hOk c).arrAt 5 (cfgM V).N = fun i : S2x1x2048.Idx => hOut0 V hOk c (lastPt V (i 0)) (ix3 0 0 (i 2)) :=
  (dat0 V hOk c).arrAt_eq_of_cover 5 _
    (fun t hf => (congrArg (((cfgM V).win 5).cut (grid0.coords t)) (after0_5 V hOk c t)).trans
      (KPay.rows_read (hOut0 V hOk c) (lastPt V) (emb5 V t) (lastPt_dOf V t ((flush0_5 V t).mp hf))))
    fun i : S2x1x2048.Idx => ⟨lastPt V (i 0), (flush0_5 V _).mpr (by show (4 * (i 0).val + 3) % 4 = 3; omega),
      (congrArg (· ∈ _) (emb_last V i)).mp ((((cfgM V).win 5).blk _).view.emb_mem_set _)⟩

theorem final6 (c : Dev nD) :
    (dat0 V hOk c).arrAt 6 (cfgM V).N = fun i : S2x1x2048.Idx => cOut0 V hOk c (lastPt V (i 0)) (ix3 0 0 (i 2)) :=
  (dat0 V hOk c).arrAt_eq_of_cover 6 _
    (fun t hf => (congrArg (((cfgM V).win 6).cut (grid0.coords t)) (after0_6 V hOk c t)).trans
      (KPay.rows_read (cOut0 V hOk c) (lastPt V) (emb5 V t) (lastPt_dOf V t ((flush0_6 V t).mp hf))))
    fun i : S2x1x2048.Idx => ⟨lastPt V (i 0), (flush0_6 V _).mpr (by show (4 * (i 0).val + 3) % 4 = 3; omega),
      (congrArg (· ∈ _) (emb_last V i)).mp ((((cfgM V).win 6).blk _).view.emb_mem_set _)⟩

end Cert.KernelIdeal.KV0

end
-- ==== Proof.KFinalB.lean ====
import proofs.«429347_j5763846111973_3_alg».proof.Proof.KFinalA
import proofs.«429347_j5763846111973_3_alg».proof.Proof.KV0

noncomputable section

open scoped BigOperators

namespace Cert.KernelIdeal.KFinal

attribute [local irreducible] Idealize.ShloMosaic.StableHlo.after

open Idealize.ShloMosaic Idealize.ShloMosaic.TcCoe Idealize.SL.Sem Idealize.ShloMosaic.ValueIdx
open Cert.KernelIdeal Cert.KernelIdeal.Gen Cert.KernelIdeal.Run
open Cert.Spec (Args)

variable (m : (ℓ : Loc nD τ sig) → Buf (Elt Ideal) ℓ) (ρ : Dev nD → PrngReg)
variable (hid : ∀ c : Dev nD, (0 : Int) ≤ ((m ((c.tc : Thread nD τ).loc main_arg0) : IVec S1 32) (ix1 0)).toInt)
variable (hOk : R0.Ok0 (V3 m ρ))

include hid

theorem x0_eq (c : Dev nD) (k : Fin 1024) : R0.xrow0 (V3 m ρ) hOk c (ix2 0 k) = (kArgs m c).x0 k := by
  refine (KV0.xrow0_apply (V3 m ρ) hOk c k).trans ?_
  show (V3 m ρ c main_arg3 : Vec Ideal S50257x1024 .f32) (ix2 _ k) = (argAt m c main_arg3 : Vec Ideal S50257x1024 .f32) (ix2 (kArgs m c).row k)
  rw [V3_emb, row_eq m ρ hid c]

theorem g0_eq (c : Dev nD) (t : Fin (R0.cfgM (V3 m ρ)).N) (j : Fin 8192) :
    R0.grow0 (V3 m ρ) hOk c t (ix3 0 0 j) = (kArgs m c).g0 (R0.dOf (V3 m ρ) t) j :=
  (KV0.grow0_apply (V3 m ρ) hOk c t j).trans
    (congrArg₂ (· + ·)
      (congrArg₂ (· + ·)
        (Finset.sum_congr rfl fun k _ => congrArg₂ (· * ·) (x0_eq m ρ hid hOk c k) (congrFun (V3_wih m ρ c) _))
        (Finset.sum_congr rfl fun k _ => congrArg₂ (· * ·) (V3_h m ρ c _ k) (congrFun (V3_whh m ρ c) _)))
      (V3_b m ρ c _ j))

theorem H0_eq (c : Dev nD) (t : Fin (R0.cfgM (V3 m ρ)).N) (q : Fin 2048) :
    R0.hOut0 (V3 m ρ) hOk c t (ix3 0 0 q) = (kArgs m c).H0 (R0.dOf (V3 m ρ) t) q :=
  (KPay.k0_pay4_apply (R0.grow0 (V3 m ρ) hOk c t) (R0.iblk0 (V3 m ρ) c 1 t) q).trans
    (congrArg₂ (Cert.Spec.cellH · · q) (funext (g0_eq m ρ hid hOk c t))
      (funext fun q' => (KV0.iblk0_1_apply (V3 m ρ) c t q').trans (V3_c m ρ c _ q')))

theorem C0_eq (c : Dev nD) (t : Fin (R0.cfgM (V3 m ρ)).N) (q : Fin 2048) :
    R0.cOut0 (V3 m ρ) hOk c t (ix3 0 0 q) = (kArgs m c).C0 (R0.dOf (V3 m ρ) t) q :=
  (KPay.k0_pay5_apply (R0.grow0 (V3 m ρ) hOk c t) (R0.iblk0 (V3 m ρ) c 1 t) q).trans
    (congrArg₂ (Cert.Spec.cellC · · q) (funext (g0_eq m ρ hid hOk c t))
      (funext fun q' => (KV0.iblk0_1_apply (V3 m ρ) c t q').trans (V3_c m ρ c _ q')))

theorem W4_h (c : Dev nD) (d : Fin 2) (q : Fin 2048) :
    (W4 m ρ hOk c (Proc.devRef .tc main_v6_0) : Vec Ideal S2x1x2048 .f32) (ix3 d 0 q) = (kArgs m c).H0 d q :=
  (congrFun ((W4_arr m ρ hOk c 5).trans (KV0.final5 (V3 m ρ) hOk c)) (ix3 d 0 q)).trans
    ((H0_eq m ρ hid hOk c _ q).trans (congrArg (fun e => (kArgs m c).H0 e q) (KV0.dOf_lastPt (V3 m ρ) d)))

theorem W4_c (c : Dev nD) (d : Fin 2) (q : Fin 2048) :
    (W4 m ρ hOk c (Proc.devRef .tc main_v6_1) : Vec Ideal S2x1x2048 .f32) (ix3 d 0 q) = (kArgs m c).C0 d q :=
  (congrFun ((W4_arr m ρ hOk c 6).trans (KV0.final6 (V3 m ρ) hOk c)) (ix3 d 0 q)).trans
    ((C0_eq m ρ hid hOk c _ q).trans (congrArg (fun e => (kArgs m c).C0 e q) (KV0.dOf_lastPt (V3 m ρ) d)))

end Cert.KernelIdeal.KFinal

end
-- ==== Proof.KV1.lean ====
import proofs.«429347_j5763846111973_3_alg».proof.Proof.R1
import proofs.«429347_j5763846111973_3_alg».proof.Proof.KPay
import proofs.«429347_j5763846111973_3_alg».proof.Proof.Spec
import Idealize.ShloMosaic.Lib.Pipeline.Value
import Idealize.ShloMosaic.Lib.ValueIdx
import Idealize.ShloMosaic.Lib.ValueLayout

noncomputable section

open scoped BigOperators

namespace Cert.KernelIdeal.KV1

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.R1

variable (V : (c : Dev nD) → (b : Ref sig .tc) → Buf (Elt Ideal) ((c : Thread nD τ).loc b))

abbrev aX (c : Dev nD) : Vec Ideal S2x1x2048 .f32 := V c main_v6_0
abbrev aH (c : Dev nD) : Vec Ideal S2x1x2048 .f32 := V c main_v7
abbrev aC (c : Dev nD) : Vec Ideal S2x1x2048 .f32 := V c main_v8
abbrev aWih (c : Dev nD) : Vec Ideal S2x8192x4096 .f32 := V c main_arg8
abbrev aWhh (c : Dev nD) : Vec Ideal S2x8192x2048 .f32 := V c main_arg9
abbrev aB (c : Dev nD) : Vec Ideal S2x1x8192 .f32 := V c main_v9

theorem idx_facts (t : Fin grid1.N) :
    cc1_transform_1 (grid1.coords t) = ![t.val / 8, 0, 0] ∧ cc1_transform_3 (grid1.coords t) = ![t.val / 8, t.val % 8, 0] := by
  revert t; decide +kernel

theorem iblk1_0_apply (c : Dev nD) (t : Fin cfg1.N) (d : Fin 2) (k : Fin 2048) :
    (iblk1 V c 0 t : Vec Ideal S2x1x2048 .f32) (ix3 d 0 k) = aX V c (ix3 d 0 k) :=
  congrArg (aX V c) (funext fun a => Fin.ext (by
    match a with
    | ⟨0, _⟩ => show 0 * 2 + 1 * d.val = d.val; omega
    | ⟨1, _⟩ => rfl
    | ⟨2, _⟩ => show 0 * 2048 + 1 * k.val = k.val; omega))

theorem iblk1_2_apply (c : Dev nD) (t : Fin cfg1.N) (k : Fin 2048) :
    (iblk1 V c 2 t : Vec Ideal S1x1x2048 .f32) (ix3 0 0 k) = aC V c (ix3 (dOf t) 0 k) :=
  congrArg (aC V c) (KPay.blk_ix3 (idx_facts t).1 0 k (fun _ => rfl) rfl rfl)

theorem bias_apply (c : Dev nD) (t : Fin cfg1.N) (h : ∀ a, (k1_off1 (grid1.coords t)) a + S1x1x1024.size a ≤ S1x1x8192.size a) (q : Fin 1024) :
    View.ld (iblk1 V c 5 t) (Rect.unit (s := S1x1x8192) (k1_off1 (grid1.coords t)) S1x1x1024.size h) (ix3 0 0 q)
      = aB V c (ix3 (dOf t) 0 (colOf t q)) :=
  (congrArg (iblk1 V c 5 t : Vec Ideal S1x1x8192 .f32)
    (KPay.off_ix3 (k1_off1_eq (grid1.coords t)) q (fun _ => rfl) rfl rfl
      (by show 1024 * (t.val % 8) + q.val = 1024 * ((grid1.coords t) 1).val + q.val; rw [(coords1 t).2]))).trans
    (congrArg (aB V c) (KPay.blk_ix3 (idx_facts t).1 0 (colOf t q) (fun _ => rfl) rfl rfl))

theorem gblk1_apply (c : Dev nD) (t : Fin cfg1.N) (q : Fin 1024) :
    gblk1 V c t (ix2 0 q)
      = ((∑ k : Fin 4096, Cert.Spec.cat (fun q => aX V c (ix3 0 0 q)) (fun q => aX V c (ix3 1 0 q)) k * aWih V c (ix3 (dOf t) (colOf t q) k))
          + (∑ k : Fin 2048, aH V c (ix3 (dOf t) 0 k) * aWhh V c (ix3 (dOf t) (colOf t q) k)))
        + aB V c (ix3 (dOf t) 0 (colOf t q)) :=
  (KPay.k1_pay1_apply (iblk1 V c 0 t) _ (iblk1 V c 3 t) (iblk1 V c 1 t) (iblk1 V c 4 t) q).trans
    (congrArg₂ (· + ·)
      (congrArg₂ (· + ·)
        (Finset.sum_congr rfl fun k _ => congrArg₂ (· * ·)
          (congrArg₂ (fun a b => Cert.Spec.cat a b k) (funext fun k' => iblk1_0_apply V c t 0 k') (funext fun k' => iblk1_0_apply V c t 1 k'))
          (congrArg (aWih V c) (KPay.blk_ix3 (idx_facts t).2 q k (fun _ => rfl) rfl rfl)))
        (Finset.sum_congr rfl fun k _ => congrArg₂ (· * ·) (congrArg (aH V c) (KPay.blk_ix3 (idx_facts t).1 0 k (fun _ => rfl) rfl rfl)) (congrArg (aWhh V c) (KPay.blk_ix3 (idx_facts t).2 q k (fun _ => rfl) rfl rfl))))
      (bias_apply V c t _ q))

/-- Column j of the finished gate row was formed at point 8·(t / 8) + j / 1024, as column j % 1024 of its block. -/
theorem grow1_apply (c : Dev nD) (t : Fin cfg1.N) (j : Fin 8192) :
    grow1 V c t (ix3 0 0 j)
      = ((∑ k : Fin 4096, Cert.Spec.cat (fun q => aX V c (ix3 0 0 q)) (fun q => aX V c (ix3 1 0 q)) k * aWih V c (ix3 (dOf t) j k))
          + (∑ k : Fin 2048, aH V c (ix3 (dOf t) 0 k) * aWhh V c (ix3 (dOf t) j k)))
        + aB V c (ix3 (dOf t) 0 j) := by
  have hN := N1
  have hj := j.isLt
  have ht := t.isLt
  have hd : dOf (ptOf t j) = dOf t := Fin.ext (by show (8 * (t.val / 8) + j.val / 1024) / 8 = t.val / 8; omega)
  have hc : colOf (ptOf t j) ⟨j.val % 1024, Nat.mod_lt _ (by decide)⟩ = j :=
    Fin.ext (by show 1024 * ((8 * (t.val / 8) + j.val / 1024) % 8) + j.val % 1024 = j.val; omega)
  show gblk1 V c (ptOf t j) (ix2 0 ⟨j.val % 1024, Nat.mod_lt _ (by decide)⟩) = _
  rw [gblk1_apply, hd, hc]

def lastPt (d : Fin 2) : Fin cfg1.N := ⟨8 * d.val + 7, by have := d.isLt; have := N1; omega⟩

theorem dOf_lastPt (d : Fin 2) : dOf (lastPt d) = d := Fin.ext (by show (8 * d.val + 7) / 8 = d.val; omega)

theorem lastPt_dOf (t : Fin cfg1.N) (h : t.val % 8 = 7) : lastPt (dOf t) = t :=
  Fin.ext (by show 8 * (t.val / 8) + 7 = t.val; omega)

theorem emb6 (t : Fin cfg1.N) (k : Fin 2048) : ((cfg1.win 6).blk t).view.emb (ix3 0 0 k) = ix3 (dOf t) 0 k :=
  KPay.blk_ix3 (idx_facts t).1 0 k (fun _ => rfl) rfl rfl

theorem emb_last (i : S2x1x2048.Idx) : ((cfg1.win 6).blk (lastPt (i 0))).view.emb (ix3 0 0 (i 2)) = i :=
  ((emb6 _ (i 2)).trans (congrArg (ix3 · 0 (i 2)) (dOf_lastPt (i 0)))).trans (KPay.eq_ix3_s0 i).symm

theorem final6 (c : Dev nD) :
    (dat1 V c).arrAt 6 cfg1.N = fun i : S2x1x2048.Idx => hOut1 V c (lastPt (i 0)) (ix3 0 0 (i 2)) :=
  (dat1 V c).arrAt_eq_of_cover 6 _
    (fun t hf => (congrArg ((cfg1.win 6).cut (grid1.coords t)) (after1_6 V c t)).trans
      (KPay.rows_read (hOut1 V c) lastPt (emb6 t) (lastPt_dOf t ((flush1_6 t).mp hf))))
    fun i : S2x1x2048.Idx => ⟨lastPt (i 0), (flush1_6 _).mpr (by show (8 * (i 0).val + 7) % 8 = 7; omega),
      (congrArg (· ∈ _) (emb_last i)).mp (((cfg1.win 6).blk _).view.emb_mem_set _)⟩

theorem final7 (c : Dev nD) :
    (dat1 V c).arrAt 7 cfg1.N = fun i : S2x1x2048.Idx => cOut1 V c (lastPt (i 0)) (ix3 0 0 (i 2)) :=
  (dat1 V c).arrAt_eq_of_cover 7 _
    (fun t hf => (congrArg ((cfg1.win 7).cut (grid1.coords t)) (after1_7 V c t)).trans
      (KPay.rows_read (cOut1 V c) lastPt (emb6 t) (lastPt_dOf t ((flush1_7 t).mp hf))))
    fun i : S2x1x2048.Idx => ⟨lastPt (i 0), (flush1_7 _).mpr (by show (8 * (i 0).val + 7) % 8 = 7; omega),
      (congrArg (· ∈ _) (emb_last i)).mp (((cfg1.win 7).blk _).view.emb_mem_set _)⟩

end Cert.KernelIdeal.KV1

end
-- ==== Proof.KFinalC.lean ====
import proofs.«429347_j5763846111973_3_alg».proof.Proof.KFinalB
import proofs.«429347_j5763846111973_3_alg».proof.Proof.KV1

noncomputable section

open scoped BigOperators

namespace Cert.KernelIdeal.KFinal

attribute [local irreducible] Idealize.ShloMosaic.StableHlo.after

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Run
open Cert.Spec (Args)

variable (m : (ℓ : Loc nD τ sig) → Buf (Elt Ideal) ℓ) (ρ : Dev nD → PrngReg)
variable (hid : ∀ c : Dev nD, (0 : Int) ≤ ((m ((c.tc : Thread nD τ).loc main_arg0) : IVec S1 32) (ix1 0)).toInt)
variable (hOk : R0.Ok0 (V3 m ρ))

theorem W5_keep (c : Dev nD) (r : Ref sig .tc) (hw : ∀ w, Pipeline.arrRef spec0 w ≠ r) (h0 : r ∉ hostOps0_W) (h1 : r ∉ hostOps0_1_W)
    (h2 : r ∉ hostOps0_2_W) (h3 : r ∉ hostOps1_W) : W5 m ρ hOk c (Proc.devRef .tc r) = argAt m c r :=
  (StableHlo.after_of_writes_sub hostOps1 _ hostOps1_writes h3).trans
    ((W4_of_ne m ρ hOk c r hw).trans (W3_keep m ρ c r h0 h1 h2))

theorem V5_wih (c : Dev nD) : (V5 m ρ hOk c main_arg8 : Vec Ideal S2x8192x4096 .f32) = argAt m c main_arg8 :=
  W5_keep m ρ hOk c main_arg8 (by decide) (by decide) (by decide) (by decide) (by decide)
theorem V5_whh (c : Dev nD) : (V5 m ρ hOk c main_arg9 : Vec Ideal S2x8192x2048 .f32) = argAt m c main_arg9 :=
  W5_keep m ρ hOk c main_arg9 (by decide) (by decide) (by decide) (by decide) (by decide)

theorem V5_h (c : Dev nD) (d : Fin 2) (q : Fin 2048) :
    (V5 m ρ hOk c main_v7 : Vec Ideal S2x1x2048 .f32) (ix3 d 0 q) = (kArgs m c).h0 (Args.st 1 d) q :=
  (HostVal.v7_apply (W4 m ρ hOk c) d q).trans
    (congrFun ((W4_of_ne m ρ hOk c main_arg1 (by decide)).trans (W3_keep m ρ c main_arg1 (by decide) (by decide) (by decide))) _)

theorem V5_c (c : Dev nD) (d : Fin 2) (q : Fin 2048) :
    (V5 m ρ hOk c main_v8 : Vec Ideal S2x1x2048 .f32) (ix3 d 0 q) = (kArgs m c).c0 (Args.st 1 d) q :=
  (HostVal.v8_apply (W4 m ρ hOk c) d q).trans
    (congrFun ((W4_of_ne m ρ hOk c main_arg2 (by decide)).trans (W3_keep m ρ c main_arg2 (by decide) (by decide) (by decide))) _)

theorem V5_b (c : Dev nD) (d : Fin 2) (j : Fin 8192) :
    (V5 m ρ hOk c main_v9 : Vec Ideal S2x1x8192 .f32) (ix3 d 0 j) = (kArgs m c).bih1 d j + (kArgs m c).bhh1 d j :=
  (HostVal.v9_apply (W4 m ρ hOk c) d j).trans
    ((congrFun (W4_of_ne m ρ hOk c main_v2 (by decide)) _).trans (V3_b1 m ρ c d j))

include hid

theorem V5_x (c : Dev nD) (d : Fin 2) (q : Fin 2048) :
    (V5 m ρ hOk c main_v6_0 : Vec Ideal S2x1x2048 .f32) (ix3 d 0 q) = (kArgs m c).H0 d q :=
  (congrFun (StableHlo.after_of_writes_sub hostOps1 (W4 m ρ hOk c) hostOps1_writes (r := main_v6_0) (by decide)) _).trans
    (W4_h m ρ hid hOk c d q)

theorem g1_eq (c : Dev nD) (t : Fin cfg1.N) (j : Fin 8192) :
    R1.grow1 (V5 m ρ hOk) c t (ix3 0 0 j) = (kArgs m c).g1 (R1.dOf t) j :=
  (KV1.grow1_apply (V5 m ρ hOk) c t j).trans
    (congrArg₂ (· + ·)
      (congrArg₂ (· + ·)
        (Finset.sum_congr rfl fun k _ => congrArg₂ (· * ·)
          (congrArg₂ (Cert.Spec.cat · · k) (funext (V5_x m ρ hid hOk c 0)) (funext (V5_x m ρ hid hOk c 1)))
          (congrFun (V5_wih m ρ hOk c) _))
        (Finset.sum_congr rfl fun k _ => congrArg₂ (· * ·) (V5_h m ρ hOk c _ k) (congrFun (V5_whh m ρ hOk c) _)))
      (V5_b m ρ hOk c _ j))

theorem H1_eq (c : Dev nD) (t : Fin cfg1.N) (q : Fin 2048) :
    R1.hOut1 (V5 m ρ hOk) c t (ix3 0 0 q) = (kArgs m c).H1 (R1.dOf t) q :=
  (KPay.k0_pay4_apply (R1.grow1 (V5 m ρ hOk) c t) (R1.iblk1 (V5 m ρ hOk) c 2 t) q).trans
    (congrArg₂ (Cert.Spec.cellH · · q) (funext (g1_eq m ρ hid hOk c t))
      (funext fun q' => (KV1.iblk1_2_apply (V5 m ρ hOk) c t q').trans (V5_c m ρ hOk c _ q')))

theorem C1_eq (c : Dev nD) (t : Fin cfg1.N) (q : Fin 2048) :
    R1.cOut1 (V5 m ρ hOk) c t (ix3 0 0 q) = (kArgs m c).C1 (R1.dOf t) q :=
  (KPay.k0_pay5_apply (R1.grow1 (V5 m ρ hOk) c t) (R1.iblk1 (V5 m ρ hOk) c 2 t) q).trans
    (congrArg₂ (Cert.Spec.cellC · · q) (funext (g1_eq m ρ hid hOk c t))
      (funext fun q' => (KV1.iblk1_2_apply (V5 m ρ hOk) c t q').trans (V5_c m ρ hOk c _ q')))

theorem W6_h1 (c : Dev nD) (d : Fin 2) (q : Fin 2048) :
    (W6 m ρ hOk c (Proc.devRef .tc main_v10_0) : Vec Ideal S2x1x2048 .f32) (ix3 d 0 q) = (kArgs m c).H1 d q :=
  (congrFun ((W6_arr m ρ hOk c 6).trans (KV1.final6 (V5 m ρ hOk) c)) (ix3 d 0 q)).trans
    ((H1_eq m ρ hid hOk c _ q).trans (congrArg (fun e => (kArgs m c).H1 e q) (KV1.dOf_lastPt d)))

theorem W6_c1 (c : Dev nD) (d : Fin 2) (q : Fin 2048) :
    (W6 m ρ hOk c (Proc.devRef .tc main_v10_1) : Vec Ideal S2x1x2048 .f32) (ix3 d 0 q) = (kArgs m c).C1 d q :=
  (congrFun ((W6_arr m ρ hOk c 7).trans (KV1.final7 (V5 m ρ hOk) c)) (ix3 d 0 q)).trans
    ((C1_eq m ρ hid hOk c _ q).trans (congrArg (fun e => (kArgs m c).C1 e q) (KV1.dOf_lastPt d)))

theorem W6_h0 (c : Dev nD) (d : Fin 2) (q : Fin 2048) :
    (W6 m ρ hOk c (Proc.devRef .tc main_v6_0) : Vec Ideal S2x1x2048 .f32) (ix3 d 0 q) = (kArgs m c).H0 d q :=
  (congrFun ((W6_arr m ρ hOk c 0).trans (((R1.dat1 (V5 m ρ hOk) c).arrAt_in 0 rfl _).trans (R1.A_eq1 (V5 m ρ hOk) c 0))) (ix3 d 0 q)).trans
    (V5_x m ρ hid hOk c d q)

theorem W6_c0 (c : Dev nD) (d : Fin 2) (q : Fin 2048) :
    (W6 m ρ hOk c (Proc.devRef .tc main_v6_1) : Vec Ideal S2x1x2048 .f32) (ix3 d 0 q) = (kArgs m c).C0 d q :=
  (congrFun ((W6_of_ne m ρ hOk c main_v6_1 (by decide)).trans
      (StableHlo.after_of_writes_sub hostOps1 (W4 m ρ hOk c) hostOps1_writes (r := main_v6_1) (by decide))) (ix3 d 0 q)).trans
    (W4_c m ρ hid hOk c d q)

end Cert.KernelIdeal.KFinal

end
-- ==== Proof.KFinal.lean ====
import proofs.«429347_j5763846111973_3_alg».proof.Proof.KFinalC

noncomputable section

open scoped BigOperators

namespace Cert.KernelIdeal.KFinal

attribute [local irreducible] Idealize.ShloMosaic.StableHlo.after

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Run
open Cert.Spec (Args)

variable (m : (ℓ : Loc nD τ sig) → Buf (Elt Ideal) ℓ) (ρ : Dev nD → PrngReg)
variable (hid : ∀ c : Dev nD, (0 : Int) ≤ ((m ((c.tc : Thread nD τ).loc main_arg0) : IVec S1 32) (ix1 0)).toInt)
variable (hOk : R0.Ok0 (V3 m ρ))

include hid

theorem out_eq' (c : Dev nD) :
    (W7 m ρ hOk c (Proc.devRef .tc main_v16) : Vec Ideal S1x1x4096 .f32) = fun i => (kArgs m c).out (i 2) := by
  funext i
  rw [KPay.eq_ix3_00 i]
  refine (HostVal.v16_apply (W6 m ρ hOk c) (i 2)).trans ?_
  exact congrArg₂ (fun a b => Cert.Spec.cat a b (i 2)) (funext fun q => W6_h1 m ρ hid hOk c 0 q) (funext fun q => W6_h1 m ρ hid hOk c 1 q)

theorem hn_eq' (c : Dev nD) :
    (W7 m ρ hOk c (Proc.devRef .tc main_v17) : Vec Ideal S4x1x2048 .f32) = fun i => (kArgs m c).hn (i 0) (i 2) := by
  funext i
  rw [KPay.eq_ix3_s0 i]
  refine (HostVal.v17_apply (W6 m ρ hOk c) (i 0) (i 2)).trans ?_
  show _ = (kArgs m c).hn (i 0) (i 2)
  unfold Cert.Spec.Args.hn
  by_cases h : (i 0).val < 2
  · rw [if_pos h, if_pos h]; exact W6_h0 m ρ hid hOk c _ _
  · rw [if_neg h, if_neg h]; exact W6_h1 m ρ hid hOk c _ _

theorem cn_eq' (c : Dev nD) :
    (W7 m ρ hOk c (Proc.devRef .tc main_v18) : Vec Ideal S4x1x2048 .f32) = fun i => (kArgs m c).cn (i 0) (i 2) := by
  funext i
  rw [KPay.eq_ix3_s0 i]
  refine (HostVal.v18_apply (W6 m ρ hOk c) (i 0) (i 2)).trans ?_
  show _ = (kArgs m c).cn (i 0) (i 2)
  unfold Cert.Spec.Args.cn
  by_cases h : (i 0).val < 2
  · rw [if_pos h, if_pos h]; exact W6_c0 m ρ hid hOk c _ _
  · rw [if_neg h, if_neg h]; exact W6_c1 m ρ hid hOk c _ _

end Cert.KernelIdeal.KFinal

end
-- ==== Proof.Bits.R0Run.lean ====
import proofs.«429347_j5763846111973_3_alg».proof.Proof.Gen.Kernel.Launch
import proofs.«429347_j5763846111973_3_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (Pipeline.UD sig nD τ) ℕ

abbrev tbM : Memref sig .tc .smem S1 .i32 := Memref.whole main_v0
abbrev embM : Memref sig .tc .hbm S50257x1024 .f32 := Memref.whole main_arg3
abbrev scG0 : Memref sig .tc .vmem S2x1x8192 .f32 := Memref.whole cc0_scratch0
abbrev scX0 : Memref sig .tc .vmem S1x1024 .f32 := Memref.whole cc0_scratch1

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

abbrev wordOf (c : Dev nD) (ft : HbBuf (F := F) c tbM) : Elt F .i32 :=
  tbM.view.readAt (Elt F) (Rect.unit (s := S1) ![0] S1.size inb_S1_S1_0).toLoadRect ft (Shape.Idx.first (numel1_S1.symm ▸ Nat.one_pos))

theorem owns_unread {sp : Space} {S : Shape} {e : EltTy} {m : Memref sig .tc sp S e} (h : m.IsWhole) (c : Dev nD) (X : Vec F S e) :
    (owns (c : Thread nD τ) m fullShare X : sProp 𝕄) = iprop(m.view.loc (c : Thread nD τ) ↦[m.view.set]{fullShare} h.unread X) := by
  unfold owns
  refine BI.equiv_iff.mp ⟨?_, ?_⟩
  · show (_ : sProp 𝕄) ⊢ _; iintro ⟨%f, %hf, H⟩; obtain rfl := h.eq_unread hf; iexact H
  · show (_ : sProp 𝕄) ⊢ _; iintro H; iexists _; isplitr; · ipureintro; exact h.read_unread _
    iexact H

variable (c : Dev nD) (i : grid0.Coords) (hc1 : k0_cond1 i = 1#1) (nc1 : ¬ k0_cond1 i = 1#1) (hc2 : k0_cond2 i = 1#1) (nc2 : ¬ k0_cond2 i = 1#1)
  (arg4 : Memref sig .tc .vmem S1x1x2048 .f32) (harg4 : arg4.IsWhole) (arg5 : Memref sig .tc .vmem S1x1x2048 .f32) (harg5 : arg5.IsWhole) (arg6 : Memref sig .tc .vmem S1x2048x1024 .f32) (harg6 : arg6.IsWhole) (arg7 : Memref sig .tc .vmem S1x2048x2048 .f32) (harg7 : arg7.IsWhole) (arg8 : Memref sig .tc .vmem S1x1x8192 .f32) (harg8 : arg8.IsWhole) (arg9 : Memref sig .tc .vmem S1x1x2048 .f32) (harg9 : arg9.IsWhole) (arg10 : Memref sig .tc .vmem S1x1x2048 .f32) (harg10 : arg10.IsWhole)
  (x4 : Vec F S1x1x2048 .f32) (x5 : Vec F S1x1x2048 .f32) (x6 : Vec F S1x2048x1024 .f32) (x7 : Vec F S1x2048x2048 .f32) (x8 : Vec F S1x1x8192 .f32)
  (ft : HbBuf (F := F) c tbM) (fe : HbBuf (F := F) c embM) (fg : HbBuf (F := F) c scG0) (fx : HbBuf (F := F) c scX0)

noncomputable def runA (hchk : k0_chk1 i (wordOf c ft)) :
    { w : HbBuf (F := F) c scG0 × HbBuf (F := F) c scX0 //
      ∀ (W : Waits sig Unit) (K : PUnit → sProp 𝕄),
        iprop(hbPt c tbM ft ∗ hbPt c embM fe ∗ owns (c : Thread nD τ) arg4 fullShare x4 ∗ owns (c : Thread nD τ) arg6 fullShare x6 ∗ owns (c : Thread nD τ) arg7 fullShare x7 ∗ owns (c : Thread nD τ) arg8 fullShare x8
            ∗ hbPt c scG0 fg ∗ hbPt c scX0 fx ∗ semVal ((c : Thread nD τ), SemLoc.dma 14) 0 ∗ owes (c : Thread nD τ) 0 W
            ∗ (iprop(hbPt c tbM ft ∗ hbPt c embM fe ∗ owns (c : Thread nD τ) arg4 fullShare x4 ∗ owns (c : Thread nD τ) arg6 fullShare x6 ∗ owns (c : Thread nD τ) arg7 fullShare x7 ∗ owns (c : Thread nD τ) arg8 fullShare x8
                ∗ hbPt c scG0 w.1 ∗ hbPt c scX0 w.2 ∗ semVal ((c : Thread nD τ), SemLoc.dma 14) 0 ∗ (∃ W', owes (c : Thread nD τ) 0 W')) -∗ K ⟨⟩))
          ⊢ wp frame (wpE (defs₀ (F := F)) Variants.none c none) Set.univ (cc0__lstm_layer0_kernel i (Memref.whole main_v0) (Memref.isWhole_whole _) (Memref.whole main_arg3) (Memref.isWhole_whole _) arg4 harg4 arg5 harg5 arg6 harg6 arg7 harg7 arg8 harg8 arg9 harg9 arg10 harg10 (Memref.whole cc0_scratch0) (Memref.isWhole_whole _) (Memref.whole cc0_scratch1) (Memref.isWhole_whole _) cc0_scratch2) K } := by
  clear nc1 hc2
  refine ⟨(?_, ?_), fun W K => ?run⟩
  case run =>
    simp only [cc0__lstm_layer0_kernel_eq_skeleton, owns_unread harg4, owns_unread harg6, owns_unread harg7, owns_unread harg8]; unfold cc0__lstm_layer0_kernel_skel
    iintro ⟨Ht, He, H4, H6, H7, H8, Hg, Hx, Hq, HW, Hk⟩
    sl_exec (disch := first | sl_exact hc1 | sl_exact nc2 | sl_exact hchk)
    sl_step
    iapply Hk
    iframe Ht He H4 H6 H7 H8
    isplitl [Hg]; · iexact Hg
    isplitl [Hx]; · iexact Hx
    isplitl [Hq]; · iexact Hq
    iexists _; iexact HW

noncomputable def runB :
    { w : HbBuf (F := F) c scG0 //
      ∀ (K : PUnit → sProp 𝕄),
        iprop(owns (c : Thread nD τ) arg4 fullShare x4 ∗ owns (c : Thread nD τ) arg6 fullShare x6 ∗ owns (c : Thread nD τ) arg7 fullShare x7 ∗ owns (c : Thread nD τ) arg8 fullShare x8
            ∗ hbPt c scG0 fg ∗ hbPt c scX0 fx
            ∗ (iprop(owns (c : Thread nD τ) arg4 fullShare x4 ∗ owns (c : Thread nD τ) arg6 fullShare x6 ∗ owns (c : Thread nD τ) arg7 fullShare x7 ∗ owns (c : Thread nD τ) arg8 fullShare x8
                ∗ hbPt c scG0 w ∗ hbPt c scX0 fx) -∗ K ⟨⟩))
          ⊢ wp frame (wpE (defs₀ (F := F)) Variants.none c none) Set.univ (cc0__lstm_layer0_kernel i (Memref.whole main_v0) (Memref.isWhole_whole _) (Memref.whole main_arg3) (Memref.isWhole_whole _) arg4 harg4 arg5 harg5 arg6 harg6 arg7 harg7 arg8 harg8 arg9 harg9 arg10 harg10 (Memref.whole cc0_scratch0) (Memref.isWhole_whole _) (Memref.whole cc0_scratch1) (Memref.isWhole_whole _) cc0_scratch2) K } := by
  clear hc1 hc2
  refine ⟨?_, fun K => ?run⟩
  case run =>
    simp only [cc0__lstm_layer0_kernel_eq_skeleton, owns_unread harg4, owns_unread harg6, owns_unread harg7, owns_unread harg8]; unfold cc0__lstm_layer0_kernel_skel
    iintro ⟨H4, H6, H7, H8, Hg, Hx, Hk⟩
    sl_exec (disch := first | sl_exact nc1 | sl_exact nc2)
    sl_step
    iapply Hk
    iframe H4 H6 H7 H8 Hx
    iexact Hg

noncomputable def runC :
    { w : HbBuf (F := F) c scG0 × List (View.Piece (Elt F) S1x1x2048 .f32) × List (View.Piece (Elt F) S1x1x2048 .f32) //
      ∀ (K : PUnit → sProp 𝕄),
        iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
            ∗ (∃ d, owns (c : Thread nD τ) arg9 fullShare d) ∗ (∃ d, owns (c : Thread nD τ) arg10 fullShare d)
            ∗ hbPt c scG0 fg ∗ hbPt c scX0 fx
            ∗ (iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
                ∗ (∃ f, arg9.view.loc (c : Thread nD τ) ↦[arg9.view.set]{fullShare} arg9.view.writes (Elt F) f w.2.1)
                ∗ (∃ f, arg10.view.loc (c : Thread nD τ) ↦[arg10.view.set]{fullShare} arg10.view.writes (Elt F) f w.2.2)
                ∗ hbPt c scG0 w.1 ∗ hbPt c scX0 fx) -∗ K ⟨⟩))
          ⊢ wp frame (wpE (defs₀ (F := F)) Variants.none c none) Set.univ (cc0__lstm_layer0_kernel i (Memref.whole main_v0) (Memref.isWhole_whole _) (Memref.whole main_arg3) (Memref.isWhole_whole _) arg4 harg4 arg5 harg5 arg6 harg6 arg7 harg7 arg8 harg8 arg9 harg9 arg10 harg10 (Memref.whole cc0_scratch0) (Memref.isWhole_whole _) (Memref.whole cc0_scratch1) (Memref.isWhole_whole _) cc0_scratch2) K } := by
  clear hc1 nc2
  refine ⟨(?_, ?_, ?_), fun K => ?run⟩
  case run =>
    simp only [cc0__lstm_layer0_kernel_eq_skeleton, owns_unread harg4, owns_unread harg5, owns_unread harg6, owns_unread harg7, owns_unread harg8]; unfold cc0__lstm_layer0_kernel_skel
    unfold owns
    iintro ⟨H4, H5, H6, H7, H8, ⟨%d9, %f9, -, H9⟩, ⟨%d10, %f10, -, H10⟩, Hg, Hx, Hk⟩
    sl_exec (disch := first | sl_exact nc1 | sl_exact hc2)
    sl_step
    iapply Hk
    iframe H4 H5 H6 H7 H8 Hx
    isplitl [H9]; · iexists _; iexact H9
    isplitl [H10]; · iexists _; iexact H10
    iexact Hg

end Cert.Kernel.R0

end
-- ==== Proof.Bits.R0.lean ====
import proofs.«429347_j5763846111973_3_alg».proof.Proof.Gen.Kernel.Points
import proofs.«429347_j5763846111973_3_alg».proof.Proof.LibRowSlots
import proofs.«429347_j5763846111973_3_alg».proof.Proof.Bits.R0Run
import Idealize.ShloMosaic.Lib.ValueIdx
import Idealize.ShloMosaic.Lib.ValueLayout

noncomputable section

namespace Cert.Kernel.R0

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)
open Idealize.ShloMosaic.ValueIdx
open Cert.Kernel Cert.Kernel.Gen

variable {F : FTy → Type} [FloatOps F]

local notation "𝕄" => MT nD τ sig Unit (Elt F) ℕ (Pipeline.UD sig nD τ) ℕ

abbrev osem0 : Fin 1 → SemLoc sig := fun j => (![SemLoc.dma 14] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 14) 0) := by
  rw [Pipeline.ownSems0_eq_of_list c osem0 [0] (by decide) (by decide)]; rfl

section Region
variable (V : (c : Dev nD) → (b : Ref sig .tc) → Buf (Elt F) ((c : Thread nD τ).loc b))

def tbl : pre0.Contents (Elt F) := fun j => V (0 : Dev nD) (pre0.ref j)
abbrev adm0 : (pcfg0 (F := F)).Adm := ⟨tbl V, trivial⟩
abbrev cfgM : Pipeline.Cfg sig Λ₀ := cfg0 (adm0 V)

theorem N0 : (cfgM V).N = 8 := N_0

def dOf (t : Fin (cfgM V).N) : Fin 2 := ⟨t.val / 4, by have := t.isLt; have h : (cfgM V).N = 8 := N_0; omega⟩

def colOf (t : Fin (cfgM V).N) (q : Fin 2048) : Fin 8192 := ⟨2048 * (t.val % 4) + q.val, by have := q.isLt; omega⟩

def ptOf (t : Fin (cfgM V).N) (j : Fin 8192) : Fin (cfgM V).N := ⟨4 * (t.val / 4) + j.val / 2048, by have := t.isLt; have := j.isLt; have h : (cfgM V).N = 8 := N_0; omega⟩

theorem coords0 : ∀ t : Fin (cfgM V).N, ((grid0.coords t) 0).val = t.val / 4 ∧ ((grid0.coords t) 1).val = t.val % 4 :=
  (by decide +kernel : ∀ t : Fin grid0.N, ((grid0.coords t) 0).val = t.val / 4 ∧ ((grid0.coords t) 1).val = t.val % 4)

theorem hcond0_1 : ∀ t : Fin (cfgM V).N, k0_cond1 (grid0.coords t) = 1#1 ↔ t.val % 4 = 0 :=
  (by decide +kernel : ∀ t : Fin grid0.N, k0_cond1 (grid0.coords t) = 1#1 ↔ t.val % 4 = 0)
theorem hcond0_2 : ∀ t : Fin (cfgM V).N, k0_cond2 (grid0.coords t) = 1#1 ↔ t.val % 4 = 3 :=
  (by decide +kernel : ∀ t : Fin grid0.N, k0_cond2 (grid0.coords t) = 1#1 ↔ t.val % 4 = 3)

theorem flush0_5 : ∀ t : Fin (cfgM V).N, ((cfgM V).win 5).flush t = true ↔ t.val % 4 = 3 :=
  (by decide +kernel : ∀ t : Fin grid0.N, Pipeline.Window.flushOf grid0 true cc0_transform_6 t = true ↔ t.val % 4 = 3)
theorem flush0_6 : ∀ t : Fin (cfgM V).N, ((cfgM V).win 6).flush t = true ↔ t.val % 4 = 3 :=
  (by decide +kernel : ∀ t : Fin grid0.N, Pipeline.Window.flushOf grid0 true cc0_transform_7 t = true ↔ t.val % 4 = 3)

abbrev ms0_0 (t : Fin (cfgM V).N) : Memref sig .tc .vmem S1x1x2048 .f32 := spec0_0.stage ((cfgM V).slots t 0)
abbrev hs0_0 (t : Fin (cfgM V).N) : (ms0_0 V t).IsWhole := hstage0_0 (((cfgM V).slots t 0).cast nbuf0_0)
abbrev ms0_1 (t : Fin (cfgM V).N) : Memref sig .tc .vmem S1x1x2048 .f32 := spec0_1.stage ((cfgM V).slots t 1)
abbrev hs0_1 (t : Fin (cfgM V).N) : (ms0_1 V t).IsWhole := hstage0_1 (((cfgM V).slots t 1).cast nbuf0_1)
abbrev ms0_2 (t : Fin (cfgM V).N) : Memref sig .tc .vmem S1x2048x1024 .f32 := spec0_2.stage ((cfgM V).slots t 2)
abbrev hs0_2 (t : Fin (cfgM V).N) : (ms0_2 V t).IsWhole := hstage0_2 (((cfgM V).slots t 2).cast nbuf0_2)
abbrev ms0_3 (t : Fin (cfgM V).N) : Memref sig .tc .vmem S1x2048x2048 .f32 := spec0_3.stage ((cfgM V).slots t 3)
abbrev hs0_3 (t : Fin (cfgM V).N) : (ms0_3 V t).IsWhole := hstage0_3 (((cfgM V).slots t 3).cast nbuf0_3)
abbrev ms0_4 (t : Fin (cfgM V).N) : Memref sig .tc .vmem S1x1x8192 .f32 := spec0_4.stage ((cfgM V).slots t 4)
abbrev hs0_4 (t : Fin (cfgM V).N) : (ms0_4 V t).IsWhole := hstage0_4 (((cfgM V).slots t 4).cast nbuf0_4)
abbrev ms0_5 (t : Fin (cfgM V).N) : Memref sig .tc .vmem S1x1x2048 .f32 := spec0_5.stage ((cfgM V).slots t 5)
abbrev hs0_5 (t : Fin (cfgM V).N) : (ms0_5 V t).IsWhole := hstage0_5 (((cfgM V).slots t 5).cast nbuf0_5)
abbrev ms0_6 (t : Fin (cfgM V).N) : Memref sig .tc .vmem S1x1x2048 .f32 := spec0_6.stage ((cfgM V).slots t 6)
abbrev hs0_6 (t : Fin (cfgM V).N) : (ms0_6 V t).IsWhole := hstage0_6 (((cfgM V).slots t 6).cast nbuf0_6)

abbrev bodyAt0 (t : Fin (cfgM V).N) : Prog (TpuEff nD τ sig (Elt F) Λ₀ .tc) PUnit :=
  cc0__lstm_layer0_kernel (grid0.coords t) (Memref.whole main_v0) (Memref.isWhole_whole _) (Memref.whole main_arg3) (Memref.isWhole_whole _) (ms0_0 V t) (hs0_0 V t) (ms0_1 V t) (hs0_1 V t) (ms0_2 V t) (hs0_2 V t) (ms0_3 V t) (hs0_3 V t) (ms0_4 V t) (hs0_4 V t) (ms0_5 V t) (hs0_5 V t) (ms0_6 V t) (hs0_6 V t) (Memref.whole cc0_scratch0) (Memref.isWhole_whole _) (Memref.whole cc0_scratch1) (Memref.isWhole_whole _) cc0_scratch2

def iblk0 (c : Dev nD) (w : Fin (cfgM V).W) (t : Fin (cfgM V).N) : (((cfgM V).win w).xblock ((cfgM V).grid.coords t)).Idx → Elt F ((cfgM V).win w).elt :=
  (((cfgM V).win w).blk t).view.read (Elt F) (V c (Pipeline.arrRef spec0 w))

def word0 (c : Dev nD) : Elt F .i32 := wordOf c (V c main_v0)

def Ok0 : Prop := ∀ (c : Dev nD) (a : Fin 2), (k0_off1 (word0 V c)) a + S1x1024.size a ≤ S50257x1024.size a

variable (hOk : Ok0 V)

def xrow0 (c : Dev nD) : Vec F S1x1024 .f32 :=
  ReadAs.same.apply (View.read (Elt F) (embM.slice (Rect.unit (s := S50257x1024) (k0_off1 (word0 V c)) S1x1024.size (hOk c)) (fun _ => rfl)).view (V c main_arg3))

def gblk0 (c : Dev nD) (t : Fin (cfgM V).N) : FVec F S1x2048 .f32 :=
  k0_pay1 (View.ld (iblk0 V c 4 t) (Rect.unit (s := S1x1x8192) (k0_off2 (grid0.coords t)) S1x1x2048.size (k0_off2_inb (grid0.coords t))))
    (xrow0 V hOk c) (iblk0 V c 2 t) (iblk0 V c 0 t) (iblk0 V c 3 t)

def grow0 (c : Dev nD) (t : Fin (cfgM V).N) : Vec F S1x1x8192 .f32 :=
  fun y => gblk0 V hOk c (ptOf V t (y 2)) (ix2 (0 : Fin 1) ⟨(y 2).val % 2048, Nat.mod_lt _ (by decide)⟩)

def hOut0 (c : Dev nD) (t : Fin (cfgM V).N) : FVec F S1x1x2048 .f32 := k0_pay4 (grow0 V hOk c t) (iblk0 V c 1 t)
def cOut0 (c : Dev nD) (t : Fin (cfgM V).N) : FVec F S1x1x2048 .f32 := k0_pay5 (grow0 V hOk c t) (iblk0 V c 1 t)

def Inv0 (c : Dev nD) (n : ℕ) (g : HbBuf (F := F) c scG0) (x : HbBuf (F := F) c scX0) : Prop :=
  (∀ t' : Fin (cfgM V).N, t'.val < n → ∀ q : Fin 2048,
    scG0.view.read (Elt F) g (ix3 (dOf V t') (0 : Fin 1) (colOf V t' q)) = gblk0 V hOk c t' (ix2 (0 : Fin 1) q))
  ∧ (0 < n → scX0.view.read (Elt F) x = xrow0 V hOk c)

def Phi0 (c : Dev nD) (n : ℕ) : sProp 𝕄 :=
  iprop((((∃ f : HbBuf (F := F) c scG0, hbPt c scG0 f) ∗ (∃ f : HbBuf (F := F) c scX0, hbPt c scX0 f)) -∗ Pipeline.scopedRest spec0 c)
    ∗ (∃ r, prngReg c r) ∗ semVal ((c : Thread nD τ), SemLoc.dma 14) 0 ∗ hbPt c embM (V c main_arg3) ∗ hbPt c tbM (V c main_v0)
    ∗ ∃ (g : HbBuf (F := F) c scG0) (x : HbBuf (F := F) c scX0), hbPt c scG0 g ∗ hbPt c scX0 x ∗ ⌜Inv0 V hOk c n g x⌝)

def dat0 (c : Dev nD) : Dat τ (Elt F) Unit ℕ (Pipeline.UD sig nD τ) ℕ (cfgM V) c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => hOut0 V hOk c t
    | ⟨6, _⟩ => cOut0 V hOk c t
  Φ t := Phi0 V hOk c t.val
  q _ := fullShare
  owed _ := 0

theorem A_eq0 (c : Dev nD) (w : Fin (cfgM V).W) : (dat0 V hOk c).A w = V c (Pipeline.arrRef spec0 w) := rfl

theorem after0_0 (c : Dev nD) (t : Fin (cfgM V).N) : (dat0 V hOk c).after 0 t = iblk0 V c 0 t := rfl
theorem after0_1 (c : Dev nD) (t : Fin (cfgM V).N) : (dat0 V hOk c).after 1 t = iblk0 V c 1 t := rfl
theorem after0_2 (c : Dev nD) (t : Fin (cfgM V).N) : (dat0 V hOk c).after 2 t = iblk0 V c 2 t := rfl
theorem after0_3 (c : Dev nD) (t : Fin (cfgM V).N) : (dat0 V hOk c).after 3 t = iblk0 V c 3 t := rfl
theorem after0_4 (c : Dev nD) (t : Fin (cfgM V).N) : (dat0 V hOk c).after 4 t = iblk0 V c 4 t := rfl
theorem after0_5 (c : Dev nD) (t : Fin (cfgM V).N) : (dat0 V hOk c).after 5 t = hOut0 V hOk c t := rfl
theorem after0_6 (c : Dev nD) (t : Fin (cfgM V).N) : (dat0 V hOk c).after 6 t = cOut0 V hOk c t := rfl

theorem before0_in (c : Dev nD) : ∀ w : Fin (cfgM V).W, w.val < 5 → ∀ (t : Fin (cfgM V).N) (d), (dat0 V hOk c).before w t d = iblk0 V c w t
  | ⟨0, _⟩, _, t, d | ⟨1, _⟩, _, t, d | ⟨2, _⟩, _, t, d | ⟨3, _⟩, _, t, d | ⟨4, _⟩, _, t, d =>
    ((dat0 V hOk c).before_in_eq_fetched _ rfl (fun _ => rfl) (fun _ _ _ => rfl) (fun _ => rfl) t d).trans rfl
  | ⟨n + 5, _⟩, h, _, _ => absurd h (Nat.not_lt.2 (Nat.le_add_left 5 n))

theorem before0_0 (c : Dev nD) (t : Fin (cfgM V).N) (d) : (dat0 V hOk c).before 0 t d = iblk0 V c 0 t :=
  before0_in V hOk c 0 (Nat.le_of_ble_eq_true rfl) t d
theorem before0_1 (c : Dev nD) (t : Fin (cfgM V).N) (d) : (dat0 V hOk c).before 1 t d = iblk0 V c 1 t :=
  before0_in V hOk c 1 (Nat.le_of_ble_eq_true rfl) t d
theorem before0_2 (c : Dev nD) (t : Fin (cfgM V).N) (d) : (dat0 V hOk c).before 2 t d = iblk0 V c 2 t :=
  before0_in V hOk c 2 (Nat.le_of_ble_eq_true rfl) t d
theorem before0_3 (c : Dev nD) (t : Fin (cfgM V).N) (d) : (dat0 V hOk c).before 3 t d = iblk0 V c 3 t :=
  before0_in V hOk c 3 (Nat.le_of_ble_eq_true rfl) t d
theorem before0_4 (c : Dev nD) (t : Fin (cfgM V).N) (d) : (dat0 V hOk c).before 4 t d = iblk0 V c 4 t :=
  before0_in V hOk c 4 (Nat.le_of_ble_eq_true rfl) t d

end Region

end Cert.Kernel.R0

end
-- ==== Proof.Bits.R0Pure.lean ====
import proofs.«429347_j5763846111973_3_alg».proof.Proof.Bits.R0
import Idealize.ShloMosaic.Lib.Pipeline.Value

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Idealize.ShloMosaic.ValueIdx
open Cert.Kernel Cert.Kernel.Gen

variable {F : FTy → Type} [FloatOps F]

local notation "𝕄" => MT nD τ sig Unit (Elt F) ℕ (Pipeline.UD sig nD τ) ℕ

theorem hz2 : (![0, 0] : Fin 2 → ℕ) = fun _ => 0 := funext fun a => by match a with | ⟨0, _⟩ => rfl | ⟨1, _⟩ => rfl
theorem hz3 : (![0, 0, 0] : Fin 3 → ℕ) = fun _ => 0 := funext fun a => by match a with | ⟨0, _⟩ => rfl | ⟨1, _⟩ => rfl | ⟨2, _⟩ => rfl

abbrev bandV (i : grid0.Coords) : View sig .tc .vmem (Rect.unit (s := S1x8192) (k0_off4 i) S1x2048.size (k0_off4_inb i)).shape .f32 :=
  ((((Memref.whole cc0_scratch0 : Memref sig .tc .vmem S2x1x8192 .f32).slice (Rect.unit (s := S2x1x8192) (k0_off3 i) S1x1x8192.size (k0_off3_inb i)) (fun _ => rfl)).squeeze S1x8192 squeezes_S1x1x8192_S1x8192).access (Rect.unit (s := S1x8192) (k0_off4 i) S1x2048.size (k0_off4_inb i)))

theorem band_hit (c : Dev nD) (i : grid0.Coords) (d : Fin 2) (hd : (i 0).val = d.val) (fg : HbBuf (F := F) c scG0) (w : FVec F S1x2048 .f32)
    (q : Fin 2048) (j : Fin 8192) (hj : j.val = 2048 * (i 1).val + q.val) :
    scG0.view.read (Elt F) (View.write (Elt F) (bandV i) fg w Finset.univ) (ix3 d (0 : Fin 1) j) = w (ix2 (0 : Fin 1) q) := by
  refine RowSlots.read_write_own_hit (Val := Elt F) (G := 2) (N := 8192) scG0 d (k0_off3 i) ((k0_off3_eq i).trans (by rw [hd])) (k0_off3_inb i) (fun _ => rfl) squeezes_S1x1x8192_S1x8192
    (Rect.unit (s := S1x8192) (k0_off4 i) S1x2048.size (k0_off4_inb i)) fg w (ix2 (0 : Fin 1) q) j ?_
  funext a
  apply Fin.ext
  rw [Rect.emb_apply]
  match a with
  | ⟨0, _⟩ => show (k0_off4 i) 0 + 1 * 0 = 0; rw [k0_off4_eq i]; rfl
  | ⟨1, _⟩ => show (k0_off4 i) 1 + 1 * q.val = j.val; rw [k0_off4_eq i, hj]; show 2048 * (i 1).val + 1 * q.val = _; omega

theorem band_keep (c : Dev nD) (i : grid0.Coords) (fg : HbBuf (F := F) c scG0) (w : FVec F S1x2048 .f32)
    (d' : Fin 2) (j : Fin 8192) (h : ¬ (d'.val = (i 0).val ∧ 2048 * (i 1).val ≤ j.val ∧ j.val < 2048 * (i 1).val + 2048)) :
    scG0.view.read (Elt F) (View.write (Elt F) (bandV i) fg w Finset.univ) (ix3 d' (0 : Fin 1) j) = scG0.view.read (Elt F) fg (ix3 d' (0 : Fin 1) j) := by
  by_cases hd : d'.val = (i 0).val
  · refine RowSlots.read_write_own_miss (Val := Elt F) (G := 2) (N := 8192) scG0 d' (k0_off3 i) ((k0_off3_eq i).trans (by rw [hd])) (k0_off3_inb i) (fun _ => rfl) squeezes_S1x1x8192_S1x8192
      (Rect.unit (s := S1x8192) (k0_off4 i) S1x2048.size (k0_off4_inb i)) fg w Finset.univ j ?_
    intro hm
    have h1 := Rect.mem_set_unit.1 hm (1 : Fin 2)
    rw [k0_off4_eq i] at h1
    exact h ⟨hd, h1⟩
  · exact RowSlots.read_write_other_slot (Val := Elt F) (G := 2) (N := 8192) scG0 d' ⟨(i 0).val, (i 0).isLt⟩ (fun e => hd (congrArg Fin.val e)) (k0_off3 i) (k0_off3_eq i) (k0_off3_inb i) (fun _ => rfl) squeezes_S1x1x8192_S1x8192
      (Rect.unit (s := S1x8192) (k0_off4 i) S1x2048.size (k0_off4_inb i)) fg w Finset.univ j

abbrev rowOfT (c : Dev nD) (ft : HbBuf (F := F) c tbM) (fe : HbBuf (F := F) c embM) (h : ∀ a, (k0_off1 (wordOf c ft)) a + S1x1024.size a ≤ S50257x1024.size a) : Vec F S1x1024 .f32 :=
  ReadAs.same.apply (View.read (Elt F) (embM.slice (Rect.unit (s := S50257x1024) (k0_off1 (wordOf c ft)) S1x1024.size h) (fun _ => rfl)).view fe)

variable (c : Dev nD) (i : grid0.Coords) (hc1 : k0_cond1 i = 1#1) (nc1 : ¬ k0_cond1 i = 1#1) (nc2 : ¬ k0_cond2 i = 1#1)
  (arg4 : Memref sig .tc .vmem S1x1x2048 .f32) (harg4 : arg4.IsWhole) (arg5 : Memref sig .tc .vmem S1x1x2048 .f32) (harg5 : arg5.IsWhole) (arg6 : Memref sig .tc .vmem S1x2048x1024 .f32) (harg6 : arg6.IsWhole) (arg7 : Memref sig .tc .vmem S1x2048x2048 .f32) (harg7 : arg7.IsWhole) (arg8 : Memref sig .tc .vmem S1x1x8192 .f32) (harg8 : arg8.IsWhole) (arg9 : Memref sig .tc .vmem S1x1x2048 .f32) (harg9 : arg9.IsWhole) (arg10 : Memref sig .tc .vmem S1x1x2048 .f32) (harg10 : arg10.IsWhole)
  (x4 : Vec F S1x1x2048 .f32) (x6 : Vec F S1x2048x1024 .f32) (x7 : Vec F S1x2048x2048 .f32) (x8 : Vec F S1x1x8192 .f32)
  (ft : HbBuf (F := F) c tbM) (fe : HbBuf (F := F) c embM) (fg : HbBuf (F := F) c scG0) (fx : HbBuf (F := F) c scX0)

theorem runB_eq :
    (runB c i nc1 nc2 arg4 harg4 arg5 harg5 arg6 harg6 arg7 harg7 arg8 harg8 arg9 harg9 arg10 harg10 x4 x6 x7 x8 fg fx).1
      = View.write (Elt F) (bandV i) fg (k0_pay1 (View.ld x8 (Rect.unit (s := S1x1x8192) (k0_off2 i) S1x1x2048.size (k0_off2_inb i))) (scX0.view.read (Elt F) fx) x6 x4 x7) Finset.univ := by
  unfold runB
  dsimp only
  sl_unfold_words
  simp only [View.readAt_eq_ld, Memref.IsWhole.read_unread]
  rw [View.ld_unit_zero (S := S1x1024) hz2, View.ld_unit_zero (S := S1x2048x1024) hz3, View.ld_unit_zero (S := S1x1x2048) hz3, View.ld_unit_zero (S := S1x2048x2048) hz3]
  rfl

theorem runA_eq (hchk : k0_chk1 i (wordOf c ft)) :
    (runA c i hc1 nc2 arg4 harg4 arg5 harg5 arg6 harg6 arg7 harg7 arg8 harg8 arg9 harg9 arg10 harg10 x4 x6 x7 x8 ft fe fg fx hchk).1
      = (View.write (Elt F) (bandV i) fg (k0_pay1 (View.ld x8 (Rect.unit (s := S1x1x8192) (k0_off2 i) S1x1x2048.size (k0_off2_inb i))) (rowOfT c ft fe (hchk hc1)) x6 x4 x7) Finset.univ,
         View.write (Elt F) scX0.view fx (rowOfT c ft fe (hchk hc1)) Finset.univ) := by
  unfold runA
  dsimp only
  sl_unfold_words
  simp only [View.readAt_eq_ld, Memref.IsWhole.read_unread, View.read_write_univ]
  rw [View.ld_unit_zero (S := S1x1024) hz2, View.ld_unit_zero (S := S1x2048x1024) hz3, View.ld_unit_zero (S := S1x1x2048) hz3, View.ld_unit_zero (S := S1x2048x2048) hz3]
  rfl

end Cert.Kernel.R0
end
-- ==== Proof.Bits.R0Inv.lean ====
import proofs.«429347_j5763846111973_3_alg».proof.Proof.Bits.R0Pure

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Idealize.ShloMosaic.ValueIdx
open Cert.Kernel Cert.Kernel.Gen

variable {F : FTy → Type} [FloatOps F]

local notation "𝕄" => MT nD τ sig Unit (Elt F) ℕ (Pipeline.UD sig nD τ) ℕ

variable (c : Dev nD) (i : grid0.Coords) (nc1 : ¬ k0_cond1 i = 1#1) (hc2 : k0_cond2 i = 1#1)
  (arg4 : Memref sig .tc .vmem S1x1x2048 .f32) (harg4 : arg4.IsWhole) (arg5 : Memref sig .tc .vmem S1x1x2048 .f32) (harg5 : arg5.IsWhole) (arg6 : Memref sig .tc .vmem S1x2048x1024 .f32) (harg6 : arg6.IsWhole) (arg7 : Memref sig .tc .vmem S1x2048x2048 .f32) (harg7 : arg7.IsWhole) (arg8 : Memref sig .tc .vmem S1x1x8192 .f32) (harg8 : arg8.IsWhole) (arg9 : Memref sig .tc .vmem S1x1x2048 .f32) (harg9 : arg9.IsWhole) (arg10 : Memref sig .tc .vmem S1x1x2048 .f32) (harg10 : arg10.IsWhole)
  (x4 : Vec F S1x1x2048 .f32) (x5 : Vec F S1x1x2048 .f32) (x6 : Vec F S1x2048x1024 .f32) (x7 : Vec F S1x2048x2048 .f32) (x8 : Vec F S1x1x8192 .f32)
  (fg : HbBuf (F := F) c scG0) (fx : HbBuf (F := F) c scX0)

theorem runC_eq1 :
    (runC c i nc1 hc2 arg4 harg4 arg5 harg5 arg6 harg6 arg7 harg7 arg8 harg8 arg9 harg9 arg10 harg10 x4 x5 x6 x7 x8 fg fx).1.1
      = View.write (Elt F) (bandV i) fg (k0_pay1 (View.ld x8 (Rect.unit (s := S1x1x8192) (k0_off2 i) S1x1x2048.size (k0_off2_inb i))) (scX0.view.read (Elt F) fx) x6 x4 x7) Finset.univ := by
  unfold runC
  dsimp only
  sl_unfold_words
  simp only [View.readAt_eq_ld, Memref.IsWhole.read_unread]
  rw [View.ld_unit_zero (S := S1x1024) hz2, View.ld_unit_zero (S := S1x2048x1024) hz3, View.ld_unit_zero (S := S1x1x2048) hz3, View.ld_unit_zero (S := S1x2048x2048) hz3]
  rfl

theorem runC_out9
    {sg : RefSig} {κ : Kind} {sp : Space} (v : View sg κ sp S1x1x2048 .f32) (f : v.ty.Contents (Elt F)) :
    v.read (Elt F) (v.writes (Elt F) f (runC c i nc1 hc2 arg4 harg4 arg5 harg5 arg6 harg6 arg7 harg7 arg8 harg8 arg9 harg9 arg10 harg10 x4 x5 x6 x7 x8 fg fx).1.2.1)
      = k0_pay4 (View.ld (scG0.view.read (Elt F) (runC c i nc1 hc2 arg4 harg4 arg5 harg5 arg6 harg6 arg7 harg7 arg8 harg8 arg9 harg9 arg10 harg10 x4 x5 x6 x7 x8 fg fx).1.1) (Rect.unit (s := S2x1x8192) (k0_off5 i) S1x1x8192.size (k0_off5_inb i hc2))) x5 := by
  rw [runC_eq1]
  unfold runC
  dsimp only
  sl_unfold_words
  rw [View.read_writes_eq_canon v f _ (fun y => View.cover_of_tiled _ S1x1x2048.size (by rfl) y), View.canon_unit_zero hz3]
  simp only [View.readAt_eq_ld, Memref.IsWhole.read_unread]
  rw [View.ld_unit_zero (S := S1x1024) hz2, View.ld_unit_zero (S := S1x2048x1024) hz3, View.ld_unit_zero (S := S1x1x2048) hz3, View.ld_unit_zero (S := S1x2048x2048) hz3, View.ld_unit_zero (S := S1x1x2048) hz3]
  rfl

theorem runC_out10
    {sg : RefSig} {κ : Kind} {sp : Space} (v : View sg κ sp S1x1x2048 .f32) (f : v.ty.Contents (Elt F)) :
    v.read (Elt F) (v.writes (Elt F) f (runC c i nc1 hc2 arg4 harg4 arg5 harg5 arg6 harg6 arg7 harg7 arg8 harg8 arg9 harg9 arg10 harg10 x4 x5 x6 x7 x8 fg fx).1.2.2)
      = k0_pay5 (View.ld (scG0.view.read (Elt F) (runC c i nc1 hc2 arg4 harg4 arg5 harg5 arg6 harg6 arg7 harg7 arg8 harg8 arg9 harg9 arg10 harg10 x4 x5 x6 x7 x8 fg fx).1.1) (Rect.unit (s := S2x1x8192) (k0_off5 i) S1x1x8192.size (k0_off5_inb i hc2))) x5 := by
  rw [runC_eq1]
  unfold runC
  dsimp only
  sl_unfold_words
  rw [View.read_writes_eq_canon v f _ (fun y => View.cover_of_tiled _ S1x1x2048.size (by rfl) y), View.canon_unit_zero hz3]
  simp only [View.readAt_eq_ld, Memref.IsWhole.read_unread]
  rw [View.ld_unit_zero (S := S1x1024) hz2, View.ld_unit_zero (S := S1x2048x1024) hz3, View.ld_unit_zero (S := S1x1x2048) hz3, View.ld_unit_zero (S := S1x2048x2048) hz3, View.ld_unit_zero (S := S1x1x2048) hz3]
  rfl

section Region
variable (V : (c : Dev nD) → (b : Ref sig .tc) → Buf (Elt F) ((c : Thread nD τ).loc b)) (hOk : Ok0 V)

theorem inv_step (c : Dev nD) (t : Fin (cfgM V).N) (g : HbBuf (F := F) c scG0) (x x' : HbBuf (F := F) c scX0)
    (w : FVec F S1x2048 .f32) (hw : w = gblk0 V hOk c t)
    (hinv : Inv0 V hOk c t.val g x) (hx' : scX0.view.read (Elt F) x' = xrow0 V hOk c) :
    Inv0 V hOk c (t.val + 1) (View.write (Elt F) (bandV (grid0.coords t)) g w Finset.univ) x' := by
  subst hw
  have hco := coords0 V t
  refine ⟨fun t' ht' q => ?_, fun _ => hx'⟩
  have hq := q.isLt
  by_cases e : t'.val = t.val
  · obtain rfl : t' = t := Fin.ext e
    exact band_hit c (grid0.coords t') (dOf V t') (by rw [hco.1]; rfl) g _ q (colOf V t' q) (by rw [hco.2]; rfl)
  · have hlt : t'.val < t.val := by omega
    rw [band_keep c (grid0.coords t) g _ (dOf V t') (colOf V t' q) (by
      rw [hco.1, hco.2]
      show ¬ (t'.val / 4 = t.val / 4 ∧ 2048 * (t.val % 4) ≤ 2048 * (t'.val % 4) + q.val ∧ 2048 * (t'.val % 4) + q.val < 2048 * (t.val % 4) + 2048)
      omega)]
    exact hinv.1 t' hlt q

theorem row_of_inv (c : Dev nD) (t : Fin (cfgM V).N) (h3 : t.val % 4 = 3) (g : HbBuf (F := F) c scG0) (x : HbBuf (F := F) c scX0)
    (hinv : Inv0 V hOk c (t.val + 1) g x) (hc2 : k0_cond2 (grid0.coords t) = 1#1) :
    View.ld (scG0.view.read (Elt F) g) (Rect.unit (s := S2x1x8192) (k0_off5 (grid0.coords t)) S1x1x8192.size (k0_off5_inb (grid0.coords t) hc2)) = grow0 V hOk c t := by
  have hco := coords0 V t
  funext y
  obtain ⟨a, b, j, rfl⟩ : ∃ (a : Fin 1) (b : Fin 1) (j : Fin 8192), y = ix3 a b j := ⟨y 0, y 1, y 2, eq_ix3 y⟩
  obtain rfl : a = 0 := Subsingleton.elim _ _
  obtain rfl : b = 0 := Subsingleton.elim _ _
  have hj := j.isLt
  have hN : t.val < 8 := lt_of_lt_of_eq t.isLt (N0 V)
  refine (congrArg (scG0.view.read (Elt F) g) ?_).trans (hinv.1 (ptOf V t j) (by show 4 * (t.val / 4) + j.val / 2048 < t.val + 1; omega) ⟨j.val % 2048, Nat.mod_lt _ (by decide)⟩)
  funext a
  apply Fin.ext
  show ((Rect.unit (s := S2x1x8192) (k0_off5 (grid0.coords t)) S1x1x8192.size _).emb (ix3 (0 : Fin 1) (0 : Fin 1) j) a).val = _
  rw [Rect.emb_apply]
  have hoff := k0_off5_eq (grid0.coords t)
  match a with
  | ⟨0, _⟩ => show (k0_off5 (grid0.coords t)) 0 + 1 * 0 = (4 * (t.val / 4) + j.val / 2048) / 4; rw [hoff]; show (grid0.coords t 0).val + 1 * 0 = _; rw [hco.1]; omega
  | ⟨1, _⟩ => show (k0_off5 (grid0.coords t)) 1 + 1 * 0 = 0; rw [hoff]; rfl
  | ⟨2, _⟩ => show (k0_off5 (grid0.coords t)) 2 + 1 * j.val = 2048 * ((4 * (t.val / 4) + j.val / 2048) % 4) + j.val % 2048; rw [hoff]; show 0 + 1 * j.val = _; omega

end Region

end Cert.Kernel.R0
end
-- ==== Proof.Bits.R0ObPre.lean ====
import proofs.«429347_j5763846111973_3_alg».proof.Proof.Bits.R0Inv

noncomputable section

namespace Cert.Kernel.R0

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.Kernel Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b)) (hOk : Ok0 V)

theorem idle0_5 (t : Fin (cfgM V).N) (h : ¬ t.val % 4 = 3) : (cfgM V).idle 5 (grid0.coords t) = true := by
  have hc : ¬ k0_cond2 (grid0.coords t) = 1#1 := fun e => h ((hcond0_2 V t).mp e)
  show (!(k0_cond2 (grid0.coords t) == 1#1)) = true
  simp [hc]
theorem idle0_6 (t : Fin (cfgM V).N) (h : ¬ t.val % 4 = 3) : (cfgM V).idle 6 (grid0.coords t) = true := by
  have hc : ¬ k0_cond2 (grid0.coords t) = 1#1 := fun e => h ((hcond0_2 V t).mp e)
  show (!(k0_cond2 (grid0.coords t) == 1#1)) = true
  simp [hc]
theorem live0_5 (t : Fin (cfgM V).N) (h : t.val % 4 = 3) : (cfgM V).idle 5 (grid0.coords t) = false := by
  have hc : k0_cond2 (grid0.coords t) = 1#1 := (hcond0_2 V t).mpr h
  show (!(k0_cond2 (grid0.coords t) == 1#1)) = false
  simp [hc]
theorem live0_6 (t : Fin (cfgM V).N) (h : t.val % 4 = 3) : (cfgM V).idle 6 (grid0.coords t) = false := by
  have hc : k0_cond2 (grid0.coords t) = 1#1 := (hcond0_2 V t).mpr h
  show (!(k0_cond2 (grid0.coords t) == 1#1)) = false
  simp [hc]
theorem noFlush0_5 (t : Fin (cfgM V).N) (h : ¬ t.val % 4 = 3) : ((cfgM V).win 5).flush t = false := by
  cases hf : ((cfgM V).win 5).flush t
  · rfl
  · exact absurd ((flush0_5 V t).mp hf) h
theorem noFlush0_6 (t : Fin (cfgM V).N) (h : ¬ t.val % 4 = 3) : ((cfgM V).win 6).flush t = false := by
  cases hf : ((cfgM V).win 6).flush t
  · rfl
  · exact absurd ((flush0_6 V t).mp hf) h

def bodyPre0 (c : Dev nD) (t : Fin (cfgM V).N) : sProp 𝕄 :=
  iprop(Phi0 V hOk c t.val ∗ (dat0 V hOk c).owesAt () t.castSucc
    ∗ (∃ d, owns (c : Thread nD τ) (ms0_0 V t) fullShare ((dat0 V hOk c).before 0 t d))
    ∗ (∃ d, owns (c : Thread nD τ) (ms0_1 V t) fullShare ((dat0 V hOk c).before 1 t d))
    ∗ (∃ d, owns (c : Thread nD τ) (ms0_2 V t) fullShare ((dat0 V hOk c).before 2 t d))
    ∗ (∃ d, owns (c : Thread nD τ) (ms0_3 V t) fullShare ((dat0 V hOk c).before 3 t d))
    ∗ (∃ d, owns (c : Thread nD τ) (ms0_4 V t) fullShare ((dat0 V hOk c).before 4 t d))
    ∗ (∃ d, owns (c : Thread nD τ) (ms0_5 V t) fullShare ((dat0 V hOk c).before 5 t d))
    ∗ (∃ d, owns (c : Thread nD τ) (ms0_6 V t) fullShare ((dat0 V hOk c).before 6 t d)))

def bodyPost0 (c : Dev nD) (t : Fin (cfgM V).N) : sProp 𝕄 :=
  iprop(Phi0 V hOk c (t.val + 1) ∗ (dat0 V hOk c).owesAt () t.castSucc
    ∗ owns (c : Thread nD τ) (ms0_0 V t) fullShare (iblk0 V c 0 t)
    ∗ owns (c : Thread nD τ) (ms0_1 V t) fullShare (iblk0 V c 1 t)
    ∗ owns (c : Thread nD τ) (ms0_2 V t) fullShare (iblk0 V c 2 t)
    ∗ owns (c : Thread nD τ) (ms0_3 V t) fullShare (iblk0 V c 3 t)
    ∗ owns (c : Thread nD τ) (ms0_4 V t) fullShare (iblk0 V c 4 t)
    ∗ (dat0 V hOk c).leavesExact 5 t
    ∗ (dat0 V hOk c).leavesExact 6 t)

end Cert.Kernel.R0
end
-- ==== Proof.Bits.R0ObA.lean ====
import proofs.«429347_j5763846111973_3_alg».proof.Proof.Bits.R0ObPre

noncomputable section

namespace Cert.Kernel.R0

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.Kernel Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b)) (hOk : Ok0 V)

theorem sound_A (c : Dev nD) (t : Fin (cfgM V).N) (h0 : t.val % 4 = 0) :
    bodyPre0 V hOk c t ⊢ wp frame (wpE (defs₀ (F := F)) Variants.none c none) Set.univ (bodyAt0 V t) (fun _ => bodyPost0 V hOk c t) := by
  have h3 : ¬ t.val % 4 = 3 := by omega
  unfold bodyPre0 bodyPost0 bodyAt0 Phi0 Dat.owesAt Pipeline.owesWithin
  simp only [before0_0, before0_1, before0_2, before0_3, before0_4]
  rw [Dat.leavesExact_idle (dat0 V hOk c) 5 t (idle0_5 V t h3) (noFlush0_5 V t h3), Dat.leavesExact_idle (dat0 V hOk c) 6 t (idle0_6 V t h3) (noFlush0_6 V t h3)]
  rw [show (dat0 V hOk c).owed t.castSucc = 0 from rfl]
  have hc1 : k0_cond1 (grid0.coords t) = 1#1 := (hcond0_1 V t).mpr h0
  have hc2 : ¬ k0_cond2 (grid0.coords t) = 1#1 := fun e => h3 ((hcond0_2 V t).mp e)
  iintro ⟨⟨Hrest, Hg, Hq, He, Ht, ⟨%g, %x, HG, HX, %hinv⟩⟩, ⟨%W, -, HW⟩, ⟨%d0, H0⟩, ⟨%d1, H1⟩, ⟨%d2, H2⟩, ⟨%d3, H3⟩, ⟨%d4, H4⟩, H5, H6⟩
  iapply ((runA c _ hc1 hc2 _ _ _ _ _ _ _ _ _ _ _ _ _ _ (iblk0 V c 0 t) (iblk0 V c 2 t) (iblk0 V c 3 t) (iblk0 V c 4 t) (V c main_v0) (V c main_arg3) g x (fun _ => hOk c)).2 W _)
  iframe
  iintro ⟨Ht, He, H0, H2, H3, H4, HG, HX, Hq, ⟨%W', HW'⟩⟩
  iframe Ht He H0 H2 H3 H4 Hq
  isplitl [HG HX]
  · iexists _, _
    iframe
    ipureintro
    refine Eq.mpr (congrArg (fun z : HbBuf (F := F) c scG0 × HbBuf (F := F) c scX0 => Inv0 V hOk c (t.val + 1) z.1 z.2) (runA_eq ..)) ?_
    dsimp only
    exact inv_step V hOk c t g x _ _ (by unfold gblk0 xrow0; rfl) hinv (by unfold xrow0; exact View.read_write_univ _ _)
  isplitl [HW']
  · iexists W'; isplitr; · ipureintro; exact fun _ _ => Or.inl trivial
    iexact HW'
  isplitl [H5]; · iexact H5
  iexact H6

end Cert.Kernel.R0
end
-- ==== Proof.Bits.R0ObB.lean ====
import proofs.«429347_j5763846111973_3_alg».proof.Proof.Bits.R0ObPre

noncomputable section

namespace Cert.Kernel.R0

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.Kernel Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b)) (hOk : Ok0 V)

theorem sound_B (c : Dev nD) (t : Fin (cfgM V).N) (h0 : ¬ t.val % 4 = 0) (h3 : ¬ t.val % 4 = 3) :
    bodyPre0 V hOk c t ⊢ wp frame (wpE (defs₀ (F := F)) Variants.none c none) Set.univ (bodyAt0 V t) (fun _ => bodyPost0 V hOk c t) := by
  unfold bodyPre0 bodyPost0 bodyAt0 Phi0
  simp only [before0_0, before0_1, before0_2, before0_3, before0_4]
  rw [Dat.leavesExact_idle (dat0 V hOk c) 5 t (idle0_5 V t h3) (noFlush0_5 V t h3), Dat.leavesExact_idle (dat0 V hOk c) 6 t (idle0_6 V t h3) (noFlush0_6 V t h3)]
  have hc1 : ¬ k0_cond1 (grid0.coords t) = 1#1 := fun e => h0 ((hcond0_1 V t).mp e)
  have hc2 : ¬ k0_cond2 (grid0.coords t) = 1#1 := fun e => h3 ((hcond0_2 V t).mp e)
  have hpos : 0 < t.val := by omega
  iintro ⟨⟨Hrest, Hg, Hq, He, Ht, ⟨%g, %x, HG, HX, %hinv⟩⟩, Ho, ⟨%d0, H0⟩, ⟨%d1, H1⟩, ⟨%d2, H2⟩, ⟨%d3, H3⟩, ⟨%d4, H4⟩, H5, H6⟩
  iapply ((runB c _ hc1 hc2 _ _ _ _ _ _ _ _ _ _ _ _ _ _ (iblk0 V c 0 t) (iblk0 V c 2 t) (iblk0 V c 3 t) (iblk0 V c 4 t) g x).2 _)
  iframe
  iintro ⟨H0, H2, H3, H4, HG, HX⟩
  iframe H0 H2 H3 H4
  isplitl [HG HX]
  · iexists _, x
    iframe
    ipureintro
    refine Eq.mpr (congrArg (fun z => Inv0 V hOk c (t.val + 1) z x) (runB_eq ..)) ?_
    exact inv_step V hOk c t g x x _ (by unfold gblk0; exact congrArg (fun r => k0_pay1 _ r _ _ _) (hinv.2 hpos)) hinv (hinv.2 hpos)
  isplitl [H5]; · iexact H5
  iexact H6

end Cert.Kernel.R0
end
-- ==== Proof.Bits.R0ObC.lean ====
import proofs.«429347_j5763846111973_3_alg».proof.Proof.Bits.R0ObPre

noncomputable section

namespace Cert.Kernel.R0

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.Kernel Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b)) (hOk : Ok0 V)

theorem sound_C (c : Dev nD) (t : Fin (cfgM V).N) (h3 : t.val % 4 = 3) :
    bodyPre0 V hOk c t ⊢ wp frame (wpE (defs₀ (F := F)) Variants.none c none) Set.univ (bodyAt0 V t) (fun _ => bodyPost0 V hOk c t) := by
  have h0 : ¬ t.val % 4 = 0 := by omega
  unfold bodyPre0 bodyPost0 bodyAt0 Phi0
  simp only [before0_0, before0_1, before0_2, before0_3, before0_4]
  rw [show (dat0 V hOk c).leavesExact 5 t = owns (c : Thread nD τ) (ms0_5 V t) fullShare (hOut0 V hOk c t) from by
    unfold Dat.leavesExact; rw [live0_5 V t h3]; rfl]
  rw [show (dat0 V hOk c).leavesExact 6 t = owns (c : Thread nD τ) (ms0_6 V t) fullShare (cOut0 V hOk c t) from by
    unfold Dat.leavesExact; rw [live0_6 V t h3]; rfl]
  have hc1 : ¬ k0_cond1 (grid0.coords t) = 1#1 := fun e => h0 ((hcond0_1 V t).mp e)
  have hc2 : k0_cond2 (grid0.coords t) = 1#1 := (hcond0_2 V t).mpr h3
  have hpos : 0 < t.val := by omega
  iintro ⟨⟨Hrest, Hg, Hq, He, Ht, ⟨%g, %x, HG, HX, %hinv⟩⟩, Ho, ⟨%d0, H0⟩, ⟨%d1, H1⟩, ⟨%d2, H2⟩, ⟨%d3, H3⟩, ⟨%d4, H4⟩, ⟨%d5, H5⟩, ⟨%d6, H6⟩⟩
  iapply ((runC c _ hc1 hc2 _ _ _ _ _ _ _ _ _ _ _ _ _ _ (iblk0 V c 0 t) (iblk0 V c 1 t) (iblk0 V c 2 t) (iblk0 V c 3 t) (iblk0 V c 4 t) g x).2 _)
  iframe
  isplitl [H5]; · iexists _; iexact H5
  isplitl [H6]; · iexists _; iexact H6
  iintro ⟨H0, H1, H2, H3, H4, ⟨%e5, H5⟩, ⟨%e6, H6⟩, HG, HX⟩
  have hinv' := inv_step V hOk c t g x x _ (by unfold gblk0; exact congrArg (fun r => k0_pay1 _ r _ _ _) (hinv.2 hpos)) hinv (hinv.2 hpos)
  have hrow := fun g' (e : g' = _) => row_of_inv V hOk c t h3 g' x (Eq.mpr (congrArg (fun z => Inv0 V hOk c (t.val + 1) z x) e) hinv') hc2
  iframe H0 H1 H2 H3 H4
  isplitl [HG HX]
  · iexists _, x
    iframe
    ipureintro
    exact Eq.mpr (congrArg (fun z => Inv0 V hOk c (t.val + 1) z x) (runC_eq1 ..)) hinv'
  unfold owns
  isplitl [H5]
  · iexists _
    iframe
    ipureintro
    exact (runC_out9 ..).trans (congrArg (fun r => k0_pay4 r _) (hrow _ (runC_eq1 ..)))
  iexists _
  iframe
  ipureintro
  exact (runC_out10 ..).trans (congrArg (fun r => k0_pay5 r _) (hrow _ (runC_eq1 ..)))

end Cert.Kernel.R0
end
-- ==== Proof.Bits.R0Ob.lean ====
import proofs.«429347_j5763846111973_3_alg».proof.Proof.Bits.R0ObA
import proofs.«429347_j5763846111973_3_alg».proof.Proof.Bits.R0ObB
import proofs.«429347_j5763846111973_3_alg».proof.Proof.Bits.R0ObC

noncomputable section

namespace Cert.Kernel.R0

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.Kernel Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b)) (hOk : Ok0 V)

theorem body_obligation0 (c : Dev nD) : BodyObligation (dat0 (F := F) V hOk c) (defs₀ (F := F)) Variants.none () Set.univ := fun t => by
  rw [bigSep_W0, bigSep_W0]
  by_cases h0 : t.val % 4 = 0
  · exact sound_A V hOk c t h0
  by_cases h3 : t.val % 4 = 3
  · exact sound_C V hOk c t h3
  · exact sound_B V hOk c t h0 h3

theorem hin0 (c : Dev nD) :
    iprop(iprop((∃ r, prngReg c r) ∗ Pipeline.ownSems0 (Ix := Unit) (Name := ℕ) (U := Pipeline.UD sig nD τ) (Lvl := ℕ) (Val := Elt F) (τ := τ) osem0 c ∗ hbPt c embM (V c main_arg3))
        ∗ Pipeline.prefHeld (Ix := Unit) (Name := ℕ) (U := Pipeline.UD sig nD τ) (Lvl := ℕ) pre0 c (fun _ => fullShare) (tbl V)
        ∗ Pipeline.scopedRest (Ix := Unit) (Name := ℕ) (U := Pipeline.UD sig nD τ) (Lvl := ℕ) (Val := Elt F) spec0 c)
      ⊢ (Phi0 V hOk c 0 : sProp 𝕄) := by
  rw [ownSems00_eq]
  have htb : (Pipeline.prefHeld (Ix := Unit) (Name := ℕ) (U := Pipeline.UD sig nD τ) (Lvl := ℕ) pre0 c (fun _ => fullShare) (tbl V) : sProp 𝕄)
      = hbPt c tbM (V c main_v0) := by
    unfold Pipeline.prefHeld
    rw [show (Finset.univ : Finset (Fin 1)) = {(0 : Fin 1)} from by decide, bigSep_singleton]
    obtain rfl : c = 0 := Subsingleton.elim _ _
    rfl
  rw [htb]
  unfold Phi0
  rewrite [scopedRest0_eq]
  iintro ⟨⟨Hp, Hq, He⟩, Ht, ⟨%g, HG⟩, ⟨%x, HX⟩, H1, H2, H3, H4, H5, H6, H7, H8, H9, H10, H11, H12, H13, H14, H15, H16⟩
  iframe Hp Hq He Ht
  isplitr [HG HX]
  · iintro ⟨HG, HX⟩
    iframe
  iexists g, x
  iframe
  ipureintro
  exact ⟨fun t' h => absurd h (Nat.not_lt_zero _), fun h => absurd h (Nat.lt_irrefl _)⟩

theorem hout0 (c : Dev nD) :
    (Phi0 V hOk c (cfgM V).N : sProp 𝕄)
      ⊢ iprop(iprop((∃ r, prngReg c r) ∗ hbPt c embM (V c main_arg3) ∗ hbPt c tbM (V c main_v0))
        ∗ Pipeline.ownSems0 (Ix := Unit) (Name := ℕ) (U := Pipeline.UD sig nD τ) (Lvl := ℕ) (Val := Elt F) (τ := τ) osem0 c
        ∗ Pipeline.scopedRest (Ix := Unit) (Name := ℕ) (U := Pipeline.UD sig nD τ) (Lvl := ℕ) (Val := Elt F) spec0 c) := by
  rw [ownSems00_eq]
  unfold Phi0
  iintro ⟨Hw, Hp, Hq, He, Ht, ⟨%g, %x, HG, HX, -⟩⟩
  iframe Hp Hq He Ht
  iapply Hw
  isplitl [HG]; · iexists g; iexact HG
  iexists x; iexact HX

end Cert.Kernel.R0
end
-- ==== Proof.Bits.R1.lean ====
import proofs.«429347_j5763846111973_3_alg».proof.Proof.Gen.Kernel.Launch
import proofs.«429347_j5763846111973_3_alg».proof.Proof.Gen.Kernel.Skeleton
import proofs.«429347_j5763846111973_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value
import proofs.«429347_j5763846111973_3_alg».proof.Proof.LibRowSlots
import proofs.«429347_j5763846111973_3_alg».proof.Proof.Bits.R0Run

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Kernel Cert.Kernel.Gen

variable {F : FTy → Type} [FloatOps F]

local notation "𝕄" => MT nD τ sig Unit (Elt F) ℕ (Pipeline.UD sig nD τ) ℕ

abbrev scM1 : Memref sig .tc .vmem S2x1x8192 .f32 := Memref.whole cc1_scratch0

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

theorem N1 : cfg1.N = 16 := N_1

/-- Grid point t = 8·d + rb: direction d = t / 8, row block rb = t % 8 (columns 1024·rb … of the row of 8192 gates). -/
def dOf (t : Fin cfg1.N) : Fin 2 := ⟨t.val / 8, by have := t.isLt; have h : cfg1.N = 16 := N_1; omega⟩

def colOf (t : Fin cfg1.N) (q : Fin 1024) : Fin 8192 := ⟨1024 * (t.val % 8) + q.val, by have := q.isLt; omega⟩

def ptOf (t : Fin cfg1.N) (j : Fin 8192) : Fin cfg1.N := ⟨8 * (t.val / 8) + j.val / 1024, by have := t.isLt; have := j.isLt; have h : cfg1.N = 16 := N_1; omega⟩

theorem coords1 : ∀ t : Fin cfg1.N, ((grid1.coords t) 0).val = t.val / 8 ∧ ((grid1.coords t) 1).val = t.val % 8 :=
  (by decide +kernel : ∀ t : Fin grid1.N, ((grid1.coords t) 0).val = t.val / 8 ∧ ((grid1.coords t) 1).val = t.val % 8)

theorem hcond1 : ∀ t : Fin cfg1.N, k1_cond1 (grid1.coords t) = 1#1 ↔ t.val % 8 = 7 :=
  (by decide +kernel : ∀ t : Fin grid1.N, k1_cond1 (grid1.coords t) = 1#1 ↔ t.val % 8 = 7)

theorem hz3 : (![0, 0, 0] : Fin 3 → Nat) = fun _ => 0 := funext fun a => by fin_cases a <;> rfl

def newS (c : Dev nD) (i : grid1.Coords) (fs : HbBuf (F := F) c scM1) (pay : FVec F S1x1024 .f32) : HbBuf (F := F) c scM1 :=
  View.write (Elt F)
    (((scM1.slice (Rect.unit (s := S2x1x8192) (k1_off2 i) S1x1x8192.size (k1_off2_inb i)) (fun _ => rfl)).squeeze S1x8192 squeezes_S1x1x8192_S1x8192).access
      (Rect.unit (s := S1x8192) (k1_off3 i) S1x1024.size (k1_off3_inb i)))
    fs pay Finset.univ

def payOf (i : grid1.Coords) (x2 : Vec F S2x1x2048 .f32) (x3 : Vec F S1x1x2048 .f32) (x5 : Vec F S1x1024x4096 .f32) (x6 : Vec F S1x1024x2048 .f32) (x7 : Vec F S1x1x8192 .f32) : FVec F S1x1024 .f32 :=
  k1_pay1 x2 (View.ld x7 (Rect.unit (s := S1x1x8192) (k1_off1 i) S1x1x1024.size (k1_off1_inb i))) x5 x3 x6

def rowB (c : Dev nD) (i : grid1.Coords) (hc : k1_cond1 i = 1#1) (g : HbBuf (F := F) c scM1) : Vec F S1x1x8192 .f32 :=
  View.ld (scM1.view.read (Elt F) g) (Rect.unit (s := S2x1x8192) (k1_off4 i) S1x1x8192.size (k1_off4_inb i hc))

theorem cover8 (p0 : Vec F S1x1x2048 .f32) (y : S1x1x2048.Idx) :
    ∃ pc ∈ ([⟨Rect.unit (s := S1x1x2048) ![0, 0, 0] S1x1x2048.size inb_S1x1x2048_S1x1x2048_0_0_0, p0⟩] : List (View.Piece (Elt F) S1x1x2048 .f32)), y ∈ pc.1.set :=
  ⟨_, List.mem_singleton_self _, View.mem_set_unit_zero hz3 inb_S1x1x2048_S1x1x2048_0_0_0 y⟩

theorem off2_pt (t : Fin cfg1.N) : k1_off2 (grid1.coords t) = ![(dOf t).val, 0, 0] := by
  rw [k1_off2_eq, (coords1 t).1]; rfl
theorem off4_pt (t : Fin cfg1.N) : k1_off4 (grid1.coords t) = ![(dOf t).val, 0, 0] := by
  rw [k1_off4_eq, (coords1 t).1]; rfl
theorem off3_pt (t : Fin cfg1.N) : k1_off3 (grid1.coords t) = ![0, 1024 * (t.val % 8)] := by
  rw [k1_off3_eq, (coords1 t).2]

theorem emb_band (off : Fin 2 → ℕ) (r : ℕ) (h : off = ![0, 1024 * r]) (inb : ∀ a, off a + S1x1024.size a ≤ S1x8192.size a)
    (q : Fin 1024) (j : Fin 8192) (hj : j.val = 1024 * r + q.val) :
    (Rect.unit (s := S1x8192) off S1x1024.size inb).emb (ix2 (0 : Fin 1) q) = ix2 (0 : Fin 1) j := by
  subst h; funext a; apply Fin.ext; rw [Rect.emb_apply]
  match a with
  | ⟨0, _⟩ => show 0 + 1 * 0 = 0; omega
  | ⟨1, _⟩ => show 1024 * r + 1 * q.val = j.val; omega

theorem not_mem_band (off : Fin 2 → ℕ) (r r' : ℕ) (h : off = ![0, 1024 * r]) (inb : ∀ a, off a + S1x1024.size a ≤ S1x8192.size a)
    (q : Fin 1024) (j : Fin 8192) (hj : j.val = 1024 * r' + q.val) (hne : r' ≠ r) :
    ix2 (0 : Fin 1) j ∉ (Rect.unit (s := S1x8192) off S1x1024.size inb).set := by
  subst h; rw [Rect.mem_set_unit]; intro hm
  have h1 : 1024 * r ≤ j.val ∧ j.val < 1024 * r + 1024 := hm 1
  have := q.isLt; omega

theorem emb_row (off : Fin 3 → ℕ) (d : Fin 2) (h : off = ![d.val, 0, 0]) (inb : ∀ a, off a + S1x1x8192.size a ≤ S2x1x8192.size a)
    (y : S1x1x8192.Idx) :
    (Rect.unit (s := S2x1x8192) off S1x1x8192.size inb).emb y = ix3 d (0 : Fin 1) (y 2) := by
  subst h; funext a; apply Fin.ext; rw [Rect.emb_apply]
  have h0 : (y 0).val < 1 := (y 0).isLt
  have h1 : (y 1).val < 1 := (y 1).isLt
  match a with
  | ⟨0, _⟩ => show d.val + 1 * (y 0).val = d.val; omega
  | ⟨1, _⟩ => show 0 + 1 * (y 1).val = 0; omega
  | ⟨2, _⟩ => show 0 + 1 * (y 2).val = (y 2).val; omega

section Body
variable (c : Dev nD) (i : grid1.Coords)
  (arg2 : Memref sig .tc .vmem S2x1x2048 .f32) (harg2 : arg2.IsWhole) (arg3 : Memref sig .tc .vmem S1x1x2048 .f32) (harg3 : arg3.IsWhole)
  (arg4 : Memref sig .tc .vmem S1x1x2048 .f32) (harg4 : arg4.IsWhole) (arg5 : Memref sig .tc .vmem S1x1024x4096 .f32) (harg5 : arg5.IsWhole)
  (arg6 : Memref sig .tc .vmem S1x1024x2048 .f32) (harg6 : arg6.IsWhole) (arg7 : Memref sig .tc .vmem S1x1x8192 .f32) (harg7 : arg7.IsWhole)
  (arg8 : Memref sig .tc .vmem S1x1x2048 .f32) (harg8 : arg8.IsWhole) (arg9 : Memref sig .tc .vmem S1x1x2048 .f32) (harg9 : arg9.IsWhole)
  (x2 : Vec F S2x1x2048 .f32) (x3 : Vec F S1x1x2048 .f32) (x4 : Vec F S1x1x2048 .f32) (x5 : Vec F S1x1024x4096 .f32)
  (x6 : Vec F S1x1024x2048 .f32) (x7 : Vec F S1x1x8192 .f32) (fs : HbBuf (F := F) c scM1)

def ins : sProp 𝕄 :=
  iprop(owns (c : Thread nD τ) arg2 fullShare x2 ∗ owns (c : Thread nD τ) arg3 fullShare x3 ∗ owns (c : Thread nD τ) arg4 fullShare x4
    ∗ owns (c : Thread nD τ) arg5 fullShare x5 ∗ owns (c : Thread nD τ) arg6 fullShare x6 ∗ owns (c : Thread nD τ) arg7 fullShare x7)

/-- Away from a direction's last row block the body writes its 1024 gate values into row d, columns 1024·rb …, of the gate array. -/
theorem runA (hc : ¬ k1_cond1 i = 1#1) (K : PUnit → sProp 𝕄) :
    iprop(ins c arg2 arg3 arg4 arg5 arg6 arg7 x2 x3 x4 x5 x6 x7 ∗ hbPt c scM1 fs
        ∗ (iprop(ins c arg2 arg3 arg4 arg5 arg6 arg7 x2 x3 x4 x5 x6 x7 ∗ ∃ g' : HbBuf (F := F) c scM1, ⌜g' = newS c i fs (payOf i x2 x3 x5 x6 x7)⌝ ∗ hbPt c scM1 g') -∗ K ⟨⟩))
      ⊢ wp frame (wpE (defs₀ (F := F)) Variants.none c none) Set.univ (cc1__lstm_layer1_kernel i arg2 harg2 arg3 harg3 arg4 harg4 arg5 harg5 arg6 harg6 arg7 harg7 arg8 harg8 arg9 harg9 (Memref.whole cc1_scratch0) (Memref.isWhole_whole _)) K := by
  unfold ins
  simp only [cc1__lstm_layer1_kernel_eq_skeleton, R0.owns_unread harg2, R0.owns_unread harg3, R0.owns_unread harg4, R0.owns_unread harg5, R0.owns_unread harg6, R0.owns_unread harg7]; unfold cc1__lstm_layer1_kernel_skel
  iintro ⟨⟨H2, H3, H4, H5, H6, H7⟩, H10, Hk⟩
  sl_exec (disch := first | sl_exact hc)
  sl_step
  sl_unfold_words
  iapply Hk
  iframe H2 H3 H4 H5 H6 H7
  iexists _; isplitr
  swap; · iexact H10
  ipureintro
  unfold newS payOf
  simp only [View.readAt_eq_ld, Memref.IsWhole.read_unread, View.ld_unit_zero (S := S2x1x2048) hz3, View.ld_unit_zero (S := S1x1x2048) hz3, View.ld_unit_zero (S := S1x1024x4096) hz3, View.ld_unit_zero (S := S1x1024x2048) hz3]
  rfl

/-- At a direction's last row block it also reads the finished row of 8192 gates and writes the new hidden and cell rows. -/
theorem runB (hc : k1_cond1 i = 1#1) (K : PUnit → sProp 𝕄) :
    iprop(ins c arg2 arg3 arg4 arg5 arg6 arg7 x2 x3 x4 x5 x6 x7 ∗ (∃ d, owns (c : Thread nD τ) arg8 fullShare d) ∗ (∃ d, owns (c : Thread nD τ) arg9 fullShare d) ∗ hbPt c scM1 fs
        ∗ (iprop(ins c arg2 arg3 arg4 arg5 arg6 arg7 x2 x3 x4 x5 x6 x7 ∗ ∃ g' : HbBuf (F := F) c scM1, hbPt c scM1 g' ∗ ⌜g' = newS c i fs (payOf i x2 x3 x5 x6 x7)⌝
            ∗ owns (c : Thread nD τ) arg8 fullShare (k1_pay4 (rowB c i hc g') x4) ∗ owns (c : Thread nD τ) arg9 fullShare (k1_pay5 (rowB c i hc g') x4)) -∗ K ⟨⟩))
      ⊢ wp frame (wpE (defs₀ (F := F)) Variants.none c none) Set.univ (cc1__lstm_layer1_kernel i arg2 harg2 arg3 harg3 arg4 harg4 arg5 harg5 arg6 harg6 arg7 harg7 arg8 harg8 arg9 harg9 (Memref.whole cc1_scratch0) (Memref.isWhole_whole _)) K := by
  unfold ins
  simp only [cc1__lstm_layer1_kernel_eq_skeleton, R0.owns_unread harg2, R0.owns_unread harg3, R0.owns_unread harg4, R0.owns_unread harg5, R0.owns_unread harg6, R0.owns_unread harg7]; unfold cc1__lstm_layer1_kernel_skel
  unfold owns
  iintro ⟨⟨H2, H3, H4, H5, H6, H7⟩, ⟨%d8, %f8, -, H8⟩, ⟨%d9, %f9, -, H9⟩, H10, Hk⟩
  sl_exec (disch := first | sl_exact hc)
  sl_step
  sl_unfold_words
  iapply Hk
  iframe H2 H3 H4 H5 H6 H7
  iexists _
  iframe H10
  isplitr
  · ipureintro
    unfold newS payOf
    simp only [View.readAt_eq_ld, Memref.IsWhole.read_unread, View.ld_unit_zero (S := S2x1x2048) hz3, View.ld_unit_zero (S := S1x1x2048) hz3, View.ld_unit_zero (S := S1x1024x4096) hz3, View.ld_unit_zero (S := S1x1024x2048) hz3]
    rfl
  isplitl [H8]
  · iexists _; isplitr
    swap; · iexact H8
    ipureintro
    rw [View.read_writes_eq_canon _ _ _ (cover8 _), View.canon_unit_zero hz3]
    unfold rowB
    simp only [View.readAt_eq_ld, Memref.IsWhole.read_unread, View.ld_unit_zero (S := S1x1x2048) hz3]
    rfl
  iexists _; isplitr
  swap; · iexact H9
  ipureintro
  rw [View.read_writes_eq_canon _ _ _ (cover8 _), View.canon_unit_zero hz3]
  unfold rowB
  simp only [View.readAt_eq_ld, Memref.IsWhole.read_unread, View.ld_unit_zero (S := S1x1x2048) hz3]
  rfl

end Body

section Region
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def gblk1 (c : Dev nD) (t : Fin cfg1.N) : FVec F S1x1024 .f32 :=
  k1_pay1 (iblk1 V c 0 t)
    (View.ld (iblk1 V c 5 t) (Rect.unit (s := S1x1x8192) (k1_off1 (grid1.coords t)) S1x1x1024.size (k1_off1_inb (grid1.coords t))))
    (iblk1 V c 3 t) (iblk1 V c 1 t) (iblk1 V c 4 t)

def grow1 (c : Dev nD) (t : Fin cfg1.N) : Vec F S1x1x8192 .f32 :=
  fun y => gblk1 V c (ptOf t (y 2)) (ix2 (0 : Fin 1) ⟨(y 2).val % 1024, Nat.mod_lt _ (by decide)⟩)

def hOut1 (c : Dev nD) (t : Fin cfg1.N) : FVec F S1x1x2048 .f32 := k1_pay4 (grow1 V c t) (iblk1 V c 2 t)
def cOut1 (c : Dev nD) (t : Fin cfg1.N) : FVec F S1x1x2048 .f32 := k1_pay5 (grow1 V c t) (iblk1 V c 2 t)

def Inv1 (c : Dev nD) (n : ℕ) (g : HbBuf (F := F) c scM1) : Prop :=
  ∀ t' : Fin cfg1.N, t'.val < n → ∀ q : Fin 1024,
    scM1.view.read (Elt F) g (ix3 (dOf t') (0 : Fin 1) (colOf t' q)) = gblk1 V c t' (ix2 (0 : Fin 1) q)

/-- The invariant before position `n`: the gate array holds every earlier point's block. -/
def Phi1 (c : Dev nD) (n : ℕ) : sProp 𝕄 :=
  iprop((∃ r, prngReg c r) ∗ ∃ g : HbBuf (F := F) c scM1, hbPt c scM1 g ∗ ⌜Inv1 V c n g⌝
    ∗ ((∃ f : HbBuf (F := F) c scM1, hbPt c scM1 f) -∗ Pipeline.scopedRest spec1 c))

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => hOut1 V c t
    | ⟨7, _⟩ => cOut1 V c t
  Φ t := Phi1 V c t.val
  q _ := fullShare
  owed _ := 0

theorem A_eq1 (c : Dev nD) (w : Fin cfg1.W) : (dat1 V c).A w = V c (Pipeline.arrRef spec1 w) := by
  dsimp only [dat1]

theorem after1_6 (c : Dev nD) (t : Fin cfg1.N) : (dat1 V c).after 6 t = hOut1 V c t := by dsimp only [dat1]
theorem after1_7 (c : Dev nD) (t : Fin cfg1.N) : (dat1 V c).after 7 t = cOut1 V c t := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4 (c : Dev nD) (t : Fin cfg1.N) (d) : (dat1 V c).before 4 t d = iblk1 V c 4 t :=
  (dat1 V c).before_in_eq_fetched 4 rfl (fun _ => rfl) (fun _ _ _ => rfl) (fun _ => rfl) t d
theorem before1_5 (c : Dev nD) (t : Fin cfg1.N) (d) : (dat1 V c).before 5 t d = iblk1 V c 5 t :=
  (dat1 V c).before_in_eq_fetched 5 rfl (fun _ => rfl) (fun _ _ _ => rfl) (fun _ => rfl) t d

theorem inv_step (c : Dev nD) (t : Fin cfg1.N) (g : HbBuf (F := F) c scM1) (pay : FVec F S1x1024 .f32) (hpay : pay = gblk1 V c t)
    (h : Inv1 V c t.val g) : Inv1 V c (t.val + 1) (newS c (grid1.coords t) g pay) := by
  intro t' ht' q
  unfold newS
  by_cases hd : dOf t' = dOf t
  · by_cases he : t' = t
    · subst he
      rw [RowSlots.read_write_own_hit (Val := Elt F) (G := 2) (N := 8192) scM1 (dOf t') (k1_off2 (grid1.coords t')) (off2_pt t')
        (k1_off2_inb _) (fun _ => rfl) squeezes_S1x1x8192_S1x8192
        (Rect.unit (s := S1x8192) (k1_off3 (grid1.coords t')) S1x1024.size (k1_off3_inb _)) g pay (ix2 (0 : Fin 1) q) (colOf t' q)
        (emb_band _ _ (off3_pt t') _ q (colOf t' q) rfl), hpay]
    · have hv : t'.val ≠ t.val := fun e => he (Fin.ext e)
      have hdv : t'.val / 8 = t.val / 8 := congrArg Fin.val hd
      rw [hd, RowSlots.read_write_own_miss (Val := Elt F) (G := 2) (N := 8192) scM1 (dOf t) (k1_off2 (grid1.coords t)) (off2_pt t)
        (k1_off2_inb _) (fun _ => rfl) squeezes_S1x1x8192_S1x8192
        (Rect.unit (s := S1x8192) (k1_off3 (grid1.coords t)) S1x1024.size (k1_off3_inb _)) g pay Finset.univ (colOf t' q)
        (not_mem_band _ (t.val % 8) (t'.val % 8) (off3_pt t) _ q (colOf t' q) rfl (by omega)), ← hd]
      exact h t' (by omega) q
  · have hv : t'.val ≠ t.val := fun e => hd (by rw [Fin.ext e])
    rw [RowSlots.read_write_other_slot (Val := Elt F) (G := 2) (N := 8192) scM1 (dOf t') (dOf t) hd (k1_off2 (grid1.coords t)) (off2_pt t)
      (k1_off2_inb _) (fun _ => rfl) squeezes_S1x1x8192_S1x8192
      (Rect.unit (s := S1x8192) (k1_off3 (grid1.coords t)) S1x1024.size (k1_off3_inb _)) g pay Finset.univ (colOf t' q)]
    exact h t' (by omega) q

theorem row_eq (c : Dev nD) (t : Fin cfg1.N) (hc : k1_cond1 (grid1.coords t) = 1#1) (g' : HbBuf (F := F) c scM1)
    (h : Inv1 V c (t.val + 1) g') : rowB c (grid1.coords t) hc g' = grow1 V c t := by
  have h7 : t.val % 8 = 7 := (hcond1 t).mp hc
  have hN : t.val < 16 := lt_of_lt_of_eq t.isLt N1
  funext y
  unfold rowB grow1
  show scM1.view.read (Elt F) g' ((Rect.unit (s := S2x1x8192) (k1_off4 (grid1.coords t)) S1x1x8192.size (k1_off4_inb _ hc)).emb y) = _
  rw [emb_row _ (dOf t) (off4_pt t) _ y]
  have hj : (y 2).val < 8192 := (y 2).isLt
  have hI := h (ptOf t (y 2)) (by show 8 * (t.val / 8) + (y 2).val / 1024 < t.val + 1; omega) ⟨(y 2).val % 1024, Nat.mod_lt _ (by decide)⟩
  have e1 : dOf (ptOf t (y 2)) = dOf t := Fin.ext (by show (8 * (t.val / 8) + (y 2).val / 1024) / 8 = t.val / 8; omega)
  have e2 : colOf (ptOf t (y 2)) ⟨(y 2).val % 1024, Nat.mod_lt _ (by decide)⟩ = y 2 :=
    Fin.ext (by show 1024 * ((8 * (t.val / 8) + (y 2).val / 1024) % 8) + (y 2).val % 1024 = (y 2).val; omega)
  rw [e1, e2] at hI
  exact hI

theorem idleAt1_6 : ∀ t : Fin cfg1.N, ¬ k1_cond1 (grid1.coords t) = 1#1 → cfg1.idle 6 (grid1.coords t) = true := by decide +kernel
theorem idleAt1_7 : ∀ t : Fin cfg1.N, ¬ k1_cond1 (grid1.coords t) = 1#1 → cfg1.idle 7 (grid1.coords t) = true := by decide +kernel
theorem noFlush1_6 (t : Fin cfg1.N) (h : ¬ t.val % 8 = 7) : (cfg1.win 6).flush t = false :=
  Bool.eq_false_iff.mpr fun hf => h ((flush1_6 t).mp hf)
theorem noFlush1_7 (t : Fin cfg1.N) (h : ¬ t.val % 8 = 7) : (cfg1.win 7).flush t = false :=
  Bool.eq_false_iff.mpr fun hf => h ((flush1_7 t).mp hf)
theorem liveAt1_6 : ∀ t : Fin cfg1.N, k1_cond1 (grid1.coords t) = 1#1 → cfg1.idle 6 (grid1.coords t) = false := by decide +kernel
theorem liveAt1_7 : ∀ t : Fin cfg1.N, k1_cond1 (grid1.coords t) = 1#1 → cfg1.idle 7 (grid1.coords t) = false := by decide +kernel

def bodyPre1 (c : Dev nD) (t : Fin cfg1.N) : sProp 𝕄 :=
  iprop(Phi1 V c t.val ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop(Phi1 V c (t.val + 1) ∗ (dat1 V c).owesAt () t.castSucc
    ∗ owns (c : Thread nD τ) (st1_0 t) fullShare (iblk1 V c 0 t)
    ∗ owns (c : Thread nD τ) (st1_1 t) fullShare (iblk1 V c 1 t)
    ∗ owns (c : Thread nD τ) (st1_2 t) fullShare (iblk1 V c 2 t)
    ∗ owns (c : Thread nD τ) (st1_3 t) fullShare (iblk1 V c 3 t)
    ∗ owns (c : Thread nD τ) (st1_4 t) fullShare (iblk1 V c 4 t)
    ∗ owns (c : Thread nD τ) (st1_5 t) fullShare (iblk1 V c 5 t)
    ∗ (dat1 V c).leavesExact 6 t ∗ (dat1 V c).leavesExact 7 t)

/-- The body adds its block to the gate array; at a direction's last row block the row read back is the finished gate row. -/
theorem body_obligation1 (c : Dev nD) : BodyObligation (dat1 (F := F) V c) (defs₀ (F := F)) Variants.none () Set.univ := fun t => by
  rw [bigSep_W1, bigSep_W1]
  show bodyPre1 V c t ⊢ wp frame (wpE (defs₀ (F := F)) Variants.none c none) Set.univ (bodyAt1 t) (fun _ => bodyPost1 V c t)
  unfold bodyPre1 bodyPost1 bodyAt1 Phi1
  simp only [before1_0, before1_1, before1_2, before1_3, before1_4, before1_5]
  iintro ⟨⟨Hp, %g, HS, %hInv, Hw⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hInv' := inv_step V c t g _ rfl hInv
  by_cases hc : k1_cond1 (grid1.coords t) = 1#1
  · rewrite [show (dat1 V c).leavesExact 6 t = owns (c : Thread nD τ) (st1_6 t) fullShare (hOut1 V c t) from by
      unfold Dat.leavesExact; rw [liveAt1_6 t hc, after1_6]]
    rewrite [show (dat1 V c).leavesExact 7 t = owns (c : Thread nD τ) (st1_7 t) fullShare (cOut1 V c t) from by
      unfold Dat.leavesExact; rw [liveAt1_7 t hc, after1_7]]
    iapply (runB c (grid1.coords t) _ _ _ _ _ _ _ _ _ _ _ _ _ _ _ _ (iblk1 V c 0 t) (iblk1 V c 1 t) (iblk1 V c 2 t) (iblk1 V c 3 t) (iblk1 V c 4 t) (iblk1 V c 5 t) g hc _)
    unfold ins
    iframe H0 H1 H2 H3 H4 H5 HS
    isplitl [H6]; · iexists _; iexact H6
    isplitl [H7]; · iexists _; iexact H7
    iintro ⟨⟨H0, H1, H2, H3, H4, H5⟩, %g', HS', %hg', H6, H7⟩
    subst hg'
    unfold hOut1 cOut1; rw [← row_eq V c t hc _ hInv']
    iframe Hp Ho H0 H1 H2 H3 H4 H5
    isplitr [H6 H7]
    · iexists _; iframe HS' Hw
      ipureintro; exact hInv'
    isplitl [H6]; · iexact H6
    iexact H7
  · have h7 : ¬ t.val % 8 = 7 := fun h => hc ((hcond1 t).mpr h)
    rewrite [Dat.leavesExact_idle (dat1 V c) 6 t (idleAt1_6 t hc) (noFlush1_6 t h7), Dat.leavesExact_idle (dat1 V c) 7 t (idleAt1_7 t hc) (noFlush1_7 t h7)]
    iapply (runA c (grid1.coords t) _ _ _ _ _ _ _ _ _ _ _ _ _ _ _ _ (iblk1 V c 0 t) (iblk1 V c 1 t) (iblk1 V c 2 t) (iblk1 V c 3 t) (iblk1 V c 4 t) (iblk1 V c 5 t) g hc _)
    unfold ins
    iframe H0 H1 H2 H3 H4 H5 HS
    iintro ⟨⟨H0, H1, H2, H3, H4, H5⟩, %g', %hg', HS'⟩
    subst hg'
    iframe Hp Ho H0 H1 H2 H3 H4 H5
    isplitr [H6 H7]
    · iexists _; iframe HS' Hw
      ipureintro; exact hInv'
    isplitl [H6]; · iexists _; iexact H6
    iexists _; iexact H7

/-- Before the first point nothing is asked of the gate array. -/
theorem hin1 (c : Dev nD) : Pipeline.ΦA spec1 c ⊢ (dat1 V c).Φ 0 := by
  rewrite [show (dat1 V c).Φ 0 = Phi1 V c 0 from rfl]
  unfold Pipeline.ΦA Phi1
  rewrite [scopedRest1_eq]
  iintro ⟨⟨H1, H2, H3, H4, H5, H6, H7, H8, H9, H10, H11, H12, H13, H14, H15, H16, ⟨%g, HS⟩⟩, Hp⟩
  iframe Hp
  iexists g
  iframe HS
  isplitr; · ipureintro; exact fun t' ht => absurd ht (Nat.not_lt_zero _)
  iintro HS
  iframe

/-- After the last point the gate array's contents are forgotten. -/
theorem hout1 (c : Dev nD) : (dat1 V c).Φ (Fin.last cfg1.N) ⊢ Pipeline.ΦA spec1 c := by
  rewrite [show (dat1 V c).Φ (Fin.last cfg1.N) = Phi1 V c (Fin.last cfg1.N).val from rfl]
  unfold Pipeline.ΦA Phi1
  iintro ⟨Hp, %g, HS, -, Hw⟩
  iframe Hp
  iapply Hw
  iexists g; iexact HS

end Region

end Cert.Kernel.R1

end
-- ==== Proof.Bits.RunDefs.lean ====
import proofs.«429347_j5763846111973_3_alg».proof.Proof.Bits.R0
import proofs.«429347_j5763846111973_3_alg».proof.Proof.Bits.R1
import Idealize.ShloMosaic.Lib.Pipeline.FrameSuffix

noncomputable section

namespace Cert.Kernel.Run

open Idealize.ShloMosaic Idealize.ShloMosaic.TcCoe
open Idealize.SL Idealize.SL.Sem
open Idealize.ShloMosaic.Pipeline (Dat Cfg Window)
open Cert.Kernel Cert.Kernel.Gen

variable {F : FTy → Type} [FloatOps F]

variable (m : (ℓ : Loc nD τ sig) → Buf (Elt F) ℓ) (ρ : Dev nD → PrngReg)

/-- The buffers' contents at each boundary of the program, as a fold from the launch memory. -/
abbrev W0 : Dev nD → Valuation τ sig (Elt F) := fun c b => (s₀ m ρ).mem ((c : Dev nD), b)

abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)

abbrev V3 : (c : Dev nD) → (b : Ref sig .tc) → Buf (Elt F) ((c : Thread nD τ).loc b) := fun c b => W3 m ρ c b

variable (hOk : R0.Ok0 (V3 m ρ))

/-- The buffers after the first call: its arrays at their final contents, every other buffer as before it. -/
def W4 (c : Dev nD) : Valuation τ sig (Elt F) :=
  Pipeline.withArrays spec0 c (W3 m ρ c) fun w => (R0.dat0 (V3 m ρ) hOk c).arrAt w (R0.cfgM (V3 m ρ)).N
theorem W4_arr (c : Dev nD) (w : Fin (R0.cfgM (V3 m ρ)).W) :
    W4 m ρ hOk c (Proc.devRef .tc (Pipeline.arrRef spec0 w)) = (R0.dat0 (V3 m ρ) hOk c).arrAt w (R0.cfgM (V3 m ρ)).N := by
  unfold W4; exact Pipeline.withArrays_arr spec0 winFacts0.arr_inj c _ _ w
theorem W4_of_ne (c : Dev nD) (b : Ref sig .tc) (hb : ∀ w, Pipeline.arrRef spec0 w ≠ b) :
    W4 m ρ hOk c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ hOk c b
theorem hF0 (c : Dev nD) (w : Fin (R0.cfgM (V3 m ρ)).W) : (R0.dat0 (V3 m ρ) hOk c).arrAt w (R0.cfgM (V3 m ρ)).N = V4 m ρ hOk c (Pipeline.arrRef spec0 w) :=
  (W4_arr m ρ hOk c w).symm
theorem hrest0 (c : Dev nD) : ∀ b, b ∉ Finset.univ.image (Pipeline.arrRef spec0) → V4 m ρ hOk c b = V3 m ρ c b :=
  fun b hb => W4_of_ne m ρ hOk c b fun w e => hb (Finset.mem_image.mpr ⟨w, Finset.mem_univ _, e⟩)

abbrev W5 : Dev nD → Valuation τ sig (Elt F) := fun c => StableHlo.after hostOps1 (W4 m ρ hOk c)
abbrev V5 : (c : Dev nD) → (b : Ref sig .tc) → Buf (Elt F) ((c : Thread nD τ).loc b) := fun c b => W5 m ρ hOk c b

/-- The same after the second call. -/
def W6 (c : Dev nD) : Valuation τ sig (Elt F) :=
  Pipeline.withArrays spec1 c (W5 m ρ hOk c) fun w => (R1.dat1 (V5 m ρ hOk) c).arrAt w cfg1.N
theorem W6_arr (c : Dev nD) (w : Fin cfg1.W) :
    W6 m ρ hOk c (Proc.devRef .tc (Pipeline.arrRef spec1 w)) = (R1.dat1 (V5 m ρ hOk) c).arrAt w cfg1.N := by
  unfold W6; exact Pipeline.withArrays_arr spec1 winFacts1.arr_inj c _ _ w
theorem W6_of_ne (c : Dev nD) (b : Ref sig .tc) (hb : ∀ w, Pipeline.arrRef spec1 w ≠ b) :
    W6 m ρ hOk c (Proc.devRef .tc b) = W5 m ρ hOk c (Proc.devRef .tc b) := by
  unfold W6; exact Pipeline.withArrays_of_ne spec1 c _ _ b hb
abbrev V6 : (c : Dev nD) → (b : Ref sig .tc) → Buf (Elt F) ((c : Thread nD τ).loc b) := fun c b => W6 m ρ hOk c b
theorem hF1 (c : Dev nD) (w : Fin cfg1.W) : (R1.dat1 (V5 m ρ hOk) c).arrAt w cfg1.N = V6 m ρ hOk c (Pipeline.arrRef spec1 w) :=
  (W6_arr m ρ hOk c w).symm
theorem hrest1 (c : Dev nD) : ∀ b, b ∉ Finset.univ.image (Pipeline.arrRef spec1) → V6 m ρ hOk c b = V5 m ρ hOk c b :=
  fun b hb => W6_of_ne m ρ hOk c b fun w e => hb (Finset.mem_image.mpr ⟨w, Finset.mem_univ _, e⟩)

abbrev W7 : Dev nD → Valuation τ sig (Elt F) := fun c => StableHlo.after hostOps2 (W6 m ρ hOk c)

end Cert.Kernel.Run

end
-- ==== Proof.Bits.Run.lean ====
import proofs.«429347_j5763846111973_3_alg».proof.Proof.Bits.R0Ob
import proofs.«429347_j5763846111973_3_alg».proof.Proof.Bits.R1
import proofs.«429347_j5763846111973_3_alg».proof.Proof.Bits.RunDefs
import proofs.«429347_j5763846111973_3_alg».proof.Proof.Gen.Kernel.Regions

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
variable (hOk : R0.Ok0 (V3 m ρ))

def adm : (p : Fin 2) → (pcfgs (F := F) p).Adm
  | ⟨0, _⟩ => R0.adm0 (V3 m ρ)
  | ⟨1, _⟩ => cfg1.toPCfg_adm

def pdats : (p : Fin 2) → (c : Dev nD) → Dat τ (Elt F) Unit ℕ (Pipeline.UD sig nD τ) ℕ (Pipeline.pin (pcfgs (F := F)) (adm m ρ) p) c
  | ⟨0, _⟩ => fun c => R0.dat0 (V3 m ρ) hOk c
  | ⟨1, _⟩ => fun c => R1.dat1 (V5 m ρ hOk) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
abbrev Tₙ (c : Dev nD) : sProp 𝕄 := iprop(StableHlo.held (c : Thread nD τ) (Pipeline.ucRefs τ sig) (W7 m ρ hOk c) ∗ ∃ r, prngReg c r)

def H0 : Finset (Ref sig .tc) := {main_arg3, main_v0}
theorem H0_sub : H0 ⊆ Pipeline.restRefs sig spec0 := by decide
theorem hbmPts0_eq (c : Dev nD) :
    (bigSep H0 (fun b => ((c : Thread nD τ).loc b) ↦{fullShare} V3 m ρ c b) : sProp 𝕄)
      = iprop(R0.hbPt c R0.embM (V3 m ρ c main_arg3) ∗ R0.hbPt c R0.tbM (V3 m ρ c main_v0)) := by
  rw [BI.bigSep_eq_bigSepL_of_eq [main_arg3, main_v0] (by decide) (by decide)]; rfl
theorem prefHeld0_eq (c : Dev nD) :
    (Pipeline.prefHeld (Ix := Unit) (Name := ℕ) (U := Pipeline.UD sig nD τ) (Lvl := ℕ) pre0 c (fun _ => fullShare) (R0.tbl (V3 m ρ)) : sProp 𝕄)
      = R0.hbPt c R0.tbM (V3 m ρ c main_v0) := by
  unfold Pipeline.prefHeld
  rw [show (Finset.univ : Finset (Fin 1)) = {(0 : Fin 1)} from by decide, bigSep_singleton]
  obtain rfl : c = 0 := Subsingleton.elim _ _
  rfl
theorem unscopedRest0_split (c : Dev nD) :
    (Pipeline.unscopedRest (Ix := Unit) (Name := ℕ) (U := Pipeline.UD sig nD τ) (Lvl := ℕ) spec0 c (V3 m ρ c) : sProp 𝕄)
      = iprop((bigSep H0 fun b => (((c : Thread nD τ)).loc b) ↦{fullShare} V3 m ρ c b) ∗ (bigSep (Pipeline.restRefs sig spec0 \ H0) fun b => (((c : Thread nD τ)).loc b) ↦{fullShare} V3 m ρ c b)) := by
  unfold Pipeline.unscopedRest; exact BI.bigSep_sdiff_split H0_sub

set_option backward.isDefEq.respectTransparency.types false in
/-- The first call, entered with every unscoped buffer at `W3` and left with them at `W4`. -/
def reg0 : Pipeline.RegionSeg (pcfgs (F := F)) (adm m ρ) (pdats m ρ hOk) () defs₀ 𝒱₀ L lv 0 where
  win := winFacts0.to₀
  block_pos := block_pos0
  stage_whole := stage_whole0
  K := Fin 1
  osem := R0.osem0
  ho := R0.ownSemFacts0
  hbody c := (R0.body_obligation0 (V3 m ρ) hOk c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ hOk c) ∗ R c)
  X c := iprop((∃ r, prngReg c r) ∗ Pipeline.ownSems0 (Ix := Unit) (Name := ℕ) (U := Pipeline.UD sig nD τ) (Lvl := ℕ) (Val := Elt F) (τ := τ) R0.osem0 c ∗ R0.hbPt c R0.embM (V3 m ρ c main_arg3))
  Y c := iprop((∃ r, prngReg c r) ∗ R0.hbPt c R0.embM (V3 m ρ c main_arg3) ∗ R0.hbPt c R0.tbM (V3 m ρ c main_v0))
  Z c := bigSep (Pipeline.restRefs sig spec0 \ H0) fun b => (((c : Thread nD τ)).loc b) ↦{fullShare} V3 m ρ c b
  hentry c := by
    have hsplit := Pipeline.arrays_of_unscopedBufs (p := 0) (pcfgs (F := F)) (adm m ρ) (pdats m ρ hOk) winFacts0 arr_whole0 c
      ((pdats m ρ hOk 0 c).share_full fun _ => rfl) (V3 m ρ c) fun _ => rfl
    rw [Pipeline.unscopedBufs_held] at hsplit
    iintro ⟨⟨Hub, Hp, HO⟩, Hos, -⟩
    ihave H := hsplit $$ Hub
    icases H with ⟨Ha, Hrest⟩
    ihave H' := (Entails.of_eq (unscopedRest0_split m ρ c)) $$ Hrest
    icases H' with ⟨HH, HR⟩
    ihave H'' := (Entails.of_eq (hbmPts0_eq m ρ c)) $$ HH
    icases H'' with ⟨He, Ht⟩
    imodintro
    iframe Ha Hp Hos He HR
    isplitl [Ht]
    · iapply (Entails.of_eq (prefHeld0_eq m ρ c).symm); iexact Ht
    unfold Pipeline.Dat.owesAt Pipeline.owesWithin
    icases HO with ⟨%W, HO⟩; iexists W; isplitr; · ipureintro; exact fun _ _ => Or.inl trivial
    iexact HO
  hin c := by
    rw [show (pdats m ρ hOk 0 c).Φ 0 = R0.Phi0 (V3 m ρ) hOk c 0 from rfl]
    exact R0.hin0 (V3 m ρ) hOk c
  hout c := by
    rw [show (pdats m ρ hOk 0 c).Φ (Fin.last _) = R0.Phi0 (V3 m ρ) hOk c (R0.cfgM (V3 m ρ)).N from rfl]
    exact R0.hout0 (V3 m ρ) hOk c
  hexit c := by
    have hjoin := Pipeline.unscopedBufs_of_arrays (p := 0) (pcfgs (F := F)) (adm m ρ) (Ix := Unit) (Name := ℕ) (U := Pipeline.UD sig nD τ) (Lvl := ℕ)
      winFacts0 arr_whole0 c (pdats m ρ hOk) ((pdats m ρ hOk 0 c).share_full fun _ => rfl)
      (V3 m ρ c) (V4 m ρ hOk c) ((pdats m ρ hOk 0 c).arrAt · (R0.cfgM (V3 m ρ)).N) (hF0 m ρ hOk c) (hrest0 m ρ hOk c)
    rw [Pipeline.unscopedBufs_held] at hjoin
    iintro ⟨Ha, HO, ⟨HY, He, Ht⟩, HR⟩
    ihave HH := (Entails.of_eq (hbmPts0_eq m ρ c).symm) $$ [He Ht]
    · iframe He Ht
    ihave Hrest := (Entails.of_eq (unscopedRest0_split m ρ c).symm) $$ [HH HR]
    · iframe HH HR
    imodintro
    isplitl [Ha Hrest]
    · iapply hjoin; iframe Ha Hrest
    isplitl [HY]; · iexact HY
    unfold Pipeline.Dat.owesAt Pipeline.owesWithin
    icases HO with ⟨%W, -, HO⟩; iexists W; iexact HO

set_option backward.isDefEq.respectTransparency.types false in
/-- The second call, from `W5` to `W6`. -/
def reg1 : Pipeline.RegionSeg (pcfgs (F := F)) (adm m ρ) (pdats m ρ hOk) () defs₀ 𝒱₀ L lv 1 where
  win := winFacts1.to₀
  block_pos := block_pos1
  stage_whole := stage_whole1
  K := PEmpty
  osem k := k.elim
  ho := Pipeline.OwnSemFacts.none _
  hbody c := (R1.body_obligation1 (V5 m ρ hOk) c).loose
  hwaits := Pipeline.hwaits_of_owed_zero _ _ _ _ L lv 1 fun _ _ => rfl
  pre c := iprop(StableHlo.held (c : Thread nD τ) (Pipeline.ucRefs τ sig) (W5 m ρ hOk c) ∗ R c)
  post c := iprop(StableHlo.held (c : Thread nD τ) (Pipeline.ucRefs τ sig) (W6 m ρ hOk c) ∗ R c)
  X c := iprop(∃ r, prngReg c r)
  Y c := iprop(∃ r, prngReg c r)
  Z c := Pipeline.unscopedRest (Ix := Unit) (Name := ℕ) (U := Pipeline.UD sig nD τ) (Lvl := ℕ) spec1 c (V5 m ρ hOk c)
  hentry c := by
    rw [Pipeline.ownSems0_none]
    have hsplit := Pipeline.arrays_of_unscopedBufs (p := 1) (pcfgs (F := F)) (adm m ρ) (pdats m ρ hOk) winFacts1 arr_whole1 c
      ((pdats m ρ hOk 1 c).share_full fun _ => rfl) (V5 m ρ hOk c) fun _ => rfl
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr; · ipureintro; exact fun _ _ => Or.inl trivial
    iexact HO
  hin c := by
    rw [show (pdats m ρ hOk 1 c).Φ 0 = (R1.dat1 (V5 m ρ hOk) c).Φ 0 from rfl]
    refine BIBase.Entails.trans ?_ (R1.hin1 (V5 m ρ hOk) c)
    unfold Pipeline.ΦA
    iintro ⟨Hp, -, Hr⟩
    iframe Hr Hp
  hout c := by
    rw [Pipeline.ownSems0_none, show (pdats m ρ hOk 1 c).Φ (Fin.last _) = (R1.dat1 (V5 m ρ hOk) c).Φ (Fin.last cfg1.N) from rfl]
    refine BIBase.Entails.trans (R1.hout1 (V5 m ρ hOk) c) ?_
    unfold Pipeline.ΦA
    iintro ⟨Hr, Hp⟩
    iframe Hp Hr
    iempintro
  hexit c := by
    have hjoin := Pipeline.unscopedBufs_of_arrays (p := 1) (pcfgs (F := F)) (adm m ρ) (Ix := Unit) (Name := ℕ) (U := Pipeline.UD sig nD τ) (Lvl := ℕ)
      winFacts1 arr_whole1 c (pdats m ρ hOk) ((pdats m ρ hOk 1 c).share_full fun _ => rfl)
      (V5 m ρ hOk c) (V6 m ρ hOk c) ((pdats m ρ hOk 1 c).arrAt · cfg1.N) (hF1 m ρ hOk c) (hrest1 m ρ hOk c)
    rw [Pipeline.unscopedBufs_held] at hjoin
    iintro ⟨Ha, HO, HY, Hrest⟩
    imodintro
    isplitl [Ha Hrest]
    · iapply hjoin; iframe Ha Hrest
    isplitl [HY]; · iexact HY
    unfold Pipeline.Dat.owesAt Pipeline.owesWithin
    icases HO with ⟨%W, -, HO⟩; iexists W; iexact HO

abbrev segs : List (Pipeline.Seg (pcfgs (F := F)) (adm m ρ) (pdats m ρ hOk) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ hOk),
    .host (hseg hostOps1 hostOps1_sub hostOps1_fresh (W4 m ρ hOk)),
    .region (reg1 m ρ hOk),
    .host (hseg hostOps2 hostOps2_sub hostOps2_fresh (W6 m ρ hOk)) ]

theorem main_run (c : Dev nD) : main (F := F) c = Pipeline.Seg.run (segs m ρ hOk) := by
  rw [main_chain c, Pipeline.Seg.run_eq_chain]
  rfl

set_option backward.isDefEq.respectTransparency.types false in
/-- Every weakly fair execution of the program ends, nothing faulting, with every unscoped buffer at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ hOk c b) :=
  Pipeline.θ_run_regions_kit (pcfgs (F := F)) (adm m ρ) (pdats m ρ hOk) () (cellOf_inj (adm m ρ)) embL defs₀ 𝒱₀ L lv m ρ main (segs m ρ hOk)
    (fun c Q => by rw [main_run m ρ hOk c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) (adm m ρ)) (cellOf_inj (adm m ρ))) (Pipeline.launchToks (Pipeline.pin (pcfgs (F := F)) (adm m ρ)) (cellOf_inj (adm m ρ))), 1))
    (hu₀ := by
      iintro Hu
      ihave H := (ownU_pair _ _) $$ Hu
      icases H with ⟨HP, -⟩
      imodintro
      iframe HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ hOk)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ hOk c) ∗ R c) ⊢ iprop(Tₙ m ρ hOk c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      iframe Hh
      isplitl [Hp]; · iexists _; iexact Hp
      iexists ∅; iexact HO)
    (QY := fun c s => ∀ b ∈ Pipeline.ucRefs τ sig, s.mem (((c : Thread nD τ)).1, b) = W7 m ρ hOk c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ hOk c) s')
      isplitl [Hh] <;> iassumption)
    (hQ := fun s h c => h c)

end Cert.Kernel.Run

end
-- ==== Proof.Bits.RunArgs.lean ====
import proofs.«429347_j5763846111973_3_alg».proof.Proof.Bits.RunDefs
import proofs.«429347_j5763846111973_3_alg».proof.Proof.Gen.Kernel.Regions

noncomputable section

namespace Cert.Kernel.Run

open Idealize.ShloMosaic Idealize.ShloMosaic.TcCoe
open Idealize.SL Idealize.SL.Sem
open Idealize.ShloMosaic.Pipeline (Dat Cfg Window)
open Cert.Kernel Cert.Kernel.Gen

variable {F : FTy → Type} [FloatOps F]

variable (m : (ℓ : Loc nD τ sig) → Buf (Elt F) ℓ) (ρ : Dev nD → PrngReg) (hOk : R0.Ok0 (Cert.Kernel.Run.V3 m ρ))

/-- A buffer that no host operation writes and that both calls leave as entered ends at its launch contents. -/
theorem W7_kept (c : Dev nD) (r : Ref sig .tc)
    (hh : r ∉ hostOps0_W ∧ r ∉ hostOps0_1_W ∧ r ∉ hostOps0_2_W ∧ r ∉ hostOps1_W ∧ r ∉ hostOps2_W)
    (h4 : W4 m ρ hOk c (Proc.devRef .tc r) = W3 m ρ c (Proc.devRef .tc r))
    (h6 : W6 m ρ hOk c (Proc.devRef .tc r) = W5 m ρ hOk c (Proc.devRef .tc r)) :
    W7 m ρ hOk c (Proc.devRef .tc r) = m ((c : Thread nD τ).loc r) :=
  (StableHlo.after_of_writes_sub hostOps2 _ hostOps2_writes hh.2.2.2.2).trans <| h6.trans <|
  (StableHlo.after_of_writes_sub hostOps1 _ hostOps1_writes hh.2.2.2.1).trans <| h4.trans <|
  (StableHlo.after_of_writes_sub hostOps0_2 _ hostOps0_2_writes hh.2.2.1).trans <|
  (StableHlo.after_of_writes_sub hostOps0_1 _ hostOps0_1_writes hh.2.1).trans <|
  StableHlo.after_of_writes_sub hostOps0 _ hostOps0_writes hh.1

theorem mem_uc' (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- No operation of the program writes an argument array, so at the fold's last contents every argument is as launched. -/
theorem args_kept (c : Dev nD) (mem : (ℓ : Loc nD τ sig) → Buf (Elt F) ℓ)
    (h : ∀ b ∈ Pipeline.ucRefs τ sig, mem (((c : Thread nD τ)).1, b) = W7 m ρ hOk c b) :
    mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9)
      ∧ mem ((c.tc : Thread nD τ).loc main_arg10) = m ((c.tc : Thread nD τ).loc main_arg10)
      ∧ mem ((c.tc : Thread nD τ).loc main_arg11) = m ((c.tc : Thread nD τ).loc main_arg11) := by
  have K := fun (r : Ref sig .tc) hu hh h4 h6 => (h _ (mem_uc' r hu)).trans (W7_kept m ρ hOk c r hh h4 h6)
  have N4 := fun (r : Ref sig .tc) hb => W4_of_ne m ρ hOk c r hb
  have N6 := fun (r : Ref sig .tc) hb => W6_of_ne m ρ hOk c r hb
  have I4 := fun w hw => (W4_arr m ρ hOk c w).trans (((R0.dat0 (V3 m ρ) hOk c).arrAt_in w hw _).trans (R0.A_eq0 (V3 m ρ) hOk c w))
  have I6 := fun w hw => (W6_arr m ρ hOk c w).trans (((R1.dat1 (V5 m ρ hOk) c).arrAt_in w hw _).trans (R1.A_eq1 (V5 m ρ hOk) c w))
  exact ⟨K main_arg0 (by decide) (by decide) (N4 _ (by decide)) (N6 _ (by decide)),
    K main_arg1 (by decide) (by decide) (N4 _ (by decide)) (N6 _ (by decide)),
    K main_arg2 (by decide) (by decide) (N4 _ (by decide)) (N6 _ (by decide)),
    K main_arg3 (by decide) (by decide) (N4 _ (by decide)) (N6 _ (by decide)),
    K main_arg4 (by decide) (by decide) (I4 2 rfl) (N6 _ (by decide)),
    K main_arg5 (by decide) (by decide) (I4 3 rfl) (N6 _ (by decide)),
    K main_arg6 (by decide) (by decide) (N4 _ (by decide)) (N6 _ (by decide)),
    K main_arg7 (by decide) (by decide) (N4 _ (by decide)) (N6 _ (by decide)),
    K main_arg8 (by decide) (by decide) (N4 _ (by decide)) (I6 3 rfl),
    K main_arg9 (by decide) (by decide) (N4 _ (by decide)) (I6 4 rfl),
    K main_arg10 (by decide) (by decide) (N4 _ (by decide)) (N6 _ (by decide)),
    K main_arg11 (by decide) (by decide) (N4 _ (by decide)) (N6 _ (by decide))⟩

end Cert.Kernel.Run

end
-- ==== Proof.Bits.HostVal.lean ====
import proofs.«429347_j5763846111973_3_alg».proof.Proof.Gen.Kernel.Launch
import proofs.«429347_j5763846111973_3_alg».proof.Proof.Spec
import proofs.«429347_j5763846111973_3_alg».proof.Proof.PreIds
import Idealize.ShloMosaic.Lib.StableHlo.Run

noncomputable section

namespace Cert.Kernel.HostVal

open Cert.Kernel Cert.Kernel.Gen Idealize.ShloMosaic Idealize.ShloMosaic.ValueIdx Idealize.ShloMosaic.StableHlo

theorem table_row {F : FTy → Type} [FloatOps F] (W : Valuation τ sig (Elt F))
    (h : (0 : Int) ≤ ((W (Proc.devRef .tc main_arg0) : IVec S1 32) (ix1 0)).toInt) :
    ((StableHlo.after hostOps0_1 (StableHlo.after hostOps0 W) (Proc.devRef .tc main_v0) : IVec S1 32) (ix1 0)).toNat
      = (Cert.Spec.rowOf ((W (Proc.devRef .tc main_arg0) : IVec S1 32) (ix1 0))).val := by
  after_results
  exact Cert.PreIds.clip_vec _ _ _ rfl rfl h

end Cert.Kernel.HostVal

end
-- ==== Proof.Bits.OkIds.lean ====
import proofs.«429347_j5763846111973_3_alg».proof.Proof.Bits.RunDefs
import proofs.«429347_j5763846111973_3_alg».proof.Proof.Bits.HostVal
import proofs.«429347_j5763846111973_3_alg».proof.Proof.Gen.Kernel.Regions

noncomputable section

namespace Cert.Kernel.KFinal

open Idealize.ShloMosaic Idealize.ShloMosaic.TcCoe Idealize.SL.Sem Idealize.ShloMosaic.ValueIdx
open Cert.Kernel Cert.Kernel.Gen Cert.Kernel.Run

variable {F : FTy → Type} [FloatOps F]
variable (m : (ℓ : Loc nD τ sig) → Buf (Elt F) ℓ) (ρ : Dev nD → PrngReg)

theorem wordOf_eq (c : Dev nD) (ft : R0.HbBuf (F := F) c R0.tbM) : R0.wordOf c ft = (ft : IVec S1 32) (ix1 0) := by
  have e : R0.tbM.view.readAt (Elt F) (Rect.unit (s := S1) ![0] S1.size inb_S1_S1_0).toLoadRect ft = ft :=
    Memref.readAt_unit_zero (Elt F) main_v0 (funext fun a => by match a with | ⟨0, _⟩ => rfl) inb_S1_S1_0 ft
  exact (congrFun e _).trans (congrArg (ft : IVec S1 32) (funext fun a => by match a with | ⟨0, _⟩ => rfl))

variable (hid : ∀ c : Dev nD, (0 : Int) ≤ ((m ((c.tc : Thread nD τ).loc main_arg0) : IVec S1 32) (ix1 0)).toInt)
include hid

theorem word0_toNat (c : Dev nD) :
    (R0.word0 (V3 m ρ) c : BitVec 32).toNat = (Cert.Spec.rowOf ((m ((c.tc : Thread nD τ).loc main_arg0) : IVec S1 32) (ix1 0))).val := by
  unfold R0.word0
  rw [wordOf_eq]
  have e : V3 m ρ c main_v0 = W2 m ρ c (Proc.devRef .tc main_v0) :=
    StableHlo.after_of_writes_sub hostOps0_2 _ hostOps0_2_writes (by decide)
  rw [e]
  exact HostVal.table_row (W0 m ρ c) (hid c)

theorem ok_of_ids : R0.Ok0 (V3 m ρ) := fun c a => by
  have h := word0_toNat m ρ hid c
  have hr := (Cert.Spec.rowOf ((m ((c.tc : Thread nD τ).loc main_arg0) : IVec S1 32) (ix1 0))).isLt
  match a with
  | ⟨0, _⟩ => show (R0.word0 (V3 m ρ) c : BitVec 32).toNat + 1 ≤ 50257; omega
  | ⟨1, _⟩ => show 0 + 1024 ≤ 1024; omega

end Cert.Kernel.KFinal

end
-- ==== Proof.LibGatherRows.lean ====
import Idealize.ShloMosaic.Lib.ValueIdx

noncomputable section

namespace Cert.GatherRows

open Idealize.ShloMosaic Idealize.ShloMosaic.ValueIdx

/-- Result row `j` is the operand's row at the `j`-th start index, read signed and clamped into the rows that exist. -/
theorem gather_rows2 {α : Type} {N C n w : Nat} (hN : 0 < N)
    (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (j : Fin n) (k : Fin C) :
    Host.gather d x idx (ix2 j k)
      = x (ix2 ⟨min (idx (ix2 j (0 : Fin 1))).toInt.toNat (N - 1), by omega⟩ k) := by
  obtain ⟨off, coll, ob, sib, sim, ivd, ss, wf⟩ := d
  subst hoff hcoll hob hsim hivd
  have hsl : ss 0 = 1 := GatherDims.slice_collapsed ⟨_, _, _, sib, _, _, ss, wf⟩ 0 (List.mem_singleton.mpr rfl)
  unfold Host.gather
  congr 1
  funext a
  refine Fin.ext ?_
  match a with
  | ⟨0, _⟩ =>
    show min (idx (GatherDims.siIdx ⟨_, _, _, sib, _, _, ss, wf⟩ (ix2 j k) ⟨0, _⟩)).toInt.toNat (N - ss 0) + 0 + 0 = _
    rw [hsl]
    exact congrArg (fun i => min (idx i).toInt.toNat (N - 1))
      (funext fun b => Fin.ext (by match b with | ⟨0, _⟩ => rfl | ⟨1, _⟩ => rfl))
  | ⟨1, _⟩ =>
    show GatherDims.start _ (ix2 j k) idx 1 + GatherDims.batchCoord _ (ix2 j k) 1 + GatherDims.offCoord _ (ix2 j k) 1 = k.val
    rw [GatherDims.batchCoord_eq_zero _ _ _ List.not_mem_nil]
    unfold GatherDims.start GatherDims.offCoord
    rw [dif_neg (show (1 : Fin 2) ∉ [0] by decide)]
    split
    · exact Nat.zero_add _
    · exact absurd (show (1 : Fin 2) ∈ (List.finRange 2).filter (· ∉ [0] ++ []) by decide) ‹_›

end Cert.GatherRows

end
-- ==== Proof.RefCell.lean ====
import proofs.«429347_j5763846111973_3_alg».proof.Proof.Gen.ReferenceIdeal
import proofs.«429347_j5763846111973_3_alg».proof.Proof.Spec
import Idealize.ShloMosaic.Lib.ValueLayout
import Idealize.ShloMosaic.Lib.IdealHost
import Idealize.ShloMosaic.Lib.StackMember

noncomputable section

open scoped BigOperators

namespace Cert.ReferenceIdeal.RefCell

open Cert.ReferenceIdeal Cert.ReferenceIdeal.Gen Idealize.ShloMosaic Idealize.ShloMosaic.ValueIdx
open Cert.Spec (gate cellC cellH col cat)

section Layout
variable {α : Type}

/-- Member `d` of a stack of matrices: the one-member cut at offset `d` on the leading axis, that axis dropped. -/
theorem member3_apply {n a b : ℕ} {X : (⟨3, ![n, a, b]⟩ : Shape).Idx → α} (d : Fin n)
    {hs : (⟨3, ![n, a, b]⟩ : Shape).Slices ![d.val, 0, 0] ⟨3, ![1, a, b]⟩}
    {hc : (⟨3, ![1, a, b]⟩ : Shape).ShapeCasts ⟨2, ![a, b]⟩} (i : Fin a) (j : Fin b) :
    shapeCast ⟨2, ![a, b]⟩ (extractStridedSlice ⟨3, ![1, a, b]⟩ ![d.val, 0, 0] X hs) hc (ix2 i j) = X (ix3 d i j) := by
  rw [shapeCast_1ab_ab_apply]
  exact extractStridedSlice_apply _ _ _ _ _ fun ax => by
    match ax with
    | ⟨0, _⟩ => rfl
    | ⟨1, _⟩ | ⟨2, _⟩ => exact (Nat.zero_add _).symm

theorem member2_apply {n a : ℕ} {X : (⟨2, ![n, a]⟩ : Shape).Idx → α} (d : Fin n)
    {hs : (⟨2, ![n, a]⟩ : Shape).Slices ![d.val, 0] ⟨2, ![1, a]⟩}
    {hc : (⟨2, ![1, a]⟩ : Shape).ShapeCasts ⟨1, ![a]⟩} (i : Fin a) :
    shapeCast ⟨1, ![a]⟩ (extractStridedSlice ⟨2, ![1, a]⟩ ![d.val, 0] X hs) hc (ix1 i) = X (ix2 d i) := by
  rw [shapeCast_1a_a_apply]
  exact slice2_axis0_apply _ X hs 0 i d rfl

end Layout

theorem biasRow_apply (b : FVec Ideal S8192 .f32) (j : Fin 8192) :
    broadcastInDim S1x8192 ![1] bcast_S8192_S1x8192_1 b (ix2 0 j) = b (ix1 j) :=
  broadcastInDim_apply _ _ _ _ _ fun a => by match a with | ⟨0, _⟩ => rfl

abbrev oneRow : FVec Ideal S1x2048 .f32 := broadcastInDim S1x2048 ![] bcast_S_S1x2048 (constant S_ .f32 0x3F800000#32)

abbrev sigBand (G : FVec Ideal S1x8192 .f32) (o : ℕ) (hs : S1x8192.Slices ![0, o] S1x2048) : FVec Ideal S1x2048 .f32 :=
  Host.divf oneRow (addf oneRow (Host.exp (Host.negf (extractStridedSlice S1x2048 ![0, o] G hs))))

/-- `1 / (1 + exp (-g))` over the band of the gate row that starts at column `o` is the logistic function of gate `o + q`. -/
theorem sigBand_apply (G : FVec Ideal S1x8192 .f32) (o : ℕ) (hs : S1x8192.Slices ![0, o] S1x2048) (q : Fin 2048)
    (k : Fin 8192) (hk : k.val = o + q.val) : sigBand G o hs (ix2 0 q) = Ideal.logistic (G (ix2 0 k)) := by
  have one : oneRow (ix2 0 q) = 1 := by
    show broadcastInDim S1x2048 ![] bcast_S_S1x2048 (constant S_ .f32 0x3F800000#32) _ = 1
    rw [broadcastInDim_scalar_apply, constant_apply, Ideal.ofBits_one_f32]
  show Ideal.div (oneRow (ix2 0 q)) (oneRow (ix2 0 q) + Ideal.exp (-(extractStridedSlice S1x2048 ![0, o] G hs (ix2 0 q)))) = _
  rw [one, slice2_axis1_apply o G hs 0 q k hk]
  rfl

def cellCV (G : FVec Ideal S1x8192 .f32) (c : FVec Ideal S1x2048 .f32) : FVec Ideal S1x2048 .f32 :=
  addf (mulf (sigBand G 2048 slices_S1x8192_S1x2048_0_2048) c) (mulf (sigBand G 0 slices_S1x8192_S1x2048_0_0) (Host.tanh (extractStridedSlice S1x2048 ![0, 4096] G slices_S1x8192_S1x2048_0_4096)))

def cellHV (G : FVec Ideal S1x8192 .f32) (C : FVec Ideal S1x2048 .f32) : FVec Ideal S1x2048 .f32 :=
  mulf (sigBand G 6144 slices_S1x8192_S1x2048_0_6144) (Host.tanh C)

section Cell
variable {K : ℕ} (d : DotDims ⟨2, ![1, K]⟩ ⟨2, ![K, 8192]⟩ ⟨2, ![1, 8192]⟩) (hd : d = DotDims.plain 1 K 8192)
  (ht : (⟨2, ![8192, K]⟩ : Shape).Transposes [1, 0] ⟨2, ![K, 8192]⟩)
  (x : FVec Ideal ⟨2, ![1, K]⟩ .f32) (W : FVec Ideal ⟨2, ![8192, K]⟩ .f32) (b1 : FVec Ideal S8192 .f32)
  (h : FVec Ideal S1x2048 .f32) (Whh : FVec Ideal S8192x2048 .f32) (b2 : FVec Ideal S8192 .f32)

def gatesV : FVec Ideal S1x8192 .f32 :=
  addf (addf (addf (Host.dotGeneral d none x (transpose ⟨2, ![K, 8192]⟩ [1, 0] W ht)) (broadcastInDim S1x8192 ![1] bcast_S8192_S1x8192_1 b1)) (Host.dotGeneral dot_S1x2048_S2048x8192_S1x8192_1_0_0_1_n_n none h (transpose S2048x8192 [1, 0] Whh transposes_S8192x2048_S2048x8192_1_0))) (broadcastInDim S1x8192 ![1] bcast_S8192_S1x8192_1 b2)

include hd

/-- A row times a transposed weight matrix, at column `j`: the sum over `k` of `x k * W j k`. -/
theorem dotT_apply {x' : Fin K → EReal} {W' : Fin 8192 → Fin K → EReal}
    (hx : ∀ k, x (ix2 0 k) = x' k) (hW : ∀ j k, W (ix2 j k) = W' j k) (j : Fin 8192) :
    Host.dotGeneral d none x (transpose ⟨2, ![K, 8192]⟩ [1, 0] W ht) (ix2 0 j) = ∑ k, x' k * W' j k := by
  subst hd
  rw [StackMember.dotGeneral_plain_apply]
  exact Finset.sum_congr rfl fun k _ => by rw [transpose_ix2_apply, hx, hW]

/-- One cell of the reference, its operands read by coordinates: the new cell row and the new hidden row are the specification's. -/
theorem cell_spec (c : FVec Ideal S1x2048 .f32)
    {x' : Fin K → EReal} {W' : Fin 8192 → Fin K → EReal} {b1' : Fin 8192 → EReal}
    {h' : Fin 2048 → EReal} {Whh' : Fin 8192 → Fin 2048 → EReal} {b2' : Fin 8192 → EReal} {c' : Fin 2048 → EReal}
    (hx : ∀ k, x (ix2 0 k) = x' k) (hW : ∀ j k, W (ix2 j k) = W' j k) (hb1 : ∀ j, b1 (ix1 j) = b1' j)
    (hh : ∀ k, h (ix2 0 k) = h' k) (hWhh : ∀ j k, Whh (ix2 j k) = Whh' j k) (hb2 : ∀ j, b2 (ix1 j) = b2' j)
    (hc : ∀ q, c (ix2 0 q) = c' q) :
    (∀ q, cellCV (gatesV d ht x W b1 h Whh b2) c (ix2 0 q) = cellC (gate x' W' h' Whh' b1' b2') c' q) ∧
      ∀ q, cellHV (gatesV d ht x W b1 h Whh b2) (cellCV (gatesV d ht x W b1 h Whh b2) c) (ix2 0 q)
        = cellH (gate x' W' h' Whh' b1' b2') c' q := by
  have hG : ∀ j, gatesV d ht x W b1 h Whh b2 (ix2 0 j) = gate x' W' h' Whh' b1' b2' j := fun j => by
    rw [gatesV, addf_apply, addf_apply, addf_apply, dotT_apply d hd ht x W hx hW, dotT_apply dot_S1x2048_S2048x8192_S1x8192_1_0_0_1_n_n rfl _ h Whh hh hWhh, biasRow_apply, biasRow_apply, hb1, hb2]
    unfold gate
    rw [add_assoc, add_assoc, add_assoc, add_left_comm (b1' j)]
  generalize gatesV d ht x W b1 h Whh b2 = G at hG ⊢
  have hC : ∀ q, cellCV G c (ix2 0 q) = cellC (gate x' W' h' Whh' b1' b2') c' q := fun q => by
    show sigBand G 2048 _ (ix2 0 q) * c (ix2 0 q)
      + sigBand G 0 _ (ix2 0 q) * Ideal.tanh (extractStridedSlice S1x2048 ![0, 4096] G slices_S1x8192_S1x2048_0_4096 (ix2 0 q)) = _
    rw [sigBand_apply G 2048 _ q (col 2048 q) rfl, sigBand_apply G 0 _ q (col 0 q) rfl,
      slice2_axis1_apply 4096 G _ 0 q (col 4096 q) rfl, hG, hG, hG, hc]
    rfl
  refine ⟨hC, fun q => ?_⟩
  show sigBand G 6144 _ (ix2 0 q) * Ideal.tanh (cellCV G c (ix2 0 q)) = _
  rw [sigBand_apply G 6144 _ q (col 6144 q) rfl, hG, hC]
  rfl

end Cell

/-- Two rows of 2048 laid side by side read the specification's `cat`. -/
theorem catRow_apply (a b : FVec Ideal S1x2048 .f32) (a' b' : Fin 2048 → EReal)
    (ha : ∀ q, a (ix2 0 q) = a' q) (hb : ∀ q, b (ix2 0 q) = b' q) (k : Fin 4096) :
    concatenate S1x4096 1 [⟨S1x2048, a⟩, ⟨S1x2048, b⟩] concatenates_S1x2048_S1x2048_S1x4096_d1 (ix2 0 k) = cat a' b' k := by
  unfold cat
  split
  · rename_i hk
    rw [concatenate_pair_apply_left 1 a b _ (ix2 0 k) rfl (ix2 0 ⟨k.val, hk⟩)
      (fun c => by match c with | ⟨0, _⟩ => rfl | ⟨1, _⟩ => rfl)]
    exact ha _
  · rw [concatenate_pair_apply_right 1 a b _ (ix2 0 k) rfl rfl (ix2 0 ⟨k.val - 2048, by have := k.isLt; omega⟩)
      (fun c hc => by match c with | ⟨0, _⟩ => rfl | ⟨1, _⟩ => exact absurd rfl hc)
      (by show k.val - 2048 + 2048 = k.val; omega)]
    exact hb _

theorem liftRow_apply {n : ℕ} (h : (⟨2, ![1, n]⟩ : Shape).BroadcastsInDim ⟨3, ![1, 1, n]⟩ ![1, 2])
    (x : FVec Ideal ⟨2, ![1, n]⟩ .f32) (i : (⟨3, ![1, 1, n]⟩ : Shape).Idx) :
    broadcastInDim ⟨3, ![1, 1, n]⟩ ![1, 2] h x i = x (ix2 0 (i 2)) :=
  broadcastInDim_apply _ _ _ _ _ fun a => by
    match a with
    | ⟨0, _⟩ => rfl
    | ⟨1, _⟩ =>
      show (i 2).val = if n = 1 then 0 else (i 2).val
      have : (i 2).val < n := (i 2).isLt
      split <;> omega

abbrev lift3 (r : FVec Ideal S1x2048 .f32) : FVec Ideal S1x1x2048 .f32 :=
  broadcastInDim S1x1x2048 ![1, 2] bcast_S1x2048_S1x1x2048_1_2 r

/-- Four rows stacked: member `s` of the stack is the `s`-th row. -/
theorem stack4_eq (r0 r1 r2 r3 : FVec Ideal S1x2048 .f32) (f : Fin 4 → Fin 2048 → EReal)
    (hr : ∀ s q, ![r0, r1, r2, r3] s (ix2 0 q) = f s q) :
    concatenate S4x1x2048 0 [⟨S1x1x2048, lift3 r0⟩, ⟨S1x1x2048, lift3 r1⟩, ⟨S1x1x2048, lift3 r2⟩, ⟨S1x1x2048, lift3 r3⟩] concatenates_S1x1x2048_S1x1x2048_S1x1x2048_S1x1x2048_S4x1x2048_d0
      = fun i => f (i 0) (i 2) := by
  funext i
  refine (concatenate_ofFn_unit_apply 0
    (fun n => lift3 (![r0, r1, r2, r3] n))
    concatenates_S1x1x2048_S1x1x2048_S1x1x2048_S1x1x2048_S4x1x2048_d0 rfl rfl i (i 0) rfl (ix3 0 0 (i 2)) fun b hb => ?_).trans
    ((liftRow_apply _ _ _).trans (hr _ _))
  match b with
  | ⟨0, _⟩ => exact absurd rfl hb
  | ⟨1, _⟩ => exact (Nat.lt_one_iff.1 (i 1).isLt).symm
  | ⟨2, _⟩ => rfl

theorem toInt_toNat_of_nonneg (w : BitVec 32) (h : (0 : Int) ≤ w.toInt) : w.toInt.toNat = w.toNat := by
  have hc := BitVec.toInt_eq_toNat_cond w
  split at hc <;> omega

/-- "Add the table's length if negative" leaves a word that is non-negative as a signed number as it is. -/
theorem startIdx_eq (ids : IVec S1 32) (h : (0 : Int) ≤ (ids (ix1 0)).toInt) :
    broadcastInDim S1x1 ![0] bcast_S1_S1x1_0 (select (cmpi .slt ids (broadcastInDim S1 ![] bcast_S_S1 (constantI S_ 32 0#32))) (addi ids (broadcastInDim S1 ![] bcast_S_S1 (constantI S_ 32 50257#32))) ids) (ix2 0 0)
      = ids (ix1 0) := by
  rw [broadcastInDim_apply _ _ _ _ (ix1 0) (fun a => by match a with | ⟨0, _⟩ => rfl)]
  show Scalar.select (IntOp.cmpi .slt (ids (ix1 0)) 0#32) _ _ = _
  have hs : (ids (ix1 0)).slt 0#32 = false := by simp [BitVec.slt]; omega
  unfold IntOp.cmpi
  rw [hs]
  exact select_zero _ _

end Cert.ReferenceIdeal.RefCell

end
-- ==== Proof.RefValue.lean ====
import proofs.«429347_j5763846111973_3_alg».proof.Proof.Gen.ReferenceIdeal.Run
import proofs.«429347_j5763846111973_3_alg».proof.Proof.Spec
import proofs.«429347_j5763846111973_3_alg».proof.Proof.LibGatherRows
import proofs.«429347_j5763846111973_3_alg».proof.Proof.RefCell

noncomputable section

namespace Cert.ReferenceIdeal.RefValue

open Cert.ReferenceIdeal Cert.ReferenceIdeal.Gen Cert.ReferenceIdeal.Value Cert.ReferenceIdeal.RefCell Idealize.ShloMosaic Idealize.ShloMosaic.ValueIdx
open Cert.Spec (Args)

def refArgs (V0 : Valuation τ sig (Elt Ideal)) : Cert.Spec.Args :=
  Cert.Spec.argsOf (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11))

section
variable (V0 : Valuation τ sig (Elt Ideal))
variable (hid : (0 : Int) ≤ ((V0 (Proc.devRef .tc main_arg0) : S1.Idx → BitVec 32) (ix1 0)).toInt)
include hid

/-- For a non-negative index word the row gather's clamped start is the specification's row. -/
theorem x0_eq (k : Fin 1024) : res_main_v6 V0 (ix2 0 k) = (refArgs V0).x0 k := by
  unfold res_main_v6
  rw [Cert.GatherRows.gather_rows2 (by decide) _ rfl rfl rfl rfl rfl]
  refine congrArg (fun r => V0 (Proc.devRef .tc main_arg3) (ix2 r k)) (Fin.ext ?_)
  show min (BitVec.toInt _).toNat (50257 - 1) = min (BitVec.toNat _) 50256
  rw [startIdx_eq _ hid, toInt_toNat_of_nonneg _ hid]

theorem cell00 : (∀ q, res_main_v47 V0 (ix2 0 q) = (refArgs V0).C0 0 q) ∧ ∀ q, res_main_v55 V0 (ix2 0 q) = (refArgs V0).H0 0 q :=
  cell_spec dot_S1x1024_S1024x8192_S1x8192_1_0_0_1_n_n rfl transposes_S8192x1024_S1024x8192_1_0 (res_main_v6 V0) _ _ _ _ _ _ (x0_eq V0 hid) (member3_apply 0) (member2_apply 0)
    (member3_apply (Args.st 0 0) 0) (member3_apply 0) (member2_apply 0) (member3_apply (Args.st 0 0) 0)

theorem cell01 : (∀ q, res_main_v96 V0 (ix2 0 q) = (refArgs V0).C0 1 q) ∧ ∀ q, res_main_v104 V0 (ix2 0 q) = (refArgs V0).H0 1 q :=
  cell_spec dot_S1x1024_S1024x8192_S1x8192_1_0_0_1_n_n rfl transposes_S8192x1024_S1024x8192_1_0 (res_main_v6 V0) _ _ _ _ _ _ (x0_eq V0 hid) (member3_apply 1) (member2_apply 1)
    (member3_apply (Args.st 0 1) 0) (member3_apply 1) (member2_apply 1) (member3_apply (Args.st 0 1) 0)

theorem x1_eq (k : Fin 4096) : res_main_v105 V0 (ix2 0 k) = (refArgs V0).x1 k :=
  catRow_apply _ _ _ _ (cell00 V0 hid).2 (cell01 V0 hid).2 k

theorem cell10 : (∀ q, res_main_v146 V0 (ix2 0 q) = (refArgs V0).C1 0 q) ∧ ∀ q, res_main_v154 V0 (ix2 0 q) = (refArgs V0).H1 0 q :=
  cell_spec dot_S1x4096_S4096x8192_S1x8192_1_0_0_1_n_n rfl transposes_S8192x4096_S4096x8192_1_0 (res_main_v105 V0) _ _ _ _ _ _ (x1_eq V0 hid) (member3_apply 0) (member2_apply 0)
    (member3_apply (Args.st 1 0) 0) (member3_apply 0) (member2_apply 0) (member3_apply (Args.st 1 0) 0)

theorem cell11 : (∀ q, res_main_v195 V0 (ix2 0 q) = (refArgs V0).C1 1 q) ∧ ∀ q, res_main_v203 V0 (ix2 0 q) = (refArgs V0).H1 1 q :=
  cell_spec dot_S1x4096_S4096x8192_S1x8192_1_0_0_1_n_n rfl transposes_S8192x4096_S4096x8192_1_0 (res_main_v105 V0) _ _ _ _ _ _ (x1_eq V0 hid) (member3_apply 1) (member2_apply 1)
    (member3_apply (Args.st 1 1) 0) (member3_apply 1) (member2_apply 1) (member3_apply (Args.st 1 1) 0)

theorem out_eq :
    broadcastInDim S1x1x4096 ![1, 2] bcast_S1x4096_S1x1x4096_1_2 (concatenate S1x4096 1 [⟨S1x2048, (res_main_v154 V0)⟩, ⟨S1x2048, (res_main_v203 V0)⟩] concatenates_S1x2048_S1x2048_S1x4096_d1)
      = fun i => (refArgs V0).out (i 2) := by
  funext i
  rw [liftRow_apply]
  exact catRow_apply _ _ _ _ (cell10 V0 hid).2 (cell11 V0 hid).2 (i 2)

theorem hn_eq :
    concatenate S4x1x2048 0 [⟨S1x1x2048, (broadcastInDim S1x1x2048 ![1, 2] bcast_S1x2048_S1x1x2048_1_2 (res_main_v55 V0))⟩, ⟨S1x1x2048, (broadcastInDim S1x1x2048 ![1, 2] bcast_S1x2048_S1x1x2048_1_2 (res_main_v104 V0))⟩, ⟨S1x1x2048, (broadcastInDim S1x1x2048 ![1, 2] bcast_S1x2048_S1x1x2048_1_2 (res_main_v154 V0))⟩, ⟨S1x1x2048, (broadcastInDim S1x1x2048 ![1, 2] bcast_S1x2048_S1x1x2048_1_2 (res_main_v203 V0))⟩] concatenates_S1x1x2048_S1x1x2048_S1x1x2048_S1x1x2048_S4x1x2048_d0
      = fun i => (refArgs V0).hn (i 0) (i 2) :=
  stack4_eq _ _ _ _ (refArgs V0).hn fun s => by
    fin_cases s
    exacts [(cell00 V0 hid).2, (cell01 V0 hid).2, (cell10 V0 hid).2, (cell11 V0 hid).2]

theorem cn_eq :
    concatenate S4x1x2048 0 [⟨S1x1x2048, (broadcastInDim S1x1x2048 ![1, 2] bcast_S1x2048_S1x1x2048_1_2 (res_main_v47 V0))⟩, ⟨S1x1x2048, (broadcastInDim S1x1x2048 ![1, 2] bcast_S1x2048_S1x1x2048_1_2 (res_main_v96 V0))⟩, ⟨S1x1x2048, (broadcastInDim S1x1x2048 ![1, 2] bcast_S1x2048_S1x1x2048_1_2 (res_main_v146 V0))⟩, ⟨S1x1x2048, (broadcastInDim S1x1x2048 ![1, 2] bcast_S1x2048_S1x1x2048_1_2 (res_main_v195 V0))⟩] concatenates_S1x1x2048_S1x1x2048_S1x1x2048_S1x1x2048_S4x1x2048_d0
      = fun i => (refArgs V0).cn (i 0) (i 2) :=
  stack4_eq _ _ _ _ (refArgs V0).cn fun s => by
    fin_cases s
    exacts [(cell00 V0 hid).1, (cell01 V0 hid).1, (cell10 V0 hid).1, (cell11 V0 hid).1]

end

end Cert.ReferenceIdeal.RefValue

end
-- ==== Proof.lean ====
/-
  One step of a two-layer bidirectional recurrent cell on an embedding row, against its plain reference: both kernel programs run
  to the end leaving every argument as launched (the index word names a row of the table: the precondition makes it non-negative,
  the program clamps it above), and at exact arithmetic both sides' results are the specification's functions of the arguments:
  the gate sums add the same four summands in two orders.
-/
import proofs.«429347_j5763846111973_3_alg».proof.Defs
import proofs.«429347_j5763846111973_3_alg».proof.Proof.Gen.Kernel
import proofs.«429347_j5763846111973_3_alg».proof.Proof.Gen.KernelIdeal
import proofs.«429347_j5763846111973_3_alg».proof.Proof.Gen.ReferenceIdeal
import proofs.«429347_j5763846111973_3_alg».proof.Proof.Gen.Pre_finite_inputs
import proofs.«429347_j5763846111973_3_alg».proof.Proof.Run
import proofs.«429347_j5763846111973_3_alg».proof.Proof.RunArgs
import proofs.«429347_j5763846111973_3_alg».proof.Proof.OkIds
import proofs.«429347_j5763846111973_3_alg».proof.Proof.KFinal
import proofs.«429347_j5763846111973_3_alg».proof.Proof.Bits.Run
import proofs.«429347_j5763846111973_3_alg».proof.Proof.Bits.RunArgs
import proofs.«429347_j5763846111973_3_alg».proof.Proof.Bits.OkIds
import proofs.«429347_j5763846111973_3_alg».proof.Proof.PreIds
import proofs.«429347_j5763846111973_3_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ hpre =>
  have hOk := Cert.Kernel.KFinal.ok_of_ids m ρ fun c => Cert.PreIds.ids_nonneg _ _ _ _ _ _ _ _ _ _ _ _ (hpre c)
  (θ_run Cert.Kernel.defs _ _).mono (fun _ h c => Cert.Kernel.Run.args_kept m ρ hOk c _ (h c)) (Cert.Kernel.Run.run_all m ρ hOk)

theorem frame_ki : Cert.frame_KernelIdeal := fun m ρ hpre =>
  have hOk := Cert.KernelIdeal.KFinal.ok_of_ids m ρ fun c => Cert.PreIds.ids_nonneg _ _ _ _ _ _ _ _ _ _ _ _ (hpre c)
  (θ_run Cert.KernelIdeal.defs _ _).mono (fun _ h c => Cert.KernelIdeal.Run.args_kept m ρ hOk c _ (h c)) (Cert.KernelIdeal.Run.run_all m ρ hOk)

theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  have hid : ∀ c : Dev Cert.KernelIdeal.nD, (0 : Int) ≤ ((m ((c.tc : Thread Cert.KernelIdeal.nD Cert.KernelIdeal.τ).loc Cert.KernelIdeal.main_arg0) : IVec Cert.KernelIdeal.S1 32) (ix1 0)).toInt :=
    fun c => Cert.PreIds.ids_nonneg _ _ _ _ _ _ _ _ _ _ _ _ (hpre c)
  have hOk := Cert.KernelIdeal.KFinal.ok_of_ids m ρ hid
  refine ⟨fun c i => (Cert.KernelIdeal.KFinal.kArgs m c).out (i 2), fun c i => (Cert.KernelIdeal.KFinal.kArgs m c).hn (i 0) (i 2),
    fun c i => (Cert.KernelIdeal.KFinal.kArgs m c).cn (i 0) (i 2), ?_, ?_⟩
  · exact (θ_run Cert.KernelIdeal.defs _ _).mono (fun _ h c =>
      ⟨(h c _ (Cert.KernelIdeal.Run.mem_uc' Cert.KernelIdeal.main_v16 (by decide))).trans (Cert.KernelIdeal.KFinal.out_eq' m ρ hid hOk c),
      (h c _ (Cert.KernelIdeal.Run.mem_uc' Cert.KernelIdeal.main_v17 (by decide))).trans (Cert.KernelIdeal.KFinal.hn_eq' m ρ hid hOk c),
      (h c _ (Cert.KernelIdeal.Run.mem_uc' Cert.KernelIdeal.main_v18 (by decide))).trans (Cert.KernelIdeal.KFinal.cn_eq' m ρ hid hOk c),
      Cert.KernelIdeal.Run.args_kept m ρ hOk c _ (h c)⟩) (Cert.KernelIdeal.Run.run_all m ρ hOk)
  · refine (θ_run Cert.ReferenceIdeal.defs _ _).mono (fun _ h c => ?_) (Cert.ReferenceIdeal.Value.run (F := Ideal) m' ρ')
    obtain ⟨h0, h1, h2, h3, h4, h5, h6, h7, h8, h9, h10, h11⟩ := hagree c
    have hid' : (0 : Int) ≤ ((StableHlo.launchContents m' c (Proc.devRef .tc Cert.ReferenceIdeal.main_arg0) : Cert.ReferenceIdeal.S1.Idx → BitVec 32) (ix1 0)).toInt := by
      have e : StableHlo.launchContents m' c (Proc.devRef .tc Cert.ReferenceIdeal.main_arg0) = m ((c.tc : Thread Cert.KernelIdeal.nD Cert.KernelIdeal.τ).loc Cert.KernelIdeal.main_arg0) := h0
      rw [e]; exact hid c
    have ea : Cert.ReferenceIdeal.RefValue.refArgs (StableHlo.launchContents m' c) = Cert.KernelIdeal.KFinal.kArgs m c := by
      unfold Cert.ReferenceIdeal.RefValue.refArgs Cert.KernelIdeal.KFinal.kArgs Cert.KernelIdeal.KFinal.argAt
      show Cert.Spec.argsOf (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) = _
      rw [h0, h1, h2, h3, h4, h5, h6, h7, h8, h9, h10, h11]
    refine ⟨(h c).1.trans ?_, (h c).2.1.trans ?_, (h c).2.2.1.trans ?_, (h c).2.2.2⟩
    · show _ = fun i : Cert.ReferenceIdeal.S1x1x4096.Idx => (Cert.KernelIdeal.KFinal.kArgs m c).out (i 2)
      rw [Cert.ReferenceIdeal.RefValue.out_eq _ hid', ea]
    · show _ = fun i : Cert.ReferenceIdeal.S4x1x2048.Idx => (Cert.KernelIdeal.KFinal.kArgs m c).hn (i 0) (i 2)
      rw [Cert.ReferenceIdeal.RefValue.hn_eq _ hid', ea]
    · show _ = fun i : Cert.ReferenceIdeal.S4x1x2048.Idx => (Cert.KernelIdeal.KFinal.kArgs m c).cn (i 0) (i 2)
      rw [Cert.ReferenceIdeal.RefValue.cn_eq _ hid', ea]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
